-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v170)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144 : Shape := ⟨1, ![262144]⟩
abbrev S2x65536 : Shape := ⟨2, ![2, 65536]⟩
abbrev S2x16384 : Shape := ⟨2, ![2, 16384]⟩
abbrev S2x2048 : Shape := ⟨2, ![2, 2048]⟩
abbrev S64x64 : Shape := ⟨2, ![64, 64]⟩
abbrev S64 : Shape := ⟨1, ![64]⟩
abbrev S8192x64 : Shape := ⟨2, ![8192, 64]⟩
abbrev S64x10 : Shape := ⟨2, ![64, 10]⟩
abbrev S10 : Shape := ⟨1, ![10]⟩
abbrev S_ : Shape := ⟨0, ![]⟩
abbrev S1x16384 : Shape := ⟨2, ![1, 16384]⟩
abbrev S1x2048 : Shape := ⟨2, ![1, 2048]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8192x64 : S_.BroadcastsInDim S8192x64 (![] : Fin 0 → Fin S8192x64.rank)
  reducesTo_S8192x64_S_d0_1 : S8192x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S2x65536 : S_.BroadcastsInDim S2x65536 (![] : Fin 0 → Fin S2x65536.rank)
  reducesTo_S2x65536_S_d0_1 : S2x65536.ReducesTo [0, 1] S_
  bcast_S_S2x16384 : S_.BroadcastsInDim S2x16384 (![] : Fin 0 → Fin S2x16384.rank)
  reducesTo_S2x16384_S_d0_1 : S2x16384.ReducesTo [0, 1] S_
  slices_S2x16384_S1x16384_0_0 : S2x16384.Slices ![0, 0] S1x16384
  bcast_S_S1x16384 : S_.BroadcastsInDim S1x16384 (![] : Fin 0 → Fin S1x16384.rank)
  reducesTo_S1x16384_S_d0_1 : S1x16384.ReducesTo [0, 1] S_
  slices_S2x16384_S1x16384_1_0 : S2x16384.Slices ![1, 0] S1x16384
  bcast_S_S2x2048 : S_.BroadcastsInDim S2x2048 (![] : Fin 0 → Fin S2x2048.rank)
  reducesTo_S2x2048_S_d0_1 : S2x2048.ReducesTo [0, 1] S_
  slices_S2x2048_S1x2048_0_0 : S2x2048.Slices ![0, 0] S1x2048
  bcast_S_S1x2048 : S_.BroadcastsInDim S1x2048 (![] : Fin 0 → Fin S1x2048.rank)
  reducesTo_S1x2048_S_d0_1 : S1x2048.ReducesTo [0, 1] S_
  slices_S2x2048_S1x2048_1_0 : S2x2048.Slices ![1, 0] S1x2048

variable [Facts]

def fn_part11 {F : FTy → Type} [FloatOps F] (main_arg6 : IVec S2x2048 32) (main_v182 : IVec S_ 1) (main_v185 : IVec S1x2048 1) (main_c_75 : IVec S_ 1) : IVec S_ 1 :=
  let main_v186 : IVec S_ 1 := (fun x v => Host.reduce IntOp.andi x v reducesTo_S1x2048_S_d0_1 h_S_) main_v185 main_c_75
  let main_v187 : IVec S_ 1 := andi main_v182 main_v186
  let main_c_76 : IVec S_ 32 := constantI S_ 32 0#32
  let main_v188 : IVec S2x2048 32 := broadcastInDim S2x2048 ![] bcast_S_S2x2048 main_c_76
  let main_v189 : IVec S2x2048 1 := cmpi .sge main_arg6 main_v188
  let main_c_77 : IVec S_ 1 := constantI S_ 1 1#1
  let main_v190 : IVec S_ 1 := (fun x v => Host.reduce IntOp.andi x v reducesTo_S2x2048_S_d0_1 h_S_) main_v189 main_c_77
  let main_v191 : IVec S_ 1 := andi main_v187 main_v190
  let main_c_78 : IVec S_ 32 := constantI S_ 32 128#32
  let main_v192 : IVec S2x2048 32 := broadcastInDim S2x2048 ![] bcast_S_S2x2048 main_c_78
  let main_v193 : IVec S2x2048 1 := cmpi .slt main_arg6 main_v192
  let main_c_79 : IVec S_ 1 := constantI S_ 1 1#1
  let main_v194 : IVec S_ 1 := (fun x v => Host.reduce IntOp.andi x v reducesTo_S2x2048_S_d0_1 h_S_) main_v193 main_c_79
  let main_v195 : IVec S_ 1 := andi main_v191 main_v194
  main_v195

def fn_part10 {F : FTy → Type} [FloatOps F] (main_arg4 : IVec S2x16384 32) (main_arg5 : IVec S2x2048 32) (main_arg6 : IVec S2x2048 32) (main_v169 : IVec S_ 1) : IVec S_ 1 :=
  let main_c_68 : IVec S_ 32 := constantI S_ 32 1024#32
  let main_v170 : IVec S2x16384 32 := broadcastInDim S2x16384 ![] bcast_S_S2x16384 main_c_68
  let main_v171 : IVec S2x16384 1 := cmpi .slt main_arg4 main_v170
  let main_c_69 : IVec S_ 1 := constantI S_ 1 1#1
  let main_v172 : IVec S_ 1 := (fun x v => Host.reduce IntOp.andi x v reducesTo_S2x16384_S_d0_1 h_S_) main_v171 main_c_69
  let main_v173 : IVec S_ 1 := andi main_v169 main_v172
  let main_c_70 : IVec S_ 32 := constantI S_ 32 0#32
  let main_v174 : IVec S2x2048 32 := broadcastInDim S2x2048 ![] bcast_S_S2x2048 main_c_70
  let main_v175 : IVec S2x2048 1 := cmpi .sge main_arg5 main_v174
  let main_c_71 : IVec S_ 1 := constantI S_ 1 1#1
  let main_v176 : IVec S_ 1 := (fun x v => Host.reduce IntOp.andi x v reducesTo_S2x2048_S_d0_1 h_S_) main_v175 main_c_71
  let main_v177 : IVec S_ 1 := andi main_v173 main_v176
  let main_v178 : IVec S1x2048 32 := (extractStridedSlice S1x2048 ![0, 0] · slices_S2x2048_S1x2048_0_0) main_arg5
  let main_c_72 : IVec S_ 32 := constantI S_ 32 1024#32
  let main_v179 : IVec S1x2048 32 := broadcastInDim S1x2048 ![] bcast_S_S1x2048 main_c_72
  let main_v180 : IVec S1x2048 1 := cmpi .slt main_v178 main_v179
  let main_c_73 : IVec S_ 1 := constantI S_ 1 1#1
  let main_v181 : IVec S_ 1 := (fun x v => Host.reduce IntOp.andi x v reducesTo_S1x2048_S_d0_1 h_S_) main_v180 main_c_73
  let main_v182 : IVec S_ 1 := andi main_v177 main_v181
  let main_v183 : IVec S1x2048 32 := (extractStridedSlice S1x2048 ![1, 0] · slices_S2x2048_S1x2048_1_0) main_arg5
  let main_c_74 : IVec S_ 32 := constantI S_ 32 128#32
  let main_v184 : IVec S1x2048 32 := broadcastInDim S1x2048 ![] bcast_S_S1x2048 main_c_74
  let main_v185 : IVec S1x2048 1 := cmpi .slt main_v183 main_v184
  let main_c_75 : IVec S_ 1 := constantI S_ 1 1#1
  fn_part11 (F := F) main_arg6 main_v182 main_v185 main_c_75

def fn_part9 {F : FTy → Type} [FloatOps F] (main_arg3 : IVec S2x16384 32) (main_arg4 : IVec S2x16384 32) (main_arg5 : IVec S2x2048 32) (main_arg6 : IVec S2x2048 32) (main_v151 : IVec S_ 1) (main_v152 : IVec S2x16384 32) : IVec S_ 1 :=
  let main_v153 : IVec S2x16384 1 := cmpi .sge main_arg3 main_v152
  let main_c_61 : IVec S_ 1 := constantI S_ 1 1#1
  let main_v154 : IVec S_ 1 := (fun x v => Host.reduce IntOp.andi x v reducesTo_S2x16384_S_d0_1 h_S_) main_v153 main_c_61
  let main_v155 : IVec S_ 1 := andi main_v151 main_v154
  let main_v156 : IVec S1x16384 32 := (extractStridedSlice S1x16384 ![0, 0] · slices_S2x16384_S1x16384_0_0) main_arg3
  let main_c_62 : IVec S_ 32 := constantI S_ 32 8192#32
  let main_v157 : IVec S1x16384 32 := broadcastInDim S1x16384 ![] bcast_S_S1x16384 main_c_62
  let main_v158 : IVec S1x16384 1 := cmpi .slt main_v156 main_v157
  let main_c_63 : IVec S_ 1 := constantI S_ 1 1#1
  let main_v159 : IVec S_ 1 := (fun x v => Host.reduce IntOp.andi x v reducesTo_S1x16384_S_d0_1 h_S_) main_v158 main_c_63
  let main_v160 : IVec S_ 1 := andi main_v155 main_v159
  let main_v161 : IVec S1x16384 32 := (extractStridedSlice S1x16384 ![1, 0] · slices_S2x16384_S1x16384_1_0) main_arg3
  let main_c_64 : IVec S_ 32 := constantI S_ 32 1024#32
  let main_v162 : IVec S1x16384 32 := broadcastInDim S1x16384 ![] bcast_S_S1x16384 main_c_64
  let main_v163 : IVec S1x16384 1 := cmpi .slt main_v161 main_v162
  let main_c_65 : IVec S_ 1 := constantI S_ 1 1#1
  let main_v164 : IVec S_ 1 := (fun x v => Host.reduce IntOp.andi x v reducesTo_S1x16384_S_d0_1 h_S_) main_v163 main_c_65
  let main_v165 : IVec S_ 1 := andi main_v160 main_v164
  let main_c_66 : IVec S_ 32 := constantI S_ 32 0#32
  let main_v166 : IVec S2x16384 32 := broadcastInDim S2x16384 ![] bcast_S_S2x16384 main_c_66
  let main_v167 : IVec S2x16384 1 := cmpi .sge main_arg4 main_v166
  let main_c_67 : IVec S_ 1 := constantI S_ 1 1#1
  let main_v168 : IVec S_ 1 := (fun x v => Host.reduce IntOp.andi x v reducesTo_S2x16384_S_d0_1 h_S_) main_v167 main_c_67
  let main_v169 : IVec S_ 1 := andi main_v165 main_v168
  fn_part10 (F := F) main_arg4 main_arg5 main_arg6 main_v169

def fn_part8 {F : FTy → Type} [FloatOps F] (main_arg2 : IVec S2x65536 32) (main_arg3 : IVec S2x16384 32) (main_arg4 : IVec S2x16384 32) (main_arg5 : IVec S2x2048 32) (main_arg6 : IVec S2x2048 32) (main_arg34 : FVec F S10 .f32) (main_v133 : IVec S_ 1) (main_v136 : IVec S64x10 1) : IVec S_ 1 :=
  let main_c_53 : IVec S_ 1 := constantI S_ 1 1#1
  let main_v137 : IVec S_ 1 := (fun x v => Host.reduce IntOp.andi x v reducesTo_S64x10_S_d0_1 h_S_) main_v136 main_c_53
  let main_v138 : IVec S_ 1 := andi main_v133 main_v137
  let main_v139 : FVec F S10 .f32 := Host.absf main_arg34
  let main_cst_54 : FVec F S_ .f32 := constant S_ .f32 0x7F800000#32
  let main_v140 : FVec F S10 .f32 := broadcastInDim S10 ![] bcast_S_S10 main_cst_54
  let main_v141 : IVec S10 1 := cmpf .olt main_v139 main_v140
  let main_c_55 : IVec S_ 1 := constantI S_ 1 1#1
  let main_v142 : IVec S_ 1 := (fun x v => Host.reduce IntOp.andi x v reducesTo_S10_S_d0 h_S_) main_v141 main_c_55
  let main_v143 : IVec S_ 1 := andi main_v138 main_v142
  let main_c_56 : IVec S_ 32 := constantI S_ 32 0#32
  let main_v144 : IVec S2x65536 32 := broadcastInDim S2x65536 ![] bcast_S_S2x65536 main_c_56
  let main_v145 : IVec S2x65536 1 := cmpi .sge main_arg2 main_v144
  let main_c_57 : IVec S_ 1 := constantI S_ 1 1#1
  let main_v146 : IVec S_ 1 := (fun x v => Host.reduce IntOp.andi x v reducesTo_S2x65536_S_d0_1 h_S_) main_v145 main_c_57
  let main_v147 : IVec S_ 1 := andi main_v143 main_v146
  let main_c_58 : IVec S_ 32 := constantI S_ 32 8192#32
  let main_v148 : IVec S2x65536 32 := broadcastInDim S2x65536 ![] bcast_S_S2x65536 main_c_58
  let main_v149 : IVec S2x65536 1 := cmpi .slt main_arg2 main_v148
  let main_c_59 : IVec S_ 1 := constantI S_ 1 1#1
  let main_v150 : IVec S_ 1 := (fun x v => Host.reduce IntOp.andi x v reducesTo_S2x65536_S_d0_1 h_S_) main_v149 main_c_59
  let main_v151 : IVec S_ 1 := andi main_v147 main_v150
  let main_c_60 : IVec S_ 32 := constantI S_ 32 0#32
  let main_v152 : IVec S2x16384 32 := broadcastInDim S2x16384 ![] bcast_S_S2x16384 main_c_60
  fn_part9 (F := F) main_arg3 main_arg4 main_arg5 main_arg6 main_v151 main_v152

def fn_part7 {F : FTy → Type} [FloatOps F] (main_arg2 : IVec S2x65536 32) (main_arg3 : IVec S2x16384 32) (main_arg4 : IVec S2x16384 32) (main_arg5 : IVec S2x2048 32) (main_arg6 : IVec S2x2048 32) (main_arg31 : FVec F S8192x64 .f32) (main_arg32 : FVec F S64 .f32) (main_arg33 : FVec F S64x10 .f32) (main_arg34 : FVec F S10 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S8192x64 .f32 := Host.absf main_arg31
  let main_cst_48 : FVec F S_ .f32 := constant S_ .f32 0x7F800000#32
  let main_v125 : FVec F S8192x64 .f32 := broadcastInDim S8192x64 ![] bcast_S_S8192x64 main_cst_48
  let main_v126 : IVec S8192x64 1 := cmpf .olt main_v124 main_v125
  let main_c_49 : IVec S_ 1 := constantI S_ 1 1#1
  let main_v127 : IVec S_ 1 := (fun x v => Host.reduce IntOp.andi x v reducesTo_S8192x64_S_d0_1 h_S_) main_v126 main_c_49
  let main_v128 : IVec S_ 1 := andi main_v123 main_v127
  let main_v129 : FVec F S64 .f32 := Host.absf main_arg32
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x10 .f32 := Host.absf main_arg33
  let main_cst_52 : FVec F S_ .f32 := constant S_ .f32 0x7F800000#32
  let main_v135 : FVec F S64x10 .f32 := broadcastInDim S64x10 ![] bcast_S_S64x10 main_cst_52
  let main_v136 : IVec S64x10 1 := cmpf .olt main_v134 main_v135
  fn_part8 (F := F) main_arg2 main_arg3 main_arg4 main_arg5 main_arg6 main_arg34 main_v133 main_v136

def fn_part6 {F : FTy → Type} [FloatOps F] (main_arg2 : IVec S2x65536 32) (main_arg3 : IVec S2x16384 32) (main_arg4 : IVec S2x16384 32) (main_arg5 : IVec S2x2048 32) (main_arg6 : IVec S2x2048 32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg27
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg28
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg29
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg30
  fn_part7 (F := F) main_arg2 main_arg3 main_arg4 main_arg5 main_arg6 main_arg31 main_arg32 main_arg33 main_arg34 main_v118 main_v119

def fn_part5 {F : FTy → Type} [FloatOps F] (main_arg2 : IVec S2x65536 32) (main_arg3 : IVec S2x16384 32) (main_arg4 : IVec S2x16384 32) (main_arg5 : IVec S2x2048 32) (main_arg6 : IVec S2x2048 32) (main_arg24 : FVec F S64 .f32) (main_arg25 : FVec F S64 .f32) (main_arg26 : FVec F S64 .f32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg24
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg25
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg26
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg2 main_arg3 main_arg4 main_arg5 main_arg6 main_arg27 main_arg28 main_arg29 main_arg30 main_arg31 main_arg32 main_arg33 main_arg34 main_v98 main_v101 main_c_39

def fn_part4 {F : FTy → Type} [FloatOps F] (main_arg2 : IVec S2x65536 32) (main_arg3 : IVec S2x16384 32) (main_arg4 : IVec S2x16384 32) (main_arg5 : IVec S2x2048 32) (main_arg6 : IVec S2x2048 32) (main_arg20 : FVec F S64 .f32) (main_arg21 : FVec F S64x64 .f32) (main_arg22 : FVec F S64 .f32) (main_arg23 : FVec F S64x64 .f32) (main_arg24 : FVec F S64 .f32) (main_arg25 : FVec F S64 .f32) (main_arg26 : FVec F S64 .f32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) (main_v63 : IVec S_ 1) (main_v67 : IVec S_ 1) : IVec S_ 1 :=
  let main_v68 : IVec S_ 1 := andi main_v63 main_v67
  let main_v69 : FVec F S64 .f32 := Host.absf main_arg20
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg21
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg22
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg23
  let main_cst_32 : FVec F S_ .f32 := constant S_ .f32 0x7F800000#32
  fn_part5 (F := F) main_arg2 main_arg3 main_arg4 main_arg5 main_arg6 main_arg24 main_arg25 main_arg26 main_arg27 main_arg28 main_arg29 main_arg30 main_arg31 main_arg32 main_arg33 main_arg34 main_v83 main_v84 main_cst_32

def fn_part3 {F : FTy → Type} [FloatOps F] (main_arg2 : IVec S2x65536 32) (main_arg3 : IVec S2x16384 32) (main_arg4 : IVec S2x16384 32) (main_arg5 : IVec S2x2048 32) (main_arg6 : IVec S2x2048 32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x64 .f32) (main_arg24 : FVec F S64 .f32) (main_arg25 : FVec F S64 .f32) (main_arg26 : FVec F S64 .f32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg17
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg3 main_arg4 main_arg5 main_arg6 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg2 : IVec S2x65536 32) (main_arg3 : IVec S2x16384 32) (main_arg4 : IVec S2x16384 32) (main_arg5 : IVec S2x2048 32) (main_arg6 : IVec S2x2048 32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x64 .f32) (main_arg24 : FVec F S64 .f32) (main_arg25 : FVec F S64 .f32) (main_arg26 : FVec F S64 .f32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) (main_v33 : IVec S_ 1) : IVec S_ 1 :=
  let main_v34 : FVec F S64x64 .f32 := Host.absf main_arg13
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg15
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg2 main_arg3 main_arg4 main_arg5 main_arg6 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg2 : IVec S2x65536 32) (main_arg3 : IVec S2x16384 32) (main_arg4 : IVec S2x16384 32) (main_arg5 : IVec S2x2048 32) (main_arg6 : IVec S2x2048 32) (main_arg10 : FVec F S64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x64 .f32) (main_arg24 : FVec F S64 .f32) (main_arg25 : FVec F S64 .f32) (main_arg26 : FVec F S64 .f32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg10
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg12
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg3 main_arg4 main_arg5 main_arg6 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S262144x64 .f32) (main_arg1 : IVec S262144 32) (main_arg2 : IVec S2x65536 32) (main_arg3 : IVec S2x16384 32) (main_arg4 : IVec S2x16384 32) (main_arg5 : IVec S2x2048 32) (main_arg6 : IVec S2x2048 32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x64 .f32) (main_arg24 : FVec F S64 .f32) (main_arg25 : FVec F S64 .f32) (main_arg26 : FVec F S64 .f32) (main_arg27 : FVec F S64 .f32) (main_arg28 : FVec F S64 .f32) (main_arg29 : FVec F S64x64 .f32) (main_arg30 : FVec F S64 .f32) (main_arg31 : FVec F S8192x64 .f32) (main_arg32 : FVec F S64 .f32) (main_arg33 : FVec F S64x10 .f32) (main_arg34 : FVec F S10 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x64 .f32 := Host.absf main_arg7
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg8
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg4 main_arg5 main_arg6 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S262144x64 : Shape := ⟨2, ![262144, 64]⟩
abbrev S262144 : Shape := ⟨1, ![262144]⟩
abbrev S2x65536 : Shape := ⟨2, ![2, 65536]⟩
abbrev S2x16384 : Shape := ⟨2, ![2, 16384]⟩
abbrev S2x2048 : Shape := ⟨2, ![2, 2048]⟩
abbrev S64x64 : Shape := ⟨2, ![64, 64]⟩
abbrev S64 : Shape := ⟨1, ![64]⟩
abbrev S8192x64 : Shape := ⟨2, ![8192, 64]⟩
abbrev S64x10 : Shape := ⟨2, ![64, 10]⟩
abbrev S10 : Shape := ⟨1, ![10]⟩
abbrev S1x65536 : Shape := ⟨2, ![1, 65536]⟩
abbrev S65536 : Shape := ⟨1, ![65536]⟩
abbrev S_ : Shape := ⟨0, ![]⟩
abbrev S8192x8192 : Shape := ⟨2, ![8192, 8192]⟩
abbrev S65536x1 : Shape := ⟨2, ![65536, 1]⟩
abbrev S65536x2 : Shape := ⟨2, ![65536, 2]⟩
abbrev S1x16384 : Shape := ⟨2, ![1, 16384]⟩
abbrev S16384 : Shape := ⟨1, ![16384]⟩
abbrev S1024x8192 : Shape := ⟨2, ![1024, 8192]⟩
abbrev S16384x1 : Shape := ⟨2, ![16384, 1]⟩
abbrev S16384x2 : Shape := ⟨2, ![16384, 2]⟩
abbrev S1024 : Shape := ⟨1, ![1024]⟩
abbrev S1024x1 : Shape := ⟨2, ![1024, 1]⟩
abbrev S1024x1024 : Shape := ⟨2, ![1024, 1024]⟩
abbrev S1x2048 : Shape := ⟨2, ![1, 2048]⟩
abbrev S2048 : Shape := ⟨1, ![2048]⟩
abbrev S128x1024 : Shape := ⟨2, ![128, 1024]⟩
abbrev S2048x1 : Shape := ⟨2, ![2048, 1]⟩
abbrev S2048x2 : Shape := ⟨2, ![2048, 2]⟩
abbrev S128 : Shape := ⟨1, ![128]⟩
abbrev S128x1 : Shape := ⟨2, ![128, 1]⟩
abbrev S128x128 : Shape := ⟨2, ![128, 128]⟩
abbrev S32x8192x64 : Shape := ⟨3, ![32, 8192, 64]⟩
abbrev S8192x32x64 : Shape := ⟨3, ![8192, 32, 64]⟩
abbrev S8192x2048 : Shape := ⟨2, ![8192, 2048]⟩
abbrev S128x8192 : Shape := ⟨2, ![128, 8192]⟩
abbrev S128x2048 : Shape := ⟨2, ![128, 2048]⟩
abbrev S1x64 : Shape := ⟨2, ![1, 64]⟩
abbrev S4096x64 : Shape := ⟨2, ![4096, 64]⟩
abbrev S1024x2048 : Shape := ⟨2, ![1024, 2048]⟩
abbrev S32768x64 : Shape := ⟨2, ![32768, 64]⟩
abbrev S128x32x64 : Shape := ⟨3, ![128, 32, 64]⟩
abbrev S32x128x64 : Shape := ⟨3, ![32, 128, 64]⟩
abbrev S32x8192 : Shape := ⟨2, ![32, 8192]⟩
abbrev S32x64 : Shape := ⟨2, ![32, 64]⟩
abbrev S32x10 : Shape := ⟨2, ![32, 10]⟩
abbrev S1x10 : Shape := ⟨2, ![1, 10]⟩

abbrev nBuf : Space → Nat
  | .hbm => 242
  | .vmem => 60
  | .smem => 0
  | _ => 0

abbrev hbmTy0_0 (i : Nat) : BufTy := match i % 128 with
  | 0 => ⟨S262144x64, .f32⟩
  | 1 => ⟨S262144, .i32⟩
  | 2 => ⟨S2x65536, .i32⟩
  | 3 => ⟨S2x16384, .i32⟩
  | 4 => ⟨S2x16384, .i32⟩
  | 5 => ⟨S2x2048, .i32⟩
  | 6 => ⟨S2x2048, .i32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64, .f32⟩
  | 26 => ⟨S64, .f32⟩
  | 27 => ⟨S64, .f32⟩
  | 28 => ⟨S64, .f32⟩
  | 29 => ⟨S64x64, .f32⟩
  | 30 => ⟨S64, .f32⟩
  | 31 => ⟨S8192x64, .f32⟩
  | 32 => ⟨S64, .f32⟩
  | 33 => ⟨S64x10, .f32⟩
  | 34 => ⟨S10, .f32⟩
  | 35 => ⟨S1x65536, .i32⟩
  | 36 => ⟨S65536, .i32⟩
  | 37 => ⟨S1x65536, .i32⟩
  | 38 => ⟨S65536, .i32⟩
  | 39 => ⟨S_, .f32⟩
  | 40 => ⟨S8192x8192, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S_, .i32⟩
  | 49 => ⟨S65536, .i32⟩
  | 50 => ⟨S65536, .i1⟩
  | 51 => ⟨S_, .i32⟩
  | 52 => ⟨S65536, .i32⟩
  | 53 => ⟨S65536, .i32⟩
  | 54 => ⟨S65536, .i32⟩
  | 55 => ⟨S65536x1, .i32⟩
  | 56 => ⟨S65536x1, .i32⟩
  | 57 => ⟨S65536x2, .i32⟩
  | 58 => ⟨S_, .f32⟩
  | 59 => ⟨S65536, .f32⟩
  | 60 => ⟨S8192x8192, .f32⟩
  | 61 => ⟨S8192x8192, .bf16⟩
  | 62 => ⟨S1x16384, .i32⟩
  | 63 => ⟨S16384, .i32⟩
  | 64 => ⟨S1x16384, .i32⟩
  | 65 => ⟨S16384, .i32⟩
  | 66 => ⟨S_, .f32⟩
  | 67 => ⟨S1024x8192, .f32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S16384x1, .i32⟩
  | 84 => ⟨S16384x2, .i32⟩
  | 85 => ⟨S_, .f32⟩
  | 86 => ⟨S16384, .f32⟩
  | 87 => ⟨S1024x8192, .f32⟩
  | 88 => ⟨S_, .f32⟩
  | 89 => ⟨S1024, .f32⟩
  | 90 => ⟨S1024x1, .f32⟩
  | 91 => ⟨S_, .f32⟩
  | 92 => ⟨S1024x1, .f32⟩
  | 93 => ⟨S1024x1, .f32⟩
  | 94 => ⟨S1024x8192, .bf16⟩
  | 95 => ⟨S1x16384, .i32⟩
  | 96 => ⟨S16384, .i32⟩
  | 97 => ⟨S1x16384, .i32⟩
  | 98 => ⟨S16384, .i32⟩
  | 99 => ⟨S_, .f32⟩
  | 100 => ⟨S1024x1024, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S16384x1, .i32⟩
  | 117 => ⟨S16384x2, .i32⟩
  | 118 => ⟨S_, .f32⟩
  | 119 => ⟨S16384, .f32⟩
  | 120 => ⟨S1024x1024, .f32⟩
  | 121 => ⟨S1024x1024, .bf16⟩
  | 122 => ⟨S1x2048, .i32⟩
  | 123 => ⟨S2048, .i32⟩
  | 124 => ⟨S1x2048, .i32⟩
  | 125 => ⟨S2048, .i32⟩
  | 126 => ⟨S_, .f32⟩
  | 127 => ⟨S128x1024, .f32⟩
  | _ => ⟨S262144x64, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x1, .i32⟩
  | 16 => ⟨S2048x2, .i32⟩
  | 17 => ⟨S_, .f32⟩
  | 18 => ⟨S2048, .f32⟩
  | 19 => ⟨S128x1024, .f32⟩
  | 20 => ⟨S_, .f32⟩
  | 21 => ⟨S128, .f32⟩
  | 22 => ⟨S128x1, .f32⟩
  | 23 => ⟨S_, .f32⟩
  | 24 => ⟨S128x1, .f32⟩
  | 25 => ⟨S128x1, .f32⟩
  | 26 => ⟨S128x1024, .bf16⟩
  | 27 => ⟨S1x2048, .i32⟩
  | 28 => ⟨S2048, .i32⟩
  | 29 => ⟨S1x2048, .i32⟩
  | 30 => ⟨S2048, .i32⟩
  | 31 => ⟨S_, .f32⟩
  | 32 => ⟨S128x128, .f32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S2048x1, .i32⟩
  | 49 => ⟨S2048x2, .i32⟩
  | 50 => ⟨S_, .f32⟩
  | 51 => ⟨S2048, .f32⟩
  | 52 => ⟨S128x128, .f32⟩
  | 53 => ⟨S128x128, .bf16⟩
  | 54 => ⟨S32x8192x64, .f32⟩
  | 55 => ⟨S8192x32x64, .f32⟩
  | 56 => ⟨S8192x2048, .f32⟩
  | 57 => ⟨S8192x2048, .bf16⟩
  | 58 => ⟨S8192x2048, .f32⟩
  | 59 => ⟨S262144x64, .f32⟩
  | 60 => ⟨S262144x64, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S262144x64, .f32⟩
  | 68 => ⟨S8192x2048, .f32⟩
  | 69 => ⟨S8192x2048, .bf16⟩
  | 70 => ⟨S1024x2048, .f32⟩
  | 71 => ⟨S1024x2048, .f32⟩
  | 72 => ⟨S1024x2048, .f32⟩
  | 73 => ⟨S1024x2048, .bf16⟩
  | 74 => ⟨S1024x2048, .f32⟩
  | 75 => ⟨S32768x64, .f32⟩
  | 76 => ⟨S32768x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S1x64, .f32⟩
  | 83 => ⟨S32768x64, .f32⟩
  | 84 => ⟨S1024x2048, .f32⟩
  | 85 => ⟨S1024x2048, .bf16⟩
  | 86 => ⟨S128x2048, .f32⟩
  | 87 => ⟨S128x2048, .f32⟩
  | 88 => ⟨S128x2048, .f32⟩
  | 89 => ⟨S128x2048, .bf16⟩
  | 90 => ⟨S128x2048, .f32⟩
  | 91 => ⟨S4096x64, .f32⟩
  | 92 => ⟨S4096x64, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S1x64, .f32⟩
  | 99 => ⟨S4096x64, .f32⟩
  | 100 => ⟨S128x32x64, .f32⟩
  | 101 => ⟨S32x128x64, .f32⟩
  | 102 => ⟨S32x8192, .f32⟩
  | 103 => ⟨S32x64, .f32⟩
  | 104 => ⟨S1x64, .f32⟩
  | 105 => ⟨S32x64, .f32⟩
  | 106 => ⟨S32x64, .f32⟩
  | 107 => ⟨S_, .f32⟩
  | 108 => ⟨S32x64, .f32⟩
  | 109 => ⟨S32x64, .f32⟩
  | 110 => ⟨S32x10, .f32⟩
  | 111 => ⟨S1x10, .f32⟩
  | 112 => ⟨S32x10, .f32⟩
  | 113 => ⟨S32x10, .f32⟩
  | _ => ⟨S262144x64, .f32⟩

abbrev hbmTy (i : Nat) : BufTy := match i / 128 with
  | 0 => hbmTy0_0 i
  | 1 => hbmTy0_1 i
  | _ => ⟨S262144x64, .f32⟩

abbrev bufTy : (tb : Table) → Fin (tcTables nBuf tb) → BufTy
  | .hbm, ⟨i, _⟩ => hbmTy i
  | .local _ .vmem, ⟨0, _⟩ => ⟨S128x8192, .bf16⟩
  | .local _ .vmem, ⟨1, _⟩ => ⟨S128x8192, .bf16⟩
  | .local _ .vmem, ⟨2, _⟩ => ⟨S8192x2048, .bf16⟩
  | .local _ .vmem, ⟨3, _⟩ => ⟨S128x2048, .f32⟩
  | .local _ .vmem, ⟨4, _⟩ => ⟨S128x2048, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S4096x64, .f32⟩
  | .local _ .vmem, ⟨18, _⟩ => ⟨S4096x64, .f32⟩
  | .local _ .vmem, ⟨19, _⟩ => ⟨S128x8192, .bf16⟩
  | .local _ .vmem, ⟨20, _⟩ => ⟨S128x8192, .bf16⟩
  | .local _ .vmem, ⟨21, _⟩ => ⟨S8192x2048, .bf16⟩
  | .local _ .vmem, ⟨22, _⟩ => ⟨S128x2048, .f32⟩
  | .local _ .vmem, ⟨23, _⟩ => ⟨S128x2048, .f32⟩
  | .local _ .vmem, ⟨24, _⟩ => ⟨S128x1024, .bf16⟩
  | .local _ .vmem, ⟨25, _⟩ => ⟨S128x1024, .bf16⟩
  | .local _ .vmem, ⟨26, _⟩ => ⟨S1024x2048, .bf16⟩
  | .local _ .vmem, ⟨27, _⟩ => ⟨S128x2048, .f32⟩
  | .local _ .vmem, ⟨28, _⟩ => ⟨S128x2048, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S64x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S64x64, .f32⟩
  | .local _ .vmem, ⟨40, _⟩ => ⟨S1x64, .f32⟩
  | .local _ .vmem, ⟨41, _⟩ => ⟨S4096x64, .f32⟩
  | .local _ .vmem, ⟨42, _⟩ => ⟨S4096x64, .f32⟩
  | .local _ .vmem, ⟨43, _⟩ => ⟨S128x1024, .bf16⟩
  | .local _ .vmem, ⟨44, _⟩ => ⟨S1024x2048, .bf16⟩
  | .local _ .vmem, ⟨45, _⟩ => ⟨S128x2048, .f32⟩
  | .local _ .vmem, ⟨46, _⟩ => ⟨S128x128, .bf16⟩
  | .local _ .vmem, ⟨47, _⟩ => ⟨S128x2048, .bf16⟩
  | .local _ .vmem, ⟨48, _⟩ => ⟨S128x2048, .f32⟩
  | .local _ .vmem, ⟨49, _⟩ => ⟨S4096x64, .f32⟩
  | .local _ .vmem, ⟨50, _⟩ => ⟨S4096x64, .f32⟩
  | .local _ .vmem, ⟨51, _⟩ => ⟨S64x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S64x64, .f32⟩
  | .local _ .vmem, ⟨58, _⟩ => ⟨S1x64, .f32⟩
  | .local _ .vmem, ⟨59, _⟩ => ⟨S4096x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_cst : Ref sig .tc := ⟨.hbm, 39, rfl⟩
abbrev main_v4 : Ref sig .tc := ⟨.hbm, 40, rfl⟩
abbrev main_c : Ref sig .tc := ⟨.hbm, 41, rfl⟩
abbrev main_v5 : Ref sig .tc := ⟨.hbm, 42, rfl⟩
abbrev main_v6 : Ref sig .tc := ⟨.hbm, 43, rfl⟩
abbrev main_c_0 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_1 : Ref sig .tc := ⟨.hbm, 48, rfl⟩
abbrev main_v10 : Ref sig .tc := ⟨.hbm, 49, rfl⟩
abbrev main_v11 : Ref sig .tc := ⟨.hbm, 50, rfl⟩
abbrev main_c_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_3 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_4 : Ref sig .tc := ⟨.hbm, 66, rfl⟩
abbrev main_v25 : Ref sig .tc := ⟨.hbm, 67, rfl⟩
abbrev main_c_5 : Ref sig .tc := ⟨.hbm, 68, rfl⟩
abbrev main_v26 : Ref sig .tc := ⟨.hbm, 69, rfl⟩
abbrev main_v27 : Ref sig .tc := ⟨.hbm, 70, rfl⟩
abbrev main_c_6 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_7 : Ref sig .tc := ⟨.hbm, 75, rfl⟩
abbrev main_v31 : Ref sig .tc := ⟨.hbm, 76, rfl⟩
abbrev main_v32 : Ref sig .tc := ⟨.hbm, 77, rfl⟩
abbrev main_c_8 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_9 : Ref sig .tc := ⟨.hbm, 85, rfl⟩
abbrev main_v39 : Ref sig .tc := ⟨.hbm, 86, rfl⟩
abbrev main_v40 : Ref sig .tc := ⟨.hbm, 87, rfl⟩
abbrev main_cst_10 : Ref sig .tc := ⟨.hbm, 88, rfl⟩
abbrev main_v41 : Ref sig .tc := ⟨.hbm, 89, rfl⟩
abbrev main_v42 : Ref sig .tc := ⟨.hbm, 90, rfl⟩
abbrev main_cst_11 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_12 : Ref sig .tc := ⟨.hbm, 99, rfl⟩
abbrev main_v50 : Ref sig .tc := ⟨.hbm, 100, rfl⟩
abbrev main_c_13 : Ref sig .tc := ⟨.hbm, 101, rfl⟩
abbrev main_v51 : Ref sig .tc := ⟨.hbm, 102, rfl⟩
abbrev main_v52 : Ref sig .tc := ⟨.hbm, 103, rfl⟩
abbrev main_c_14 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_15 : Ref sig .tc := ⟨.hbm, 108, rfl⟩
abbrev main_v56 : Ref sig .tc := ⟨.hbm, 109, rfl⟩
abbrev main_v57 : Ref sig .tc := ⟨.hbm, 110, rfl⟩
abbrev main_c_16 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_17 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_18 : Ref sig .tc := ⟨.hbm, 126, rfl⟩
abbrev main_v71 : Ref sig .tc := ⟨.hbm, 127, rfl⟩
abbrev main_c_19 : Ref sig .tc := ⟨.hbm, 128, rfl⟩
abbrev main_v72 : Ref sig .tc := ⟨.hbm, 129, rfl⟩
abbrev main_v73 : Ref sig .tc := ⟨.hbm, 130, rfl⟩
abbrev main_c_20 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_21 : Ref sig .tc := ⟨.hbm, 135, rfl⟩
abbrev main_v77 : Ref sig .tc := ⟨.hbm, 136, rfl⟩
abbrev main_v78 : Ref sig .tc := ⟨.hbm, 137, rfl⟩
abbrev main_c_22 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_23 : Ref sig .tc := ⟨.hbm, 145, rfl⟩
abbrev main_v85 : Ref sig .tc := ⟨.hbm, 146, rfl⟩
abbrev main_v86 : Ref sig .tc := ⟨.hbm, 147, rfl⟩
abbrev main_cst_24 : Ref sig .tc := ⟨.hbm, 148, rfl⟩
abbrev main_v87 : Ref sig .tc := ⟨.hbm, 149, rfl⟩
abbrev main_v88 : Ref sig .tc := ⟨.hbm, 150, rfl⟩
abbrev main_cst_25 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_26 : Ref sig .tc := ⟨.hbm, 159, rfl⟩
abbrev main_v96 : Ref sig .tc := ⟨.hbm, 160, rfl⟩
abbrev main_c_27 : Ref sig .tc := ⟨.hbm, 161, rfl⟩
abbrev main_v97 : Ref sig .tc := ⟨.hbm, 162, rfl⟩
abbrev main_v98 : Ref sig .tc := ⟨.hbm, 163, rfl⟩
abbrev main_c_28 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_c_29 : Ref sig .tc := ⟨.hbm, 168, rfl⟩
abbrev main_v102 : Ref sig .tc := ⟨.hbm, 169, rfl⟩
abbrev main_v103 : Ref sig .tc := ⟨.hbm, 170, rfl⟩
abbrev main_c_30 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_cst_31 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_call0_cst : Ref sig .tc := ⟨.hbm, 235, rfl⟩
abbrev main_call0_v0 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg8_0 : Ref sig .tc := ⟨.vmem, 39, rfl⟩
abbrev cc4_stg9_0 : Ref sig .tc := ⟨.vmem, 40, rfl⟩
abbrev cc4_stg10_0 : Ref sig .tc := ⟨.vmem, 41, rfl⟩
abbrev cc4_stg10_1 : Ref sig .tc := ⟨.vmem, 42, rfl⟩
abbrev cc5_stg0_0 : Ref sig .tc := ⟨.vmem, 43, rfl⟩
abbrev cc5_stg1_0 : Ref sig .tc := ⟨.vmem, 44, rfl⟩
abbrev cc5_stg2_0 : Ref sig .tc := ⟨.vmem, 45, rfl⟩
abbrev cc6_stg0_0 : Ref sig .tc := ⟨.vmem, 46, rfl⟩
abbrev cc6_stg1_0 : Ref sig .tc := ⟨.vmem, 47, rfl⟩
abbrev cc6_stg2_0 : Ref sig .tc := ⟨.vmem, 48, rfl⟩
abbrev cc7_stg0_0 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg6_0 : Ref sig .tc := ⟨.vmem, 55, rfl⟩
abbrev cc7_stg7_0 : Ref sig .tc := ⟨.vmem, 56, rfl⟩
abbrev cc7_stg8_0 : Ref sig .tc := ⟨.vmem, 57, rfl⟩
abbrev cc7_stg9_0 : Ref sig .tc := ⟨.vmem, 58, rfl⟩
abbrev cc7_stg10_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem8_0 : DmaSem sig := 39
abbrev cc4_sem9_0 : DmaSem sig := 40
abbrev cc4_sem10_0 : DmaSem sig := 41
abbrev cc4_sem10_1 : DmaSem sig := 42
abbrev cc5_sem0_0 : DmaSem sig := 43
abbrev cc5_sem1_0 : DmaSem sig := 44
abbrev cc5_sem2_0 : DmaSem sig := 45
abbrev cc6_sem0_0 : DmaSem sig := 46
abbrev cc6_sem1_0 : DmaSem sig := 47
abbrev cc6_sem2_0 : DmaSem sig := 48
abbrev cc7_sem0_0 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem6_0 : DmaSem sig := 55
abbrev cc7_sem7_0 : DmaSem sig := 56
abbrev cc7_sem8_0 : DmaSem sig := 57
abbrev cc7_sem9_0 : DmaSem sig := 58
abbrev cc7_sem10_0 : DmaSem sig := 59

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4096x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S4096x64 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S128x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1024x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S128x128 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4096x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S4096x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S4096x64 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S8192x8192 : S_.BroadcastsInDim S8192x8192 (![] : Fin 0 → Fin S8192x8192.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bitsLt_bf16_f32 : FTy.bits .bf16 < FTy.bits .f32
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S1024x8192 : S_.BroadcastsInDim S1024x8192 (![] : Fin 0 → Fin S1024x8192.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S1024x8192_S1024_d1 : S1024x8192.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x1024 : S_.BroadcastsInDim S1024x1024 (![] : Fin 0 → Fin S1024x1024.rank)
  slices_S2x2048_S1x2048_0_0 : S2x2048.Slices ![0, 0] S1x2048
  shapeCasts_S1x2048_S2048 : S1x2048.ShapeCasts S2048
  slices_S2x2048_S1x2048_1_0 : S2x2048.Slices ![1, 0] S1x2048
  bcast_S_S128x1024 : S_.BroadcastsInDim S128x1024 (![] : Fin 0 → Fin S128x1024.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S128x1024_S128_d1 : S128x1024.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S_S128x128 : S_.BroadcastsInDim S128x128 (![] : Fin 0 → Fin S128x128.rank)
  shapeCasts_S262144x64_S32x8192x64 : S262144x64.ShapeCasts S32x8192x64
  transposes_S32x8192x64_S8192x32x64_1_0_2 : S32x8192x64.Transposes [1, 0, 2] S8192x32x64
  shapeCasts_S8192x32x64_S8192x2048 : S8192x32x64.ShapeCasts S8192x2048
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S8192x2048_S8192x2048_0_0 : ∀ a, (![0, 0] : Fin 2 → Nat) a + S8192x2048.size a ≤ S8192x2048.size a
  h_S8192x2048 : 0 < S8192x2048.numel
  shapeCasts_S8192x2048_S8192x2048 : S8192x2048.ShapeCasts S8192x2048
  inb_S128x2048_S128x2048_0_0 : ∀ a, (![0, 0] : Fin 2 → Nat) a + S128x2048.size a ≤ S128x2048.size a
  h_S128x2048 : 0 < S128x2048.numel
  shapeCasts_S8192x2048_S262144x64 : S8192x2048.ShapeCasts S262144x64
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S262144x64_S8192x2048 : S262144x64.ShapeCasts S8192x2048
  bcast_S1024x1_S1024x2048_0_1 : S1024x1.BroadcastsInDim S1024x2048 (![0, 1] : Fin 2 → Fin S1024x2048.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1024x2048_S32768x64 : S1024x2048.ShapeCasts S32768x64
  shapeCasts_S32768x64_S1024x2048 : S32768x64.ShapeCasts S1024x2048
  bcast_S128x1_S128x2048_0_1 : S128x1.BroadcastsInDim S128x2048 (![0, 1] : Fin 2 → Fin S128x2048.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x2048_S128x2048 : S128x2048.ShapeCasts S128x2048
  shapeCasts_S128x2048_S4096x64 : S128x2048.ShapeCasts S4096x64
  shapeCasts_S4096x64_S128x32x64 : S4096x64.ShapeCasts S128x32x64
  transposes_S128x32x64_S32x128x64_1_0_2 : S128x32x64.Transposes [1, 0, 2] S32x128x64
  shapeCasts_S32x128x64_S32x8192 : S32x128x64.ShapeCasts S32x8192
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  scatter_S8192x8192_S65536x2_S65536_n_01_01_1_wf : ScatterDims.WF S8192x8192 S65536x2 S65536 [] [0, 1] [0, 1] 1
  scatter_S1024x8192_S16384x2_S16384_n_01_01_1_wf : ScatterDims.WF S1024x8192 S16384x2 S16384 [] [0, 1] [0, 1] 1
  scatter_S1024x1024_S16384x2_S16384_n_01_01_1_wf : ScatterDims.WF S1024x1024 S16384x2 S16384 [] [0, 1] [0, 1] 1
  scatter_S128x1024_S2048x2_S2048_n_01_01_1_wf : ScatterDims.WF S128x1024 S2048x2 S2048 [] [0, 1] [0, 1] 1
  scatter_S128x128_S2048x2_S2048_n_01_01_1_wf : ScatterDims.WF S128x128 S2048x2 S2048 [] [0, 1] [0, 1] 1
  dot_S128x8192_S8192x2048_S128x2048_1_0_0_1_n_n_wf : DotDims.WF S128x8192 S8192x2048 S128x2048 [1] [0] [0] [1] [] []
  dot_S4096x64_S64x64_S4096x64_1_0_0_1_n_n_wf : DotDims.WF S4096x64 S64x64 S4096x64 [1] [0] [0] [1] [] []
  dot_S128x1024_S1024x2048_S128x2048_1_0_0_1_n_n_wf : DotDims.WF S128x1024 S1024x2048 S128x2048 [1] [0] [0] [1] [] []
  dot_S128x128_S128x2048_S128x2048_1_0_0_1_n_n_wf : DotDims.WF S128x128 S128x2048 S128x2048 [1] [0] [0] [1] [] []
  dot_S32x8192_S8192x64_S32x64_1_0_0_1_n_n_wf : DotDims.WF S32x8192 S8192x64 S32x64 [1] [0] [0] [1] [] []
  dot_S32x64_S64x10_S32x10_1_0_0_1_n_n_wf : DotDims.WF S32x64 S64x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .bf16 = 32 ∨ (Rect.block (s := S8192x8192) S128x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x2048.size a ≤ S8192x2048.size a
  hwx0_1 : ∀ i : grid0.Coords, EltTy.bits .bf16 = 32 ∨ (Rect.block (s := S8192x2048) S8192x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S262144x64.size a
  hwx1_0 : ∀ i : grid1.Coords, EltTy.bits .f32 = 32 ∨ (Rect.block (s := S262144x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S262144x64.size a
  hwx1_1 : ∀ i : grid1.Coords, EltTy.bits .f32 = 32 ∨ (Rect.block (s := S262144x64) S4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4096x64.size a ≤ S262144x64.size a
  hwx1_10 : ∀ i : grid1.Coords, EltTy.bits .f32 = 32 ∨ (Rect.block (s := S262144x64) S4096x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S1024x8192.size a
  hwx2_0 : ∀ i : grid2.Coords, EltTy.bits .bf16 = 32 ∨ (Rect.block (s := S1024x8192) S128x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x2048.size a ≤ S8192x2048.size a
  hwx2_1 : ∀ i : grid2.Coords, EltTy.bits .bf16 = 32 ∨ (Rect.block (s := S8192x2048) S8192x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x2048.size a ≤ S1024x2048.size a
  hwx2_2 : ∀ i : grid2.Coords, EltTy.bits .f32 = 32 ∨ (Rect.block (s := S1024x2048) S128x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S1024x1024.size a
  hwx3_0 : ∀ i : grid3.Coords, EltTy.bits .bf16 = 32 ∨ (Rect.block (s := S1024x1024) S128x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S1024x2048.size a
  hwx3_1 : ∀ i : grid3.Coords, EltTy.bits .bf16 = 32 ∨ (Rect.block (s := S1024x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x2048.size a ≤ S1024x2048.size a
  hwx3_2 : ∀ i : grid3.Coords, EltTy.bits .f32 = 32 ∨ (Rect.block (s := S1024x2048) S128x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S32768x64.size a
  hwx4_0 : ∀ i : grid4.Coords, EltTy.bits .f32 = 32 ∨ (Rect.block (s := S32768x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S32768x64.size a
  hwx4_1 : ∀ i : grid4.Coords, EltTy.bits .f32 = 32 ∨ (Rect.block (s := S32768x64) S4096x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .f32 = 32 ∨ (Rect.block (s := S64x64) S64x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S4096x64.size a ≤ S32768x64.size a
  hwx4_10 : ∀ i : grid4.Coords, EltTy.bits .f32 = 32 ∨ (Rect.block (s := S32768x64) S4096x64.size (cc4_transform_10 i) (hinb4_10 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S128x1024.size a ≤ S128x1024.size a
  hwx5_0 : ∀ i : grid5.Coords, EltTy.bits .bf16 = 32 ∨ (Rect.block (s := S128x1024) S128x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x2048.size a ≤ S1024x2048.size a
  hwx5_1 : ∀ i : grid5.Coords, EltTy.bits .bf16 = 32 ∨ (Rect.block (s := S1024x2048) S1024x2048.size (cc5_transform_1 i) (hinb5_1 i)).WholeWords (EltTy.packing .bf16)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S128x2048.size a ≤ S128x2048.size a
  hwx5_2 : ∀ i : grid5.Coords, EltTy.bits .f32 = 32 ∨ (Rect.block (s := S128x2048) S128x2048.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S128x128.size a
  hwx6_0 : ∀ i : grid6.Coords, EltTy.bits .bf16 = 32 ∨ (Rect.block (s := S128x128) S128x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2048.size a ≤ S128x2048.size a
  hwx6_1 : ∀ i : grid6.Coords, EltTy.bits .bf16 = 32 ∨ (Rect.block (s := S128x2048) S128x2048.size (cc6_transform_1 i) (hinb6_1 i)).WholeWords (EltTy.packing .bf16)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S128x2048.size a ≤ S128x2048.size a
  hwx6_2 : ∀ i : grid6.Coords, EltTy.bits .f32 = 32 ∨ (Rect.block (s := S128x2048) S128x2048.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4096x64.size a ≤ S4096x64.size a
  hwx7_0 : ∀ i : grid7.Coords, EltTy.bits .f32 = 32 ∨ (Rect.block (s := S4096x64) S4096x64.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S4096x64.size a ≤ S4096x64.size a
  hwx7_1 : ∀ i : grid7.Coords, EltTy.bits .f32 = 32 ∨ (Rect.block (s := S4096x64) S4096x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x64.size a ≤ S64x64.size a
  hwx7_8 : ∀ i : grid7.Coords, EltTy.bits .f32 = 32 ∨ (Rect.block (s := S64x64) S64x64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x64.size a ≤ S1x64.size a
  hwx7_9 : ∀ i : grid7.Coords, EltTy.bits .f32 = 32 ∨ (Rect.block (s := S1x64) S1x64.size (cc7_transform_9 i) (hinb7_9 i)).WholeWords (EltTy.packing .f32)
  hstage7_10 : ∀ j, (stage7_10 j).IsWhole
  nbuf7_10 : grid7.bufCount reads7_10 false = 1
  hreads7_10 : ∀ i i' : grid7.Coords, (∀ a, reads7_10 a = true → i a = i' a) → cc7_transform_10 i = cc7_transform_10 i'
  hinb7_10 : ∀ (i : grid7.Coords) a, (cc7_transform_10 i a + 1) * S4096x64.size a ≤ S4096x64.size a
  hwx7_10 : ∀ i : grid7.Coords, EltTy.bits .f32 = 32 ∨ (Rect.block (s := S4096x64) S4096x64.size (cc7_transform_10 i) (hinb7_10 i)).WholeWords (EltTy.packing .f32)

variable [Facts₀]

def scatter_S8192x8192_S65536x2_S65536_n_01_01_1 : ScatterDims S8192x8192 S65536x2 S65536 where
  updateWindowDims := []
  insertedWindowDims := [0, 1]
  scatterDimsToOperandDims := [0, 1]
  indexVectorDim := 1
  wf := scatter_S8192x8192_S65536x2_S65536_n_01_01_1_wf
def scatter_S1024x8192_S16384x2_S16384_n_01_01_1 : ScatterDims S1024x8192 S16384x2 S16384 where
  updateWindowDims := []
  insertedWindowDims := [0, 1]
  scatterDimsToOperandDims := [0, 1]
  indexVectorDim := 1
  wf := scatter_S1024x8192_S16384x2_S16384_n_01_01_1_wf
def scatter_S1024x1024_S16384x2_S16384_n_01_01_1 : ScatterDims S1024x1024 S16384x2 S16384 where
  updateWindowDims := []
  insertedWindowDims := [0, 1]
  scatterDimsToOperandDims := [0, 1]
  indexVectorDim := 1
  wf := scatter_S1024x1024_S16384x2_S16384_n_01_01_1_wf
def scatter_S128x1024_S2048x2_S2048_n_01_01_1 : ScatterDims S128x1024 S2048x2 S2048 where
  updateWindowDims := []
  insertedWindowDims := [0, 1]
  scatterDimsToOperandDims := [0, 1]
  indexVectorDim := 1
  wf := scatter_S128x1024_S2048x2_S2048_n_01_01_1_wf
def scatter_S128x128_S2048x2_S2048_n_01_01_1 : ScatterDims S128x128 S2048x2 S2048 where
  updateWindowDims := []
  insertedWindowDims := [0, 1]
  scatterDimsToOperandDims := [0, 1]
  indexVectorDim := 1
  wf := scatter_S128x128_S2048x2_S2048_n_01_01_1_wf
def dot_S128x8192_S8192x2048_S128x2048_1_0_0_1_n_n : DotDims S128x8192 S8192x2048 S128x2048 where
  lhsContracting := [1]
  rhsContracting := [0]
  lhsNonContracting := [0]
  rhsNonContracting := [1]
  lhsBatch := []
  rhsBatch := []
  wf := dot_S128x8192_S8192x2048_S128x2048_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S32x8192_S8192x64_S32x64_1_0_0_1_n_n : DotDims S32x8192 S8192x64 S32x64 where
  lhsContracting := [1]
  rhsContracting := [0]
  lhsNonContracting := [0]
  rhsNonContracting := [1]
  lhsBatch := []
  rhsBatch := []
  wf := dot_S32x8192_S8192x64_S32x64_1_0_0_1_n_n_wf
def dot_S32x64_S64x10_S32x10_1_0_0_1_n_n : DotDims S32x64 S64x10 S32x10 where
  lhsContracting := [1]
  rhsContracting := [0]
  lhsNonContracting := [0]
  rhsNonContracting := [1]
  lhsBatch := []
  rhsBatch := []
  wf := dot_S32x64_S64x10_S32x10_1_0_0_1_n_n_wf

abbrev win0_0 : Pipeline.Window sig grid0 :=
  Pipeline.Window.ofSpec (Memref.whole main_v20) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v116) S8192x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v117) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v118) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v119) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v120) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v121) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v122) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v123) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v124) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v125) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v126) S4096x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v45) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v128) S8192x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v129) S128x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v132) S1024x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v133) S128x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v134) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v135) S4096x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v136) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v137) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v138) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v139) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v140) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg21) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v141) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v142) S4096x64.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v91) S128x1024.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v144) S1024x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v145) S128x2048.size cc5_transform_2 reads5_2 true false 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v112) S128x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v148) S128x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v149) S128x2048.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v150) S4096x64.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v151) S4096x64.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_arg23) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v152) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v153) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v154) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v155) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v156) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg29) S64x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v157) S1x64.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v158) S4096x64.size cc7_transform_10 reads7_10 true false 1 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S262144x64 : Shape := ⟨2, ![262144, 64]⟩
abbrev S262144 : Shape := ⟨1, ![262144]⟩
abbrev S2x65536 : Shape := ⟨2, ![2, 65536]⟩
abbrev S2x16384 : Shape := ⟨2, ![2, 16384]⟩
abbrev S2x2048 : Shape := ⟨2, ![2, 2048]⟩
abbrev S64x64 : Shape := ⟨2, ![64, 64]⟩
abbrev S64 : Shape := ⟨1, ![64]⟩
abbrev S8192x64 : Shape := ⟨2, ![8192, 64]⟩
abbrev S64x10 : Shape := ⟨2, ![64, 10]⟩
abbrev S10 : Shape := ⟨1, ![10]⟩
abbrev S32 : Shape := ⟨1, ![32]⟩
abbrev S_ : Shape := ⟨0, ![]⟩
abbrev S32x1 : Shape := ⟨2, ![32, 1]⟩
abbrev S1x65536 : Shape := ⟨2, ![1, 65536]⟩
abbrev S65536 : Shape := ⟨1, ![65536]⟩
abbrev S32x65536 : Shape := ⟨2, ![32, 65536]⟩
abbrev S2097152 : Shape := ⟨1, ![2097152]⟩
abbrev S2097152x1 : Shape := ⟨2, ![2097152, 1]⟩
abbrev S2097152x64 : Shape := ⟨2, ![2097152, 64]⟩
abbrev S1x64 : Shape := ⟨2, ![1, 64]⟩
abbrev S1x16384 : Shape := ⟨2, ![1, 16384]⟩
abbrev S16384 : Shape := ⟨1, ![16384]⟩
abbrev S32x16384 : Shape := ⟨2, ![32, 16384]⟩
abbrev S524288 : Shape := ⟨1, ![524288]⟩
abbrev S524288x1 : Shape := ⟨2, ![524288, 1]⟩
abbrev S524288x64 : Shape := ⟨2, ![524288, 64]⟩
abbrev S32768x64 : Shape := ⟨2, ![32768, 64]⟩
abbrev S32768 : Shape := ⟨1, ![32768]⟩
abbrev S32768x1 : Shape := ⟨2, ![32768, 1]⟩
abbrev S1x2048 : Shape := ⟨2, ![1, 2048]⟩
abbrev S2048 : Shape := ⟨1, ![2048]⟩
abbrev S32x2048 : Shape := ⟨2, ![32, 2048]⟩
abbrev S65536x1 : Shape := ⟨2, ![65536, 1]⟩
abbrev S65536x64 : Shape := ⟨2, ![65536, 64]⟩
abbrev S4096x64 : Shape := ⟨2, ![4096, 64]⟩
abbrev S4096 : Shape := ⟨1, ![4096]⟩
abbrev S4096x1 : Shape := ⟨2, ![4096, 1]⟩
abbrev S32x8192 : Shape := ⟨2, ![32, 8192]⟩
abbrev S32x64 : Shape := ⟨2, ![32, 64]⟩
abbrev S32x10 : Shape := ⟨2, ![32, 10]⟩
abbrev S1x10 : Shape := ⟨2, ![1, 10]⟩

abbrev nBuf : Space → Nat
  | .hbm => 349
  | .vmem => 0
  | .smem => 0
  | _ => 0

abbrev hbmTy0_0 (i : Nat) : BufTy := match i % 128 with
  | 0 => ⟨S262144x64, .f32⟩
  | 1 => ⟨S262144, .i32⟩
  | 2 => ⟨S2x65536, .i32⟩
  | 3 => ⟨S2x16384, .i32⟩
  | 4 => ⟨S2x16384, .i32⟩
  | 5 => ⟨S2x2048, .i32⟩
  | 6 => ⟨S2x2048, .i32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64, .f32⟩
  | 26 => ⟨S64, .f32⟩
  | 27 => ⟨S64, .f32⟩
  | 28 => ⟨S64, .f32⟩
  | 29 => ⟨S64x64, .f32⟩
  | 30 => ⟨S64, .f32⟩
  | 31 => ⟨S8192x64, .f32⟩
  | 32 => ⟨S64, .f32⟩
  | 33 => ⟨S64x10, .f32⟩
  | 34 => ⟨S10, .f32⟩
  | 35 => ⟨S32, .i32⟩
  | 36 => ⟨S_, .i32⟩
  | 37 => ⟨S32, .i32⟩
  | 38 => ⟨S32, .i32⟩
  | 39 => ⟨S32x1, .i32⟩
  | 40 => ⟨S32, .i32⟩
  | 41 => ⟨S_, .i32⟩
  | 42 => ⟨S32, .i32⟩
  | 43 => ⟨S32, .i32⟩
  | 44 => ⟨S32x1, .i32⟩
  | 45 => ⟨S1x65536, .i32⟩
  | 46 => ⟨S65536, .i32⟩
  | 47 => ⟨S1x65536, .i32⟩
  | 48 => ⟨S32x65536, .i32⟩
  | 49 => ⟨S32x65536, .i32⟩
  | 50 => ⟨S32x65536, .i32⟩
  | 51 => ⟨S2097152, .i32⟩
  | 52 => ⟨S1x65536, .i32⟩
  | 53 => ⟨S65536, .i32⟩
  | 54 => ⟨S1x65536, .i32⟩
  | 55 => ⟨S32x65536, .i32⟩
  | 56 => ⟨S32x65536, .i32⟩
  | 57 => ⟨S32x65536, .i32⟩
  | 58 => ⟨S2097152, .i32⟩
  | 59 => ⟨S_, .i32⟩
  | 60 => ⟨S2097152, .i32⟩
  | 61 => ⟨S2097152, .i1⟩
  | 62 => ⟨S_, .i32⟩
  | 63 => ⟨S2097152, .i32⟩
  | 64 => ⟨S2097152, .i32⟩
  | 65 => ⟨S2097152, .i32⟩
  | 66 => ⟨S2097152x1, .i32⟩
  | 67 => ⟨S2097152x64, .f32⟩
  | 68 => ⟨S_, .f32⟩
  | 69 => ⟨S262144x64, .f32⟩
  | 70 => ⟨S2097152x1, .i32⟩
  | 71 => ⟨S262144x64, .f32⟩
  | 72 => ⟨S262144x64, .f32⟩
  | 73 => ⟨S262144x64, .f32⟩
  | 74 => ⟨S1x64, .f32⟩
  | 75 => ⟨S262144x64, .f32⟩
  | 76 => ⟨S262144x64, .f32⟩
  | 77 => ⟨S1x64, .f32⟩
  | 78 => ⟨S262144x64, .f32⟩
  | 79 => ⟨S262144x64, .f32⟩
  | 80 => ⟨S_, .f32⟩
  | 81 => ⟨S64, .f32⟩
  | 82 => ⟨S64, .f32⟩
  | 83 => ⟨S64, .f32⟩
  | 84 => ⟨S1x64, .f32⟩
  | 85 => ⟨S262144x64, .f32⟩
  | 86 => ⟨S262144x64, .f32⟩
  | 87 => ⟨S1x64, .f32⟩
  | 88 => ⟨S262144x64, .f32⟩
  | 89 => ⟨S262144x64, .f32⟩
  | 90 => ⟨S1x64, .f32⟩
  | 91 => ⟨S262144x64, .f32⟩
  | 92 => ⟨S262144x64, .f32⟩
  | 93 => ⟨S_, .f32⟩
  | 94 => ⟨S262144x64, .f32⟩
  | 95 => ⟨S262144x64, .f32⟩
  | 96 => ⟨S262144x64, .f32⟩
  | 97 => ⟨S1x64, .f32⟩
  | 98 => ⟨S262144x64, .f32⟩
  | 99 => ⟨S262144x64, .f32⟩
  | 100 => ⟨S_, .f32⟩
  | 101 => ⟨S262144x64, .f32⟩
  | 102 => ⟨S262144x64, .f32⟩
  | 103 => ⟨S32, .i32⟩
  | 104 => ⟨S_, .i32⟩
  | 105 => ⟨S32, .i32⟩
  | 106 => ⟨S32, .i32⟩
  | 107 => ⟨S32x1, .i32⟩
  | 108 => ⟨S32, .i32⟩
  | 109 => ⟨S_, .i32⟩
  | 110 => ⟨S32, .i32⟩
  | 111 => ⟨S32, .i32⟩
  | 112 => ⟨S32x1, .i32⟩
  | 113 => ⟨S1x16384, .i32⟩
  | 114 => ⟨S16384, .i32⟩
  | 115 => ⟨S1x16384, .i32⟩
  | 116 => ⟨S32x16384, .i32⟩
  | 117 => ⟨S32x16384, .i32⟩
  | 118 => ⟨S32x16384, .i32⟩
  | 119 => ⟨S524288, .i32⟩
  | 120 => ⟨S1x16384, .i32⟩
  | 121 => ⟨S16384, .i32⟩
  | 122 => ⟨S1x16384, .i32⟩
  | 123 => ⟨S32x16384, .i32⟩
  | 124 => ⟨S32x16384, .i32⟩
  | 125 => ⟨S32x16384, .i32⟩
  | 126 => ⟨S524288, .i32⟩
  | 127 => ⟨S_, .i32⟩
  | _ => ⟨S262144x64, .f32⟩

abbrev hbmTy0_1 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S524288x1, .i32⟩
  | 7 => ⟨S524288x64, .f32⟩
  | 8 => ⟨S_, .f32⟩
  | 9 => ⟨S32768x64, .f32⟩
  | 10 => ⟨S524288x1, .i32⟩
  | 11 => ⟨S32768x64, .f32⟩
  | 12 => ⟨S_, .f32⟩
  | 13 => ⟨S524288, .f32⟩
  | 14 => ⟨S_, .f32⟩
  | 15 => ⟨S32768, .f32⟩
  | 16 => ⟨S524288x1, .i32⟩
  | 17 => ⟨S32768, .f32⟩
  | 18 => ⟨S_, .f32⟩
  | 19 => ⟨S32768, .f32⟩
  | 20 => ⟨S32768, .f32⟩
  | 21 => ⟨S32768x1, .f32⟩
  | 22 => ⟨S32768x64, .f32⟩
  | 23 => ⟨S32768x64, .f32⟩
  | 24 => ⟨S32, .i32⟩
  | 25 => ⟨S_, .i32⟩
  | 26 => ⟨S32, .i32⟩
  | 27 => ⟨S32, .i32⟩
  | 28 => ⟨S32x1, .i32⟩
  | 29 => ⟨S32, .i32⟩
  | 30 => ⟨S_, .i32⟩
  | 31 => ⟨S32, .i32⟩
  | 32 => ⟨S32, .i32⟩
  | 33 => ⟨S32x1, .i32⟩
  | 34 => ⟨S1x16384, .i32⟩
  | 35 => ⟨S16384, .i32⟩
  | 36 => ⟨S1x16384, .i32⟩
  | 37 => ⟨S32x16384, .i32⟩
  | 38 => ⟨S32x16384, .i32⟩
  | 39 => ⟨S32x16384, .i32⟩
  | 40 => ⟨S524288, .i32⟩
  | 41 => ⟨S1x16384, .i32⟩
  | 42 => ⟨S16384, .i32⟩
  | 43 => ⟨S1x16384, .i32⟩
  | 44 => ⟨S32x16384, .i32⟩
  | 45 => ⟨S32x16384, .i32⟩
  | 46 => ⟨S32x16384, .i32⟩
  | 47 => ⟨S524288, .i32⟩
  | 48 => ⟨S_, .i32⟩
  | 49 => ⟨S524288, .i32⟩
  | 50 => ⟨S524288, .i1⟩
  | 51 => ⟨S_, .i32⟩
  | 52 => ⟨S524288, .i32⟩
  | 53 => ⟨S524288, .i32⟩
  | 54 => ⟨S524288, .i32⟩
  | 55 => ⟨S524288x1, .i32⟩
  | 56 => ⟨S524288x64, .f32⟩
  | 57 => ⟨S_, .f32⟩
  | 58 => ⟨S32768x64, .f32⟩
  | 59 => ⟨S524288x1, .i32⟩
  | 60 => ⟨S32768x64, .f32⟩
  | 61 => ⟨S32768x64, .f32⟩
  | 62 => ⟨S32768x64, .f32⟩
  | 63 => ⟨S1x64, .f32⟩
  | 64 => ⟨S32768x64, .f32⟩
  | 65 => ⟨S32768x64, .f32⟩
  | 66 => ⟨S1x64, .f32⟩
  | 67 => ⟨S32768x64, .f32⟩
  | 68 => ⟨S32768x64, .f32⟩
  | 69 => ⟨S_, .f32⟩
  | 70 => ⟨S64, .f32⟩
  | 71 => ⟨S64, .f32⟩
  | 72 => ⟨S64, .f32⟩
  | 73 => ⟨S1x64, .f32⟩
  | 74 => ⟨S32768x64, .f32⟩
  | 75 => ⟨S32768x64, .f32⟩
  | 76 => ⟨S1x64, .f32⟩
  | 77 => ⟨S32768x64, .f32⟩
  | 78 => ⟨S32768x64, .f32⟩
  | 79 => ⟨S1x64, .f32⟩
  | 80 => ⟨S32768x64, .f32⟩
  | 81 => ⟨S32768x64, .f32⟩
  | 82 => ⟨S_, .f32⟩
  | 83 => ⟨S32768x64, .f32⟩
  | 84 => ⟨S32768x64, .f32⟩
  | 85 => ⟨S32768x64, .f32⟩
  | 86 => ⟨S1x64, .f32⟩
  | 87 => ⟨S32768x64, .f32⟩
  | 88 => ⟨S32768x64, .f32⟩
  | 89 => ⟨S_, .f32⟩
  | 90 => ⟨S32768x64, .f32⟩
  | 91 => ⟨S32768x64, .f32⟩
  | 92 => ⟨S32, .i32⟩
  | 93 => ⟨S_, .i32⟩
  | 94 => ⟨S32, .i32⟩
  | 95 => ⟨S32, .i32⟩
  | 96 => ⟨S32x1, .i32⟩
  | 97 => ⟨S32, .i32⟩
  | 98 => ⟨S_, .i32⟩
  | 99 => ⟨S32, .i32⟩
  | 100 => ⟨S32, .i32⟩
  | 101 => ⟨S32x1, .i32⟩
  | 102 => ⟨S1x2048, .i32⟩
  | 103 => ⟨S2048, .i32⟩
  | 104 => ⟨S1x2048, .i32⟩
  | 105 => ⟨S32x2048, .i32⟩
  | 106 => ⟨S32x2048, .i32⟩
  | 107 => ⟨S32x2048, .i32⟩
  | 108 => ⟨S65536, .i32⟩
  | 109 => ⟨S1x2048, .i32⟩
  | 110 => ⟨S2048, .i32⟩
  | 111 => ⟨S1x2048, .i32⟩
  | 112 => ⟨S32x2048, .i32⟩
  | 113 => ⟨S32x2048, .i32⟩
  | 114 => ⟨S32x2048, .i32⟩
  | 115 => ⟨S65536, .i32⟩
  | 116 => ⟨S_, .i32⟩
  | 117 => ⟨S65536, .i32⟩
  | 118 => ⟨S65536, .i1⟩
  | 119 => ⟨S_, .i32⟩
  | 120 => ⟨S65536, .i32⟩
  | 121 => ⟨S65536, .i32⟩
  | 122 => ⟨S65536, .i32⟩
  | 123 => ⟨S65536x1, .i32⟩
  | 124 => ⟨S65536x64, .f32⟩
  | 125 => ⟨S_, .f32⟩
  | 126 => ⟨S4096x64, .f32⟩
  | 127 => ⟨S65536x1, .i32⟩
  | _ => ⟨S262144x64, .f32⟩

abbrev hbmTy0_2 (i : Nat) : BufTy := match i % 128 with
  | 0 => ⟨S4096x64, .f32⟩
  | 1 => ⟨S_, .f32⟩
  | 2 => ⟨S65536, .f32⟩
  | 3 => ⟨S_, .f32⟩
  | 4 => ⟨S4096, .f32⟩
  | 5 => ⟨S65536x1, .i32⟩
  | 6 => ⟨S4096, .f32⟩
  | 7 => ⟨S_, .f32⟩
  | 8 => ⟨S4096, .f32⟩
  | 9 => ⟨S4096, .f32⟩
  | 10 => ⟨S4096x1, .f32⟩
  | 11 => ⟨S4096x64, .f32⟩
  | 12 => ⟨S4096x64, .f32⟩
  | 13 => ⟨S32, .i32⟩
  | 14 => ⟨S_, .i32⟩
  | 15 => ⟨S32, .i32⟩
  | 16 => ⟨S32, .i32⟩
  | 17 => ⟨S32x1, .i32⟩
  | 18 => ⟨S32, .i32⟩
  | 19 => ⟨S_, .i32⟩
  | 20 => ⟨S32, .i32⟩
  | 21 => ⟨S32, .i32⟩
  | 22 => ⟨S32x1, .i32⟩
  | 23 => ⟨S1x2048, .i32⟩
  | 24 => ⟨S2048, .i32⟩
  | 25 => ⟨S1x2048, .i32⟩
  | 26 => ⟨S32x2048, .i32⟩
  | 27 => ⟨S32x2048, .i32⟩
  | 28 => ⟨S32x2048, .i32⟩
  | 29 => ⟨S65536, .i32⟩
  | 30 => ⟨S1x2048, .i32⟩
  | 31 => ⟨S2048, .i32⟩
  | 32 => ⟨S1x2048, .i32⟩
  | 33 => ⟨S32x2048, .i32⟩
  | 34 => ⟨S32x2048, .i32⟩
  | 35 => ⟨S32x2048, .i32⟩
  | 36 => ⟨S65536, .i32⟩
  | 37 => ⟨S_, .i32⟩
  | 38 => ⟨S65536, .i32⟩
  | 39 => ⟨S65536, .i1⟩
  | 40 => ⟨S_, .i32⟩
  | 41 => ⟨S65536, .i32⟩
  | 42 => ⟨S65536, .i32⟩
  | 43 => ⟨S65536, .i32⟩
  | 44 => ⟨S65536x1, .i32⟩
  | 45 => ⟨S65536x64, .f32⟩
  | 46 => ⟨S_, .f32⟩
  | 47 => ⟨S4096x64, .f32⟩
  | 48 => ⟨S65536x1, .i32⟩
  | 49 => ⟨S4096x64, .f32⟩
  | 50 => ⟨S4096x64, .f32⟩
  | 51 => ⟨S4096x64, .f32⟩
  | 52 => ⟨S1x64, .f32⟩
  | 53 => ⟨S4096x64, .f32⟩
  | 54 => ⟨S4096x64, .f32⟩
  | 55 => ⟨S1x64, .f32⟩
  | 56 => ⟨S4096x64, .f32⟩
  | 57 => ⟨S4096x64, .f32⟩
  | 58 => ⟨S_, .f32⟩
  | 59 => ⟨S64, .f32⟩
  | 60 => ⟨S64, .f32⟩
  | 61 => ⟨S64, .f32⟩
  | 62 => ⟨S1x64, .f32⟩
  | 63 => ⟨S4096x64, .f32⟩
  | 64 => ⟨S4096x64, .f32⟩
  | 65 => ⟨S1x64, .f32⟩
  | 66 => ⟨S4096x64, .f32⟩
  | 67 => ⟨S4096x64, .f32⟩
  | 68 => ⟨S1x64, .f32⟩
  | 69 => ⟨S4096x64, .f32⟩
  | 70 => ⟨S4096x64, .f32⟩
  | 71 => ⟨S_, .f32⟩
  | 72 => ⟨S4096x64, .f32⟩
  | 73 => ⟨S4096x64, .f32⟩
  | 74 => ⟨S4096x64, .f32⟩
  | 75 => ⟨S1x64, .f32⟩
  | 76 => ⟨S4096x64, .f32⟩
  | 77 => ⟨S4096x64, .f32⟩
  | 78 => ⟨S_, .f32⟩
  | 79 => ⟨S4096x64, .f32⟩
  | 80 => ⟨S4096x64, .f32⟩
  | 81 => ⟨S32x8192, .f32⟩
  | 82 => ⟨S32x64, .f32⟩
  | 83 => ⟨S1x64, .f32⟩
  | 84 => ⟨S32x64, .f32⟩
  | 85 => ⟨S32x64, .f32⟩
  | 86 => ⟨S_, .f32⟩
  | 87 => ⟨S32x64, .f32⟩
  | 88 => ⟨S32x64, .f32⟩
  | 89 => ⟨S32x10, .f32⟩
  | 90 => ⟨S1x10, .f32⟩
  | 91 => ⟨S32x10, .f32⟩
  | 92 => ⟨S32x10, .f32⟩
  | _ => ⟨S262144x64, .f32⟩

abbrev hbmTy (i : Nat) : BufTy := match i / 128 with
  | 0 => hbmTy0_0 i
  | 1 => hbmTy0_1 i
  | 2 => hbmTy0_2 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_c : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_c_0 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_1 : Ref sig .tc := ⟨.hbm, 59, rfl⟩
abbrev main_v22 : Ref sig .tc := ⟨.hbm, 60, rfl⟩
abbrev main_v23 : Ref sig .tc := ⟨.hbm, 61, rfl⟩
abbrev main_c_2 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_3 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_call0_cst : Ref sig .tc := ⟨.hbm, 93, rfl⟩
abbrev main_call0_v0 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_call1_cst : Ref sig .tc := ⟨.hbm, 100, rfl⟩
abbrev main_call1_v0 : Ref sig .tc := ⟨.hbm, 101, rfl⟩
abbrev main_v57 : Ref sig .tc := ⟨.hbm, 102, rfl⟩
abbrev main_v58 : Ref sig .tc := ⟨.hbm, 103, rfl⟩
abbrev main_c_4 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_5 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_6 : Ref sig .tc := ⟨.hbm, 127, rfl⟩
abbrev main_v80 : Ref sig .tc := ⟨.hbm, 128, rfl⟩
abbrev main_v81 : Ref sig .tc := ⟨.hbm, 129, rfl⟩
abbrev main_c_7 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_8 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_9 : Ref sig .tc := ⟨.hbm, 140, rfl⟩
abbrev main_v90 : Ref sig .tc := ⟨.hbm, 141, rfl⟩
abbrev main_cst_10 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_11 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_12 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_c_13 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_c_14 : Ref sig .tc := ⟨.hbm, 176, rfl⟩
abbrev main_v121 : Ref sig .tc := ⟨.hbm, 177, rfl⟩
abbrev main_v122 : Ref sig .tc := ⟨.hbm, 178, rfl⟩
abbrev main_c_15 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_16 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_17 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_call2_cst : Ref sig .tc := ⟨.hbm, 210, rfl⟩
abbrev main_call2_v0 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_call3_cst : Ref sig .tc := ⟨.hbm, 217, rfl⟩
abbrev main_call3_v0 : Ref sig .tc := ⟨.hbm, 218, rfl⟩
abbrev main_v156 : Ref sig .tc := ⟨.hbm, 219, rfl⟩
abbrev main_v157 : Ref sig .tc := ⟨.hbm, 220, rfl⟩
abbrev main_c_18 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_19 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_c_20 : Ref sig .tc := ⟨.hbm, 244, rfl⟩
abbrev main_v179 : Ref sig .tc := ⟨.hbm, 245, rfl⟩
abbrev main_v180 : Ref sig .tc := ⟨.hbm, 246, rfl⟩
abbrev main_c_21 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_22 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_23 : Ref sig .tc := ⟨.hbm, 257, rfl⟩
abbrev main_v189 : Ref sig .tc := ⟨.hbm, 258, rfl⟩
abbrev main_cst_24 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_cst_25 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_c_26 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_c_27 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_c_28 : Ref sig .tc := ⟨.hbm, 293, rfl⟩
abbrev main_v220 : Ref sig .tc := ⟨.hbm, 294, rfl⟩
abbrev main_v221 : Ref sig .tc := ⟨.hbm, 295, rfl⟩
abbrev main_c_29 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_30 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_cst_31 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_call4_cst : Ref sig .tc := ⟨.hbm, 327, rfl⟩
abbrev main_call4_v0 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_call5_cst : Ref sig .tc := ⟨.hbm, 334, rfl⟩
abbrev main_call5_v0 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_call6_cst : Ref sig .tc := ⟨.hbm, 342, rfl⟩
abbrev main_call6_v0 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  slices_S2x65536_S1x65536_0_0 : S2x65536.Slices ![0, 0] S1x65536
  shapeCasts_S1x65536_S65536 : S1x65536.ShapeCasts S65536
  bcast_S65536_S1x65536_1 : S65536.BroadcastsInDim S1x65536 (![1] : Fin 1 → Fin S1x65536.rank)
  bcast_S1x65536_S32x65536_0_1 : S1x65536.BroadcastsInDim S32x65536 (![0, 1] : Fin 2 → Fin S32x65536.rank)
  bcast_S32x1_S32x65536_0_1 : S32x1.BroadcastsInDim S32x65536 (![0, 1] : Fin 2 → Fin S32x65536.rank)
  shapeCasts_S32x65536_S2097152 : S32x65536.ShapeCasts S2097152
  slices_S2x65536_S1x65536_1_0 : S2x65536.Slices ![1, 0] S1x65536
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S262144x64 : S_.BroadcastsInDim S262144x64 (![] : Fin 0 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S64 : S_.BroadcastsInDim S64 (![] : Fin 0 → Fin S64.rank)
  slices_S2x16384_S1x16384_0_0 : S2x16384.Slices ![0, 0] S1x16384
  shapeCasts_S1x16384_S16384 : S1x16384.ShapeCasts S16384
  bcast_S16384_S1x16384_1 : S16384.BroadcastsInDim S1x16384 (![1] : Fin 1 → Fin S1x16384.rank)
  bcast_S1x16384_S32x16384_0_1 : S1x16384.BroadcastsInDim S32x16384 (![0, 1] : Fin 2 → Fin S32x16384.rank)
  bcast_S32x1_S32x16384_0_1 : S32x1.BroadcastsInDim S32x16384 (![0, 1] : Fin 2 → Fin S32x16384.rank)
  shapeCasts_S32x16384_S524288 : S32x16384.ShapeCasts S524288
  slices_S2x16384_S1x16384_1_0 : S2x16384.Slices ![1, 0] S1x16384
  bcast_S_S524288 : S_.BroadcastsInDim S524288 (![] : Fin 0 → Fin S524288.rank)
  bcast_S524288_S524288x1_0 : S524288.BroadcastsInDim S524288x1 (![0] : Fin 1 → Fin S524288x1.rank)
  bcast_S_S32768x64 : S_.BroadcastsInDim S32768x64 (![] : Fin 0 → Fin S32768x64.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  slices_S2x2048_S1x2048_0_0 : S2x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  shapeCasts_S32x2048_S65536 : S32x2048.ShapeCasts S65536
  slices_S2x2048_S1x2048_1_0 : S2x2048.Slices ![1, 0] S1x2048
  bcast_S_S65536 : S_.BroadcastsInDim S65536 (![] : Fin 0 → Fin S65536.rank)
  bcast_S65536_S65536x1_0 : S65536.BroadcastsInDim S65536x1 (![0] : Fin 1 → Fin S65536x1.rank)
  bcast_S_S4096x64 : S_.BroadcastsInDim S4096x64 (![] : Fin 0 → Fin S4096x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  shapeCasts_S4096x64_S32x8192 : S4096x64.ShapeCasts S32x8192
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x64_S262144x64_1_0_0_1_n_n_wf : DotDims.WF S262144x64 S64x64 S262144x64 [1] [0] [0] [1] [] []
  gather_S262144x64_S524288x1_S524288x64_1_0_n_n_0_1_164_wf : GatherDims.WF S262144x64 S524288x1 S524288x64 [1] [0] [] [0] [] 1 ![1, 64]
  scatter_S32768x64_S524288x1_S524288x64_1_0_0_1_wf : ScatterDims.WF S32768x64 S524288x1 S524288x64 [1] [0] [0] 1
  scatter_S32768_S524288x1_S524288_n_0_0_1_wf : ScatterDims.WF S32768 S524288x1 S524288 [] [0] [0] 1
  gather_S32768x64_S524288x1_S524288x64_1_0_n_n_0_1_164_wf : GatherDims.WF S32768x64 S524288x1 S524288x64 [1] [0] [] [0] [] 1 ![1, 64]
  dot_S32768x64_S64x64_S32768x64_1_0_0_1_n_n_wf : DotDims.WF S32768x64 S64x64 S32768x64 [1] [0] [0] [1] [] []
  gather_S32768x64_S65536x1_S65536x64_1_0_n_n_0_1_164_wf : GatherDims.WF S32768x64 S65536x1 S65536x64 [1] [0] [] [0] [] 1 ![1, 64]
  scatter_S4096x64_S65536x1_S65536x64_1_0_0_1_wf : ScatterDims.WF S4096x64 S65536x1 S65536x64 [1] [0] [0] 1
  scatter_S4096_S65536x1_S65536_n_0_0_1_wf : ScatterDims.WF S4096 S65536x1 S65536 [] [0] [0] 1
  gather_S4096x64_S65536x1_S65536x64_1_0_n_n_0_1_164_wf : GatherDims.WF S4096x64 S65536x1 S65536x64 [1] [0] [] [0] [] 1 ![1, 64]
  dot_S4096x64_S64x64_S4096x64_1_0_0_1_n_n_wf : DotDims.WF S4096x64 S64x64 S4096x64 [1] [0] [0] [1] [] []
  dot_S32x8192_S8192x64_S32x64_1_0_0_1_n_n_wf : DotDims.WF S32x8192 S8192x64 S32x64 [1] [0] [0] [1] [] []
  dot_S32x64_S64x10_S32x10_1_0_0_1_n_n_wf : DotDims.WF S32x64 S64x10 S32x10 [1] [0] [0] [1] [] []

variable [Facts₀]

def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def gather_S262144x64_S524288x1_S524288x64_1_0_n_n_0_1_164 : GatherDims S262144x64 S524288x1 S524288x64 where
  offsetDims := [1]
  collapsedSliceDims := [0]
  operandBatchingDims := []
  startIndicesBatchingDims := []
  startIndexMap := [0]
  indexVectorDim := 1
  sliceSizes := ![1, 64]
  wf := gather_S262144x64_S524288x1_S524288x64_1_0_n_n_0_1_164_wf
def scatter_S32768x64_S524288x1_S524288x64_1_0_0_1 : ScatterDims S32768x64 S524288x1 S524288x64 where
  updateWindowDims := [1]
  insertedWindowDims := [0]
  scatterDimsToOperandDims := [0]
  indexVectorDim := 1
  wf := scatter_S32768x64_S524288x1_S524288x64_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def gather_S32768x64_S524288x1_S524288x64_1_0_n_n_0_1_164 : GatherDims S32768x64 S524288x1 S524288x64 where
  offsetDims := [1]
  collapsedSliceDims := [0]
  operandBatchingDims := []
  startIndicesBatchingDims := []
  startIndexMap := [0]
  indexVectorDim := 1
  sliceSizes := ![1, 64]
  wf := gather_S32768x64_S524288x1_S524288x64_1_0_n_n_0_1_164_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def gather_S32768x64_S65536x1_S65536x64_1_0_n_n_0_1_164 : GatherDims S32768x64 S65536x1 S65536x64 where
  offsetDims := [1]
  collapsedSliceDims := [0]
  operandBatchingDims := []
  startIndicesBatchingDims := []
  startIndexMap := [0]
  indexVectorDim := 1
  sliceSizes := ![1, 64]
  wf := gather_S32768x64_S65536x1_S65536x64_1_0_n_n_0_1_164_wf
def scatter_S4096x64_S65536x1_S65536x64_1_0_0_1 : ScatterDims S4096x64 S65536x1 S65536x64 where
  updateWindowDims := [1]
  insertedWindowDims := [0]
  scatterDimsToOperandDims := [0]
  indexVectorDim := 1
  wf := scatter_S4096x64_S65536x1_S65536x64_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S4096x64_S65536x1_S65536x64_1_0_n_n_0_1_164 : GatherDims S4096x64 S65536x1 S65536x64 where
  offsetDims := [1]
  collapsedSliceDims := [0]
  operandBatchingDims := []
  startIndicesBatchingDims := []
  startIndexMap := [0]
  indexVectorDim := 1
  sliceSizes := ![1, 64]
  wf := gather_S4096x64_S65536x1_S65536x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S32x8192_S8192x64_S32x64_1_0_0_1_n_n : DotDims S32x8192 S8192x64 S32x64 where
  lhsContracting := [1]
  rhsContracting := [0]
  lhsNonContracting := [0]
  rhsNonContracting := [1]
  lhsBatch := []
  rhsBatch := []
  wf := dot_S32x8192_S8192x64_S32x64_1_0_0_1_n_n_wf
def dot_S32x64_S64x10_S32x10_1_0_0_1_n_n : DotDims S32x64 S64x10 S32x10 where
  lhsContracting := [1]
  rhsContracting := [0]
  lhsNonContracting := [0]
  rhsNonContracting := [1]
  lhsBatch := []
  rhsBatch := []
  wf := dot_S32x64_S64x10_S32x10_1_0_0_1_n_n_wf

class Facts : Prop extends Facts₀ where

variable [Facts]
-- ==== Proof.KChain0Pre.lean ====
import proofs.«421097_j4681514352669_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal

set_option maxRecDepth 16384

noncomputable section

namespace Cert.KernelIdeal.KChain

open Idealize.ShloMosaic Idealize.ShloMosaic.TcCoe Idealize.ShloMosaic.ValueIdx Idealize.ShloMosaic.StableHlo
open Idealize.SL.Sem
open Cert.KernelIdeal Cert.KernelIdeal.Gen

namespace L0

-- A reshape between two matrices keeps every entry's row-major position.
theorem cast2_apply {α : Type} {A B C D : ℕ} (X : (⟨2, ![A, B]⟩ : Shape).Idx → α)
    (h : (⟨2, ![A, B]⟩ : Shape).ShapeCasts ⟨2, ![C, D]⟩) (i : Fin C) (j : Fin D) (i' : Fin A) (j' : Fin B)
    (e : i'.val * B + j'.val = i.val * D + j.val) : shapeCast ⟨2, ![C, D]⟩ X h (ix2 i j) = X (ix2 i' j') :=
  shapeCast_apply X h _ _ (by rw [Shape.rowMajor_val_two, Shape.rowMajor_val_two]; exact e)

variable (m : (ℓ : Loc nD τ sig) → Buf (Elt Ideal) ℓ) (ρ : Dev nD → PrngReg)

-- A line whose every operation writes one reference of index at least n leaves every reference below n alone.
theorem after_of_idx_lt {n : ℕ} {ops : List (HloOp τ sig (Elt Ideal))}
    (hops : ops.Forall fun op => ∃ y : Ref sig .tc, n ≤ y.idx.val ∧ op.writes = {Proc.devRef .tc y})
    (V : Valuation τ sig (Elt Ideal)) (b : Ref sig .tc) (hb : b.idx.val < n) :
    StableHlo.after ops V (Proc.devRef .tc b) = V (Proc.devRef .tc b) :=
  StableHlo.after_of_forall_not_mem ops V fun op hop => by
    intro hm
    obtain ⟨y, hy, e⟩ := List.forall_iff_forall_mem.mp hops op hop
    rw [e, Finset.mem_singleton] at hm
    cases Proc.devRef_injective _ hm
    omega

local macro "line_idx" ops:ident : tactic => `(tactic|
  (simp only [$ops:ident, List.Forall]
   repeat' apply And.intro
   all_goals exact ⟨_, by decide, rfl⟩))

-- The program's arguments have the indices below 35; the first stretch writes from 35 on.
theorem arg_W2 (c : Dev nD) (b : Ref sig .tc) (hb : b.idx.val < 35) (h0 : ∀ w, Pipeline.arrRef spec0 w ≠ b) :
    W2 m ρ c (Proc.devRef .tc b) = m ((c : Thread nD τ).loc b) :=
  (W2_of_ne m ρ c b h0).trans (after_of_idx_lt (n := 35) (by line_idx hostOps0) _ b hb)

-- The stretches before regions 1 and 2 write from index 187 on.
theorem W5_keep (c : Dev nD) (b : Ref sig .tc) (hb : b.idx.val < 187) (h0 : ∀ w, Pipeline.arrRef spec0 w ≠ b)
    (h1 : ∀ w, Pipeline.arrRef spec1 w ≠ b) : W5 m ρ c (Proc.devRef .tc b) = W1 m ρ c (Proc.devRef .tc b) :=
  ((after_of_idx_lt (by line_idx hostOps2) _ b hb).trans (W4_of_ne m ρ c b h1)).trans
    ((after_of_idx_lt (by line_idx hostOps1) _ b hb).trans (W2_of_ne m ρ c b h0))

theorem v117_W2 (c : Dev nD) :
    W2 m ρ c (Proc.devRef .tc main_v117) = (dat0 (V1 m ρ) c).arrAt 2 cfg0.N := W2_arr m ρ c 2

theorem v126_W4 (c : Dev nD) :
    W4 m ρ c (Proc.devRef .tc main_v126) = (dat1 (V3 m ρ) c).arrAt 10 cfg1.N := W4_arr m ρ c 10

theorem v129_W6 (c : Dev nD) :
    W6 m ρ c (Proc.devRef .tc main_v129) = (dat2 (V5 m ρ) c).arrAt 2 cfg2.N := W6_arr m ρ c 2

-- The two feature arrays region 1 reads are reshapes of buffers the stretch before it does not write.
theorem ops1_terms (c : Dev nD) :
    (W3 m ρ c (Proc.devRef .tc main_v118) : S262144x64.Idx → EReal)
        = shapeCast S262144x64 (W2 m ρ c (Proc.devRef .tc main_v115) : S8192x2048.Idx → EReal)
            shapeCasts_S8192x2048_S262144x64
      ∧ (W3 m ρ c (Proc.devRef .tc main_v119) : S262144x64.Idx → EReal)
        = shapeCast S262144x64 (W2 m ρ c (Proc.devRef .tc main_v117) : S8192x2048.Idx → EReal)
            shapeCasts_S8192x2048_S262144x64 := by
  constructor <;> (dsimp only [W3, hostOps1]; after_results; rfl)

-- Narrowing is the identity on extended reals.
theorem v128_term (c : Dev nD) :
    (W5 m ρ c (Proc.devRef .tc main_v128) : S8192x2048.Idx → EReal)
      = shapeCast S8192x2048 (W4 m ρ c (Proc.devRef .tc main_v126) : S262144x64.Idx → EReal)
          shapeCasts_S262144x64_S8192x2048 := by
  dsimp only [W5, hostOps2]
  after_results
  rfl

theorem v131_term (c : Dev nD) :
    (W7 m ρ c (Proc.devRef .tc main_v131) : S1024x2048.Idx → EReal)
      = Host.divf (F := Ideal) (W6 m ρ c (Proc.devRef .tc main_v129) : FVec Ideal S1024x2048 .f32)
          (broadcastInDim S1024x2048 ![0, 1] bcast_S1024x1_S1024x2048_0_1
            (W6 m ρ c (Proc.devRef .tc main_v44) : FVec Ideal S1024x1 .f32) : FVec Ideal S1024x2048 .f32) := by
  dsimp only [W7, hostOps3]
  after_results
  all_goals rfl

theorem v132_term (c : Dev nD) :
    (W7 m ρ c (Proc.devRef .tc main_v132) : S1024x2048.Idx → EReal) = W7 m ρ c (Proc.devRef .tc main_v131) := by
  dsimp only [W7, hostOps3]
  after_results
  all_goals rfl

end L0

end Cert.KernelIdeal.KChain

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev zero : EReal := Ideal.ofBits .f32 0x00000000#32
abbrev one : EReal := Ideal.ofBits .f32 0x3F800000#32
abbrev eps : EReal := Ideal.ofBits .f32 0x3727C5AC#32

/-- A word as a node of a level with `N` nodes. -/
def node (N : ℕ) (hN : 0 < N) (w : BitVec 32) : Fin N := ⟨w.toNat % N, Nat.mod_lt _ hN⟩

/-- Every word of row `r`, read signed, names a node: it lies in `[0, N)`. -/
def InRange {E : ℕ} (e : (⟨2, ![2, E]⟩ : Shape).Idx → BitVec 32) (r : Fin 2) (N : ℕ) : Prop :=
  ∀ k : Fin E, 0 ≤ (e (ix2 r k)).toInt ∧ (e (ix2 r k)).toInt < (N : ℤ)

def srcOf {E : ℕ} (N : ℕ) (hN : 0 < N) (e : (⟨2, ![2, E]⟩ : Shape).Idx → BitVec 32) (k : Fin E) : Fin N :=
  node N hN (e (ix2 0 k))
def dstOf {E : ℕ} (N : ℕ) (hN : 0 < N) (e : (⟨2, ![2, E]⟩ : Shape).Idx → BitVec 32) (k : Fin E) : Fin N :=
  node N hN (e (ix2 1 k))

/-- A word in range reads, signed, as its node. -/
theorem toInt_eq_node {E : ℕ} {e : (⟨2, ![2, E]⟩ : Shape).Idx → BitVec 32} {r : Fin 2} {N : ℕ} (hN : 0 < N)
    (h : InRange e r N) (k : Fin E) : (e (ix2 r k)).toInt = ((node N hN (e (ix2 r k))).val : ℤ) := by
  obtain ⟨h0, h1⟩ := h k
  generalize e (ix2 r k) = w at h0 h1 ⊢
  have hw : w.toInt = (w.toNat : ℤ) := by
    rw [BitVec.toInt_eq_toNat_cond] at h0 ⊢
    split_ifs at h0 ⊢ with hc
    · rfl
    · have := w.isLt; omega
  show w.toInt = ((w.toNat % N : ℕ) : ℤ)
  rw [hw] at h1 ⊢
  have h2 : w.toNat < N := by exact_mod_cast h1
  rw [Nat.mod_eq_of_lt h2]

/-- The sum of `h` over the sources of the edges into `d`. -/
def segSum {E Ns Nd : ℕ} (src : Fin E → Fin Ns) (dst : Fin E → Fin Nd) (h : Fin Ns → EReal) (d : Fin Nd) : EReal :=
  ∑ k ∈ Finset.univ.filter (fun k => dst k = d), h (src k)

/-- The number of edges into `d`. -/
def segCnt {E Nd : ℕ} (dst : Fin E → Fin Nd) (d : Fin Nd) : EReal :=
  ∑ _k ∈ Finset.univ.filter (fun k => dst k = d), one

structure GinW where
  w1 : (⟨2, ![64, 64]⟩ : Shape).Idx → EReal
  b1 : (⟨1, ![64]⟩ : Shape).Idx → EReal
  g  : (⟨1, ![64]⟩ : Shape).Idx → EReal
  bt : (⟨1, ![64]⟩ : Shape).Idx → EReal
  rm : (⟨1, ![64]⟩ : Shape).Idx → EReal
  rv : (⟨1, ![64]⟩ : Shape).Idx → EReal
  w2 : (⟨2, ![64, 64]⟩ : Shape).Idx → EReal
  b2 : (⟨1, ![64]⟩ : Shape).Idx → EReal

/-- First layer of the perceptron: an affine map, normalised by the stored mean and variance, scaled, shifted, rectified. -/
def ginMid (P : GinW) (xin : Fin 64 → EReal) (c : Fin 64) : EReal :=
  max ((((∑ k : Fin 64, xin k * P.w1 (ix2 k c)) + P.b1 (ix1 c) - P.rm (ix1 c)) * Ideal.rsqrt (P.rv (ix1 c) + eps))
    * P.g (ix1 c) + P.bt (ix1 c)) zero

/-- Second layer: an affine map of the first layer's output, rectified. -/
def ginOut (P : GinW) (xin : Fin 64 → EReal) (c : Fin 64) : EReal :=
  max ((∑ k : Fin 64, ginMid P xin k * P.w2 (ix2 k c)) + P.b2 (ix1 c)) zero

/-- A graph convolution: the perceptron of a node's features plus the sum over its in-neighbours. -/
def conv {E N : ℕ} (P : GinW) (src dst : Fin E → Fin N) (H : Fin 32 → Fin N → Fin 64 → EReal) :
    Fin 32 → Fin N → Fin 64 → EReal :=
  fun b n => ginOut P (fun f => H b n f + segSum src dst (fun s => H b s f) n)

/-- Mean pooling: the sum over the edges into `d` divided by their number, or by one if there are none. -/
def pool {E Ns Nd : ℕ} (src : Fin E → Fin Ns) (dst : Fin E → Fin Nd) (H : Fin 32 → Fin Ns → Fin 64 → EReal) :
    Fin 32 → Fin Nd → Fin 64 → EReal :=
  fun b d f => Ideal.div (segSum src dst (fun s => H b s f) d) (max (segCnt dst d) one)

end Cert.Spec

end
-- ==== Proof.LibScatterAdd.lean ====
import Idealize.ShloMosaic.PureOps.ShapeOps
import Idealize.ShloMosaic.PureOps.Ideal
import Idealize.ShloMosaic.Lib.ValueIdx
import Idealize.ShloMosaic.Lib.StableHlo.Predicate

noncomputable section

open scoped BigOperators

namespace Cert.LibScatterAdd

open Idealize.ShloMosaic Idealize.ShloMosaic.ValueIdx

theorem getElem_of_eq_singleton {α : Type} {l : List α} {a : α} (h : l = [a]) (i : Nat) (hi : i < l.length) :
    l[i] = a := by
  subst h
  have h0 : i = 0 := by simpa using hi
  subst h0
  rfl

-- An update lands on an operand index exactly when, on every axis, its start plus its window coordinate is that index's coordinate.
theorem resultIdx?_eq_some_iff {s si u : Shape} (d : ScatterDims s si u) (j : u.Idx) (idx : IVec si 32) (t : s.Idx) :
    d.resultIdx? j idx = some t ↔ ∀ a, d.start j idx a + (d.window j a : ℤ) = ((t a).val : ℤ) := by
  unfold ScatterDims.resultIdx?
  split
  · next h =>
    constructor
    · intro e a
      have ea : (d.start j idx a + (d.window j a : ℤ)).toNat = (t a).val :=
        congrArg Fin.val (congrFun (Option.some.inj e) a)
      have := (h a).1
      omega
    · intro e
      congr 1
      funext a
      apply Fin.ext
      show (d.start j idx a + (d.window j a : ℤ)).toNat = (t a).val
      rw [e a]
      exact Int.toNat_natCast _
  · next h =>
    constructor
    · intro e; exact absurd e (by simp)
    · intro e
      exfalso
      apply h
      intro a
      rw [e a]
      have := (t a).isLt
      omega

-- The accumulating scatter at an index: the operand's element plus the updates that land there, counted along a bijection with the update numbers.
theorem scatterAdd_apply_of {s si u : Shape} {n : ℕ} (d : ScatterDims s si u) (x : s.Idx → EReal) (idx : IVec si 32)
    (upd : u.Idx → EReal) (t : s.Idx) (P : Fin n → Prop) [DecidablePred P] (emb : Fin n → u.Idx) (back : u.Idx → Fin n)
    (h1 : ∀ j', d.resultIdx? j' idx = some t → P (back j') ∧ emb (back j') = j')
    (h2 : ∀ j, P j → d.resultIdx? (emb j) idx = some t) (h3 : ∀ j, back (emb j) = j) :
    Host.scatterAdd (F := Ideal) (φ := .f32) d x idx upd t = x t + ∑ j ∈ Finset.univ.filter P, upd (emb j) := by
  show x t + _ = x t + _
  congr 1
  refine Finset.sum_bij' (fun j' _ => back j') (fun j _ => emb j) ?_ ?_ ?_ ?_ ?_
  · intro j' hj'
    exact Finset.mem_filter.mpr ⟨Finset.mem_univ _, (h1 j' (Finset.mem_filter.mp hj').2).1⟩
  · intro j hj
    exact Finset.mem_filter.mpr ⟨Finset.mem_univ _, h2 j (Finset.mem_filter.mp hj).2⟩
  · intro j' hj'
    exact (h1 j' (Finset.mem_filter.mp hj').2).2
  · intro j _
    exact h3 j
  · intro j' hj'
    exact congrArg upd (h1 j' (Finset.mem_filter.mp hj').2).2.symm

theorem resultIdx?_pair_eq_some_iff {Nd Ns E : ℕ}
    (d : ScatterDims (⟨2, ![Nd, Ns]⟩ : Shape) (⟨2, ![E, 2]⟩ : Shape) (⟨1, ![E]⟩ : Shape))
    (hu : d.updateWindowDims = []) (hi : d.insertedWindowDims = [0, 1]) (hs : d.scatterDimsToOperandDims = [0, 1])
    (hv : d.indexVectorDim = 1) (idx : IVec (⟨2, ![E, 2]⟩ : Shape) 32) (k : Fin E) (p : Fin Nd) (q : Fin Ns) :
    d.resultIdx? (ix1 k) idx = some (ix2 p q) ↔
      (idx (ix2 k 0)).toInt = (p.val : ℤ) ∧ (idx (ix2 k 1)).toInt = (q.val : ℤ) := by
  have hm0 : (0 : Fin 2) ∈ d.scatterDimsToOperandDims := by rw [hs]; simp
  have hm1 : (1 : Fin 2) ∈ d.scatterDimsToOperandDims := by rw [hs]; simp
  have hwin : ∀ a : Fin 2, d.window (ix1 k) a = 0 := by
    intro a
    unfold ScatterDims.window
    rw [dif_neg]
    match a with
    | ⟨0, _⟩ => simp [ScatterDims.sKept, Shape.kept, hi]
    | ⟨1, _⟩ => simp [ScatterDims.sKept, Shape.kept, hi]
  have hsi : ∀ (c : Fin d.scatterDimsToOperandDims.length) (c' : Fin 2), c.val = c'.val →
      d.siIdx (ix1 k) c = ix2 k c' := by
    intro c c' hc
    funext b
    match b with
    | ⟨0, _⟩ =>
      unfold ScatterDims.siIdx
      rw [dif_neg (by rw [hv]; simp)]
      unfold ScatterDims.siCoord
      apply Fin.ext
      simp only [Fin.val_cast]
      have e : ∀ X : Fin 1, ((ix1 k) X).val = k.val := fun X => by
        have hX : X = 0 := Subsingleton.elim _ _
        subst hX; rfl
      exact e _
    | ⟨1, _⟩ =>
      unfold ScatterDims.siIdx
      rw [dif_pos (by rw [hv])]
      apply Fin.ext
      exact hc
  have hstart0 : d.start (ix1 k) idx 0 = (idx (ix2 k 0)).toInt := by
    unfold ScatterDims.start
    rw [dif_pos hm0, hsi _ 0 (by simp [hs])]
  have hstart1 : d.start (ix1 k) idx 1 = (idx (ix2 k 1)).toInt := by
    unfold ScatterDims.start
    rw [dif_pos hm1, hsi _ 1 (by simp [hs])]
  rw [resultIdx?_eq_some_iff]
  constructor
  · intro h
    have h0 := h 0
    have h1 := h 1
    rw [hstart0, hwin] at h0
    rw [hstart1, hwin] at h1
    change (idx (ix2 k 0)).toInt + ((0 : Nat) : ℤ) = (p.val : ℤ) at h0
    change (idx (ix2 k 1)).toInt + ((0 : Nat) : ℤ) = (q.val : ℤ) at h1
    omega
  · intro e a
    match a with
    | ⟨0, _⟩ =>
      show d.start (ix1 k) idx 0 + (d.window (ix1 k) 0 : ℤ) = (p.val : ℤ)
      rw [hstart0, hwin]
      omega
    | ⟨1, _⟩ =>
      show d.start (ix1 k) idx 1 + (d.window (ix1 k) 1 : ℤ) = (q.val : ℤ)
      rw [hstart1, hwin]
      omega

theorem scatterAdd2_apply {Nd Ns E : ℕ}
    (d : ScatterDims (⟨2, ![Nd, Ns]⟩ : Shape) (⟨2, ![E, 2]⟩ : Shape) (⟨1, ![E]⟩ : Shape))
    (hu : d.updateWindowDims = []) (hi : d.insertedWindowDims = [0, 1]) (hs : d.scatterDimsToOperandDims = [0, 1])
    (hv : d.indexVectorDim = 1)
    (x : (⟨2, ![Nd, Ns]⟩ : Shape).Idx → EReal) (idx : IVec (⟨2, ![E, 2]⟩ : Shape) 32)
    (upd : (⟨1, ![E]⟩ : Shape).Idx → EReal) (p : Fin Nd) (q : Fin Ns) :
    Host.scatterAdd (F := Ideal) (φ := .f32) d x idx upd (ix2 p q)
      = x (ix2 p q) + ∑ k ∈ Finset.univ.filter (fun k : Fin E =>
          (idx (ix2 k 0)).toInt = (p.val : ℤ) ∧ (idx (ix2 k 1)).toInt = (q.val : ℤ)), upd (ix1 k) := by
  refine scatterAdd_apply_of d x idx upd (ix2 p q) _ (fun k => ix1 k) (fun j => (j 0 : Fin E)) (fun j hj => ?_)
    (fun k hk => (resultIdx?_pair_eq_some_iff d hu hi hs hv idx k p q).mpr hk) (fun _ => rfl)
  rw [eq_ix1 j] at hj
  exact ⟨(resultIdx?_pair_eq_some_iff d hu hi hs hv idx (j 0) p q).mp hj, (eq_ix1 j).symm⟩

theorem resultIdx?_row_eq_some_iff {M n C : ℕ}
    (d : ScatterDims (⟨2, ![M, C]⟩ : Shape) (⟨2, ![n, 1]⟩ : Shape) (⟨2, ![n, C]⟩ : Shape))
    (hu : d.updateWindowDims = [1]) (hi : d.insertedWindowDims = [0]) (hs : d.scatterDimsToOperandDims = [0])
    (hv : d.indexVectorDim = 1) (idx : IVec (⟨2, ![n, 1]⟩ : Shape) 32) (j : Fin n) (f' : Fin C) (r : Fin M)
    (f : Fin C) :
    d.resultIdx? (ix2 j f') idx = some (ix2 r f) ↔ (idx (ix2 j 0)).toInt = (r.val : ℤ) ∧ f' = f := by
  have hm0 : (0 : Fin 2) ∈ d.scatterDimsToOperandDims := by rw [hs]; simp
  have hm1 : (1 : Fin 2) ∉ d.scatterDimsToOperandDims := by rw [hs]; simp
  have hk0 : (0 : Fin 2) ∉ d.sKept := by simp [ScatterDims.sKept, Shape.kept, hi]
  have hk1 : (1 : Fin 2) ∈ d.sKept := by simp [ScatterDims.sKept, Shape.kept, hi]
  have hwin0 : d.window (ix2 j f') 0 = 0 := by
    unfold ScatterDims.window
    rw [dif_neg hk0]
  have hwin1 : d.window (ix2 j f') 1 = f'.val := by
    unfold ScatterDims.window
    rw [dif_pos hk1]
    have e : ∀ X : Fin 2, X = 1 → ((ix2 j f') X).val = f'.val := fun X hX => by subst hX; rfl
    exact e _ (getElem_of_eq_singleton hu _ _)
  have hsi : ∀ c, d.siIdx (ix2 j f') c = ix2 j 0 := by
    intro c
    funext b
    match b with
    | ⟨0, _⟩ =>
      unfold ScatterDims.siIdx
      rw [dif_neg (by rw [hv]; simp)]
      unfold ScatterDims.siCoord
      apply Fin.ext
      simp only [Fin.val_cast]
      have e : ∀ X : Fin 2, X ∈ d.uScatter → ((ix2 j f') X).val = j.val := fun X hX => by
        have hX' : X ≠ 1 := by
          simpa [ScatterDims.uScatter, Shape.kept, hu] using hX
        match X, hX' with
        | ⟨0, _⟩, _ => rfl
        | ⟨1, _⟩, h => exact absurd rfl h
      exact e _ (List.getElem_mem _)
    | ⟨1, _⟩ =>
      unfold ScatterDims.siIdx
      rw [dif_pos (by rw [hv])]
      apply Fin.ext
      have hc := c.isLt
      simp only [hs, List.length_singleton] at hc
      show c.val = 0
      omega
  have hstart0 : d.start (ix2 j f') idx 0 = (idx (ix2 j 0)).toInt := by
    unfold ScatterDims.start
    rw [dif_pos hm0, hsi]
  have hstart1 : d.start (ix2 j f') idx 1 = 0 := by
    unfold ScatterDims.start
    rw [dif_neg hm1]
  rw [resultIdx?_eq_some_iff]
  constructor
  · intro h
    have h0 := h 0
    have h1 := h 1
    rw [hstart0, hwin0] at h0
    rw [hstart1, hwin1] at h1
    change (idx (ix2 j 0)).toInt + ((0 : Nat) : ℤ) = (r.val : ℤ) at h0
    change (0 : ℤ) + ((f'.val : Nat) : ℤ) = (f.val : ℤ) at h1
    exact ⟨by omega, Fin.ext (by omega)⟩
  · rintro ⟨e, rfl⟩ a
    match a with
    | ⟨0, _⟩ =>
      show d.start (ix2 j f') idx 0 + (d.window (ix2 j f') 0 : ℤ) = (r.val : ℤ)
      rw [hstart0, hwin0]
      omega
    | ⟨1, _⟩ =>
      show d.start (ix2 j f') idx 1 + (d.window (ix2 j f') 1 : ℤ) = (f'.val : ℤ)
      rw [hstart1, hwin1]
      omega

theorem scatterAddRows_apply {M n C : ℕ}
    (d : ScatterDims (⟨2, ![M, C]⟩ : Shape) (⟨2, ![n, 1]⟩ : Shape) (⟨2, ![n, C]⟩ : Shape))
    (hu : d.updateWindowDims = [1]) (hi : d.insertedWindowDims = [0]) (hs : d.scatterDimsToOperandDims = [0])
    (hv : d.indexVectorDim = 1)
    (x : (⟨2, ![M, C]⟩ : Shape).Idx → EReal) (idx : IVec (⟨2, ![n, 1]⟩ : Shape) 32)
    (upd : (⟨2, ![n, C]⟩ : Shape).Idx → EReal) (r : Fin M) (f : Fin C) :
    Host.scatterAdd (F := Ideal) (φ := .f32) d x idx upd (ix2 r f)
      = x (ix2 r f) + ∑ j ∈ Finset.univ.filter (fun j : Fin n => (idx (ix2 j 0)).toInt = (r.val : ℤ)),
          upd (ix2 j f) := by
  refine scatterAdd_apply_of d x idx upd (ix2 r f) _ (fun j => ix2 j f) (fun j' => (j' 0 : Fin n)) (fun j' hj' => ?_)
    (fun j hj => (resultIdx?_row_eq_some_iff d hu hi hs hv idx j f r f).mpr ⟨hj, rfl⟩) (fun _ => rfl)
  rw [eq_ix2 j'] at hj'
  obtain ⟨h1, h2⟩ := (resultIdx?_row_eq_some_iff d hu hi hs hv idx (j' 0) (j' 1) r f).mp hj'
  subst h2
  exact ⟨h1, (eq_ix2 j').symm⟩

theorem resultIdx?_flat_eq_some_iff {M n : ℕ}
    (d : ScatterDims (⟨1, ![M]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1) (idx : IVec (⟨2, ![n, 1]⟩ : Shape) 32) (j : Fin n) (r : Fin M) :
    d.resultIdx? (ix1 j) idx = some (ix1 r) ↔ (idx (ix2 j 0)).toInt = (r.val : ℤ) := by
  have hm : (0 : Fin 1) ∈ d.scatterDimsToOperandDims := by rw [hs]; exact List.mem_singleton.mpr rfl
  have hk : (0 : Fin 1) ∉ d.sKept := by simp [ScatterDims.sKept, Shape.kept, hi]
  have hall : ∀ a : Fin 1, a = 0 := fun a => Subsingleton.elim _ _
  have hsi : ∀ c, d.siIdx (ix1 j) c = ix2 j 0 := by
    intro c
    funext b
    match b with
    | ⟨0, _⟩ =>
      unfold ScatterDims.siIdx
      rw [dif_neg (by rw [hv]; simp)]
      unfold ScatterDims.siCoord
      apply Fin.ext
      simp only [Fin.val_cast]
      have e : ∀ X : Fin 1, ((ix1 j) X).val = j.val := fun X => by
        rw [hall X]
      exact e _
    | ⟨1, _⟩ =>
      unfold ScatterDims.siIdx
      rw [dif_pos (by rw [hv])]
      apply Fin.ext
      have hc := c.isLt
      simp only [hs, List.length_singleton] at hc
      show c.val = 0
      omega
  have hstart : d.start (ix1 j) idx 0 = (idx (ix2 j 0)).toInt := by
    unfold ScatterDims.start
    rw [dif_pos hm, hsi]
  have hwin : d.window (ix1 j) 0 = 0 := by
    unfold ScatterDims.window
    rw [dif_neg hk]
  rw [resultIdx?_eq_some_iff]
  constructor
  · intro h
    have h0 := h 0
    rw [hstart, hwin] at h0
    change (idx (ix2 j 0)).toInt + ((0 : Nat) : ℤ) = (r.val : ℤ) at h0
    omega
  · intro e a
    rw [hall a]
    show d.start (ix1 j) idx 0 + (d.window (ix1 j) 0 : ℤ) = (r.val : ℤ)
    rw [hstart, hwin]
    omega

theorem scatterAdd1_apply {M n : ℕ}
    (d : ScatterDims (⟨1, ![M]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1)
    (x : (⟨1, ![M]⟩ : Shape).Idx → EReal) (idx : IVec (⟨2, ![n, 1]⟩ : Shape) 32)
    (upd : (⟨1, ![n]⟩ : Shape).Idx → EReal) (r : Fin M) :
    Host.scatterAdd (F := Ideal) (φ := .f32) d x idx upd (ix1 r)
      = x (ix1 r) + ∑ j ∈ Finset.univ.filter (fun j : Fin n => (idx (ix2 j 0)).toInt = (r.val : ℤ)),
          upd (ix1 j) := by
  refine scatterAdd_apply_of d x idx upd (ix1 r) _ (fun j => ix1 j) (fun j' => (j' 0 : Fin n)) (fun j' hj' => ?_)
    (fun j hj => (resultIdx?_flat_eq_some_iff d hu hi hs hv idx j r).mpr hj) (fun _ => rfl)
  rw [eq_ix1 j'] at hj'
  exact ⟨(resultIdx?_flat_eq_some_iff d hu hi hs hv idx (j' 0) r).mp hj', (eq_ix1 j').symm⟩

theorem gatherRows_apply {α : Type} {M n C : ℕ} (hM : 0 < M)
    (d : GatherDims (⟨2, ![M, C]⟩ : Shape) (⟨2, ![n, 1]⟩ : Shape) (⟨2, ![n, C]⟩ : Shape))
    (ho : d.offsetDims = [1]) (hc : d.collapsedSliceDims = [0]) (hob : d.operandBatchingDims = [])
    (hsb : d.startIndicesBatchingDims = []) (hm : d.startIndexMap = [0]) (hv : d.indexVectorDim = 1)
    (hss : d.sliceSizes = ![1, C])
    (x : (⟨2, ![M, C]⟩ : Shape).Idx → α) (idx : IVec (⟨2, ![n, 1]⟩ : Shape) 32) (j : Fin n) (f : Fin C) :
    Host.gather d x idx (ix2 j f) = x (ix2 ⟨min (idx (ix2 j 0)).toInt.toNat (M - 1), by omega⟩ f) := by
  have hb : ∀ a : Fin 2, a ∉ d.operandBatchingDims := by intro a; rw [hob]; exact List.not_mem_nil
  have hk0 : (0 : Fin 2) ∉ d.sKept := by rw [GatherDims.mem_sKept, hc]; simp
  have hk1 : (1 : Fin 2) ∈ d.sKept := by rw [GatherDims.mem_sKept, hc, hob]; simp
  have hm0 : (0 : Fin 2) ∈ d.startIndexMap := by rw [hm]; simp
  have hm1 : (1 : Fin 2) ∉ d.startIndexMap := by rw [hm]; simp
  have hsl : d.sliceSizes 0 = 1 := by rw [hss]; rfl
  have hsi : ∀ c, d.siIdx (ix2 j f) c = ix2 j 0 := by
    intro c
    funext b
    match b with
    | ⟨0, _⟩ =>
      unfold GatherDims.siIdx
      rw [dif_neg (by rw [hv]; simp)]
      unfold GatherDims.siCoord
      apply Fin.ext
      simp only [Fin.val_cast]
      have e : ∀ X : Fin 2, X ∈ d.batchDims → ((ix2 j f) X).val = j.val := fun X hX => by
        have hX' : X ≠ 1 := by
          simpa [GatherDims.batchDims, Shape.kept, ho] using hX
        match X, hX' with
        | ⟨0, _⟩, _ => rfl
        | ⟨1, _⟩, h => exact absurd rfl h
      exact e _ (List.getElem_mem _)
    | ⟨1, _⟩ =>
      unfold GatherDims.siIdx
      rw [dif_pos (by rw [hv])]
      apply Fin.ext
      have hc' := c.isLt
      simp only [hm, List.length_singleton] at hc'
      show c.val = 0
      omega
  unfold Host.gather
  congr 1
  funext a
  match a with
  | ⟨0, _⟩ =>
    apply Fin.ext
    show d.start (ix2 j f) idx 0 + d.batchCoord (ix2 j f) 0 + d.offCoord (ix2 j f) 0
      = min (idx (ix2 j 0)).toInt.toNat (M - 1)
    rw [GatherDims.batchCoord_eq_zero _ _ _ (hb 0), GatherDims.offCoord_eq_zero _ _ _ hk0]
    unfold GatherDims.start
    rw [dif_pos hm0, hsi]
    show min (idx (ix2 j 0)).toInt.toNat (M - d.sliceSizes 0) + 0 + 0 = min (idx (ix2 j 0)).toInt.toNat (M - 1)
    rw [hsl]
    rfl
  | ⟨1, _⟩ =>
    apply Fin.ext
    show d.start (ix2 j f) idx 1 + d.batchCoord (ix2 j f) 1 + d.offCoord (ix2 j f) 1 = f.val
    rw [GatherDims.batchCoord_eq_zero _ _ _ (hb 1)]
    unfold GatherDims.start GatherDims.offCoord
    rw [dif_neg hm1, dif_pos hk1]
    have e : ∀ X : Fin 2, X = 1 → ((ix2 j f) X).val = f.val := fun X hX => by subst hX; rfl
    rw [e _ (getElem_of_eq_singleton ho _ _)]
    omega

end Cert.LibScatterAdd

end
-- ==== Proof.KHost0Lib.lean ====
import proofs.«421097_j4681514352669_2_alg».proof.Proof.Spec
import proofs.«421097_j4681514352669_2_alg».proof.Proof.LibScatterAdd
import Idealize.ShloMosaic.Lib.Pipeline.Value
import Idealize.ShloMosaic.Lib.IdealHost
import Idealize.ShloMosaic.Lib.ValueIdx

noncomputable section

open scoped BigOperators

namespace Cert.KHost0Lib

open Idealize.ShloMosaic Idealize.ShloMosaic.ValueIdx Cert.Spec

theorem row_apply {α : Type} {E : ℕ} (r : Fin 2) (off : Fin 2 → ℕ) (h0 : off 0 = r.val) (h1 : off 1 = 0)
    (e : (⟨2, ![2, E]⟩ : Shape).Idx → α)
    (hs : (⟨2, ![2, E]⟩ : Shape).Slices off ⟨2, ![1, E]⟩) (hc : (⟨2, ![1, E]⟩ : Shape).ShapeCasts ⟨1, ![E]⟩) (k : Fin E) :
    shapeCast ⟨1, ![E]⟩ (extractStridedSlice ⟨2, ![1, E]⟩ off e hs) hc (ix1 k) = e (ix2 r k) := by
  refine (shapeCast_apply _ hc (ix1 k) (ix2 (0 : Fin 1) k) ?_).trans ?_
  · rw [Shape.rowMajor_val_two, Shape.rowMajor_val_one]
    show (0 : ℕ) * E + k.val = k.val
    omega
  · refine extractStridedSlice_apply off e hs (ix2 (0 : Fin 1) k) (ix2 r k) fun a => ?_
    match a with
    | ⟨0, _⟩ => show r.val = off 0 + 0; omega
    | ⟨1, _⟩ => show k.val = off 1 + k.val; omega

theorem slt_zero_of_nonneg (w : BitVec 32) (h : 0 ≤ w.toInt) : IntOp.cmpi .slt w 0#32 = 0#1 := by
  have hf : w.slt 0#32 = false := by
    simp only [BitVec.slt, BitVec.toInt_zero, decide_eq_false_iff_not, not_lt]
    exact h
  show BitVec.ofBool (w.slt 0#32) = 0#1
  rw [hf]
  rfl

def normRow (N : ℕ) {E : ℕ} (v : IVec (⟨1, ![E]⟩ : Shape) 32)
    (hb : (⟨0, ![]⟩ : Shape).BroadcastsInDim ⟨1, ![E]⟩ ![]) : IVec (⟨1, ![E]⟩ : Shape) 32 :=
  select (cmpi .slt v (broadcastInDim ⟨1, ![E]⟩ ![] hb (constantI ⟨0, ![]⟩ 32 0#32)))
    (addi v (broadcastInDim ⟨1, ![E]⟩ ![] hb (constantI ⟨0, ![]⟩ 32 (BitVec.ofNat 32 N)))) v

theorem normRow_apply (N : ℕ) {E : ℕ} (v : IVec (⟨1, ![E]⟩ : Shape) 32)
    (hb : (⟨0, ![]⟩ : Shape).BroadcastsInDim ⟨1, ![E]⟩ ![]) (k : Fin E) (h : 0 ≤ (v (ix1 k)).toInt) :
    normRow N v hb (ix1 k) = v (ix1 k) := by
  show Scalar.select (IntOp.cmpi .slt (v (ix1 k)) 0#32) _ (v (ix1 k)) = v (ix1 k)
  rw [slt_zero_of_nonneg _ h]
  exact select_zero _ _

theorem col_apply {α : Type} {E : ℕ} (hbc : (⟨1, ![E]⟩ : Shape).BroadcastsInDim ⟨2, ![E, 1]⟩ ![0])
    (v : (⟨1, ![E]⟩ : Shape).Idx → α) (k : Fin E) :
    broadcastInDim ⟨2, ![E, 1]⟩ ![0] hbc v (ix2 k (0 : Fin 1)) = v (ix1 k) := by
  refine broadcastInDim_apply ![0] hbc v (ix2 k (0 : Fin 1)) (ix1 k) fun a => ?_
  match a with
  | ⟨0, _⟩ =>
    show k.val = if E = 1 then 0 else k.val
    have := k.isLt
    split <;> omega

theorem pair_apply_zero {α : Type} {E : ℕ}
    (hcat : Shape.Concatenates [(⟨2, ![E, 1]⟩ : Shape), ⟨2, ![E, 1]⟩] ⟨2, ![E, 2]⟩ 1)
    (a b : (⟨2, ![E, 1]⟩ : Shape).Idx → α) (k : Fin E) :
    concatenate ⟨2, ![E, 2]⟩ 1 [⟨⟨2, ![E, 1]⟩, a⟩, ⟨⟨2, ![E, 1]⟩, b⟩] hcat (ix2 k (0 : Fin 2)) = a (ix2 k (0 : Fin 1)) := by
  refine concatenate_pair_apply_left (1 : Fin 2) a b hcat (ix2 k (0 : Fin 2)) rfl (ix2 k (0 : Fin 1)) fun c => ?_
  match c with
  | ⟨0, _⟩ => rfl
  | ⟨1, _⟩ => rfl

theorem pair_apply_one {α : Type} {E : ℕ}
    (hcat : Shape.Concatenates [(⟨2, ![E, 1]⟩ : Shape), ⟨2, ![E, 1]⟩] ⟨2, ![E, 2]⟩ 1)
    (a b : (⟨2, ![E, 1]⟩ : Shape).Idx → α) (k : Fin E) :
    concatenate ⟨2, ![E, 2]⟩ 1 [⟨⟨2, ![E, 1]⟩, a⟩, ⟨⟨2, ![E, 1]⟩, b⟩] hcat (ix2 k (1 : Fin 2)) = b (ix2 k (0 : Fin 1)) := by
  refine concatenate_pair_apply_right (1 : Fin 2) a b hcat (ix2 k (1 : Fin 2)) rfl rfl (ix2 k (0 : Fin 1)) (fun c hc => ?_) rfl
  match c with
  | ⟨0, _⟩ => rfl
  | ⟨1, _⟩ => exact absurd rfl hc

def adjF {Nd Ns E : ℕ}
    (d : ScatterDims (⟨2, ![Nd, Ns]⟩ : Shape) (⟨2, ![E, 2]⟩ : Shape) (⟨1, ![E]⟩ : Shape))
    (e : IVec (⟨2, ![2, E]⟩ : Shape) 32)
    (hbz : (⟨0, ![]⟩ : Shape).BroadcastsInDim ⟨2, ![Nd, Ns]⟩ ![])
    (hbE : (⟨0, ![]⟩ : Shape).BroadcastsInDim ⟨1, ![E]⟩ ![])
    (hbc : (⟨1, ![E]⟩ : Shape).BroadcastsInDim ⟨2, ![E, 1]⟩ ![0])
    (hcat : Shape.Concatenates [(⟨2, ![E, 1]⟩ : Shape), ⟨2, ![E, 1]⟩] ⟨2, ![E, 2]⟩ 1)
    (hs0 : (⟨2, ![2, E]⟩ : Shape).Slices ![0, 0] ⟨2, ![1, E]⟩) (hs1 : (⟨2, ![2, E]⟩ : Shape).Slices ![1, 0] ⟨2, ![1, E]⟩)
    (hsc : (⟨2, ![1, E]⟩ : Shape).ShapeCasts ⟨1, ![E]⟩) : FVec Ideal (⟨2, ![Nd, Ns]⟩ : Shape) .f32 :=
  Host.scatterAdd (F := Ideal) (φ := .f32) d
    (broadcastInDim ⟨2, ![Nd, Ns]⟩ ![] hbz (constant (F := Ideal) ⟨0, ![]⟩ .f32 0x00000000#32))
    (concatenate ⟨2, ![E, 2]⟩ 1
      [⟨⟨2, ![E, 1]⟩, broadcastInDim ⟨2, ![E, 1]⟩ ![0] hbc
          (normRow Nd (shapeCast ⟨1, ![E]⟩ (extractStridedSlice ⟨2, ![1, E]⟩ ![1, 0] e hs1) hsc) hbE)⟩,
       ⟨⟨2, ![E, 1]⟩, broadcastInDim ⟨2, ![E, 1]⟩ ![0] hbc
          (normRow Ns (shapeCast ⟨1, ![E]⟩ (extractStridedSlice ⟨2, ![1, E]⟩ ![0, 0] e hs0) hsc) hbE)⟩]
      hcat)
    (broadcastInDim ⟨1, ![E]⟩ ![] hbE (constant (F := Ideal) ⟨0, ![]⟩ .f32 0x3F800000#32))

theorem adjF_apply {Nd Ns E : ℕ} (hNd : 0 < Nd) (hNs : 0 < Ns)
    (d : ScatterDims (⟨2, ![Nd, Ns]⟩ : Shape) (⟨2, ![E, 2]⟩ : Shape) (⟨1, ![E]⟩ : Shape))
    (hu : d.updateWindowDims = []) (hi : d.insertedWindowDims = [0, 1]) (hs : d.scatterDimsToOperandDims = [0, 1])
    (hv : d.indexVectorDim = 1)
    (e : IVec (⟨2, ![2, E]⟩ : Shape) 32) (hsrc : InRange e 0 Ns) (hdst : InRange e 1 Nd)
    (hbz : (⟨0, ![]⟩ : Shape).BroadcastsInDim ⟨2, ![Nd, Ns]⟩ ![])
    (hbE : (⟨0, ![]⟩ : Shape).BroadcastsInDim ⟨1, ![E]⟩ ![])
    (hbc : (⟨1, ![E]⟩ : Shape).BroadcastsInDim ⟨2, ![E, 1]⟩ ![0])
    (hcat : Shape.Concatenates [(⟨2, ![E, 1]⟩ : Shape), ⟨2, ![E, 1]⟩] ⟨2, ![E, 2]⟩ 1)
    (hs0 : (⟨2, ![2, E]⟩ : Shape).Slices ![0, 0] ⟨2, ![1, E]⟩) (hs1 : (⟨2, ![2, E]⟩ : Shape).Slices ![1, 0] ⟨2, ![1, E]⟩)
    (hsc : (⟨2, ![1, E]⟩ : Shape).ShapeCasts ⟨1, ![E]⟩) (p : Fin Nd) (q : Fin Ns) :
    adjF d e hbz hbE hbc hcat hs0 hs1 hsc (ix2 p q)
      = zero + ∑ _k ∈ Finset.univ.filter (fun k : Fin E => dstOf Nd hNd e k = p ∧ srcOf Ns hNs e k = q), one := by
  have hrow1 : ∀ k : Fin E, normRow Nd (shapeCast ⟨1, ![E]⟩ (extractStridedSlice ⟨2, ![1, E]⟩ ![1, 0] e hs1) hsc) hbE (ix1 k)
      = e (ix2 1 k) := fun k => by
    have hr := row_apply (1 : Fin 2) ![1, 0] rfl rfl e hs1 hsc k
    rw [normRow_apply Nd _ hbE k (by rw [hr]; exact (hdst k).1), hr]
  have hrow0 : ∀ k : Fin E, normRow Ns (shapeCast ⟨1, ![E]⟩ (extractStridedSlice ⟨2, ![1, E]⟩ ![0, 0] e hs0) hsc) hbE (ix1 k)
      = e (ix2 0 k) := fun k => by
    have hr := row_apply (0 : Fin 2) ![0, 0] rfl rfl e hs0 hsc k
    rw [normRow_apply Ns _ hbE k (by rw [hr]; exact (hsrc k).1), hr]
  unfold adjF
  rw [Cert.LibScatterAdd.scatterAdd2_apply d hu hi hs hv _ _ _ p q]
  refine congrArg₂ (· + ·) rfl (Finset.sum_congr (Finset.filter_congr fun k _ => ?_) fun k _ => rfl)
  rw [pair_apply_zero hcat _ _ k, pair_apply_one hcat _ _ k, col_apply hbc _ k, col_apply hbc _ k, hrow1 k, hrow0 k,
    toInt_eq_node hNd hdst k, toInt_eq_node hNs hsrc k]
  show ((dstOf Nd hNd e k).val : ℤ) = (p.val : ℤ) ∧ ((srcOf Ns hNs e k).val : ℤ) = (q.val : ℤ) ↔ _
  rw [Nat.cast_inj, Nat.cast_inj, Fin.val_inj, Fin.val_inj]

theorem rowSum_apply {n m : ℕ} (A : (⟨2, ![n, m]⟩ : Shape).Idx → EReal) (init : EReal)
    (h : (⟨2, ![n, m]⟩ : Shape).ReducesTo [1] ⟨1, ![n]⟩) (p : Fin n) :
    Ideal.hostReduceAdd h A init (ix1 p) = init + ∑ q : Fin m, A (ix2 p q) := by
  unfold Ideal.hostReduceAdd
  congr 1
  have hdrop : ∀ i : (⟨2, ![n, m]⟩ : Shape).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![n, m]⟩ : Shape).Idx, i 0 = p → ix2 p (i 1) = i := fun i h0 => by
    rw [← h0]; exact (eq_ix2 i).symm
  refine Finset.sum_bij' (fun i _ => i 1) (fun q _ => ix2 p q) (fun _ _ => Finset.mem_univ _)
    (fun q _ => Finset.mem_filter.2 ⟨Finset.mem_univ _, (hdrop _).2 rfl⟩)
    (fun i hi => hback i ((hdrop i).1 (Finset.mem_filter.1 hi).2)) (fun _ _ => rfl) ?_
  intro i hi
  exact (congrArg A (hback i ((hdrop i).1 (Finset.mem_filter.1 hi).2))).symm

theorem cnt_apply {n m : ℕ} (A : FVec Ideal (⟨2, ![n, m]⟩ : Shape) .f32)
    (h : (⟨2, ![n, m]⟩ : Shape).ReducesTo [1] ⟨1, ![n]⟩) (hu : 0 < (⟨0, ![]⟩ : Shape).numel)
    (hbc : (⟨1, ![n]⟩ : Shape).BroadcastsInDim ⟨2, ![n, 1]⟩ ![0])
    (hb1 : (⟨0, ![]⟩ : Shape).BroadcastsInDim ⟨2, ![n, 1]⟩ ![])
    (p : Fin n) :
    (maximumf (broadcastInDim ⟨2, ![n, 1]⟩ ![0] hbc
        (Host.reduceAdd (F := Ideal) A (constant (F := Ideal) ⟨0, ![]⟩ .f32 0x00000000#32) h hu))
      (broadcastInDim ⟨2, ![n, 1]⟩ ![] hb1 (constant (F := Ideal) ⟨0, ![]⟩ .f32 0x3F800000#32))
      : FVec Ideal ⟨2, ![n, 1]⟩ .f32) (ix2 p (0 : Fin 1))
      = max (zero + ∑ s : Fin m, A (ix2 p s)) one := by
  refine (maximumf_apply _ _ _).trans ?_
  rw [col_apply hbc _ p]
  show max (Ideal.hostReduceAdd h A zero (ix1 p)) one = _
  rw [rowSum_apply A zero h p]

theorem cols_apply {α : Type} {B N D R C : ℕ} (hR : R = B * N) (hC : C = B * D)
    (x : (⟨2, ![R, D]⟩ : Shape).Idx → α)
    (hc1 : (⟨2, ![R, D]⟩ : Shape).ShapeCasts ⟨3, ![B, N, D]⟩)
    (ht : (⟨3, ![B, N, D]⟩ : Shape).Transposes [1, 0, 2] ⟨3, ![N, B, D]⟩)
    (hc2 : (⟨3, ![N, B, D]⟩ : Shape).ShapeCasts ⟨2, ![N, C]⟩)
    (r : Fin N) (j : Fin C) (hrow : (j.val / D) * N + r.val < R) (hcol : j.val % D < D) :
    shapeCast ⟨2, ![N, C]⟩ (transpose ⟨3, ![N, B, D]⟩ [1, 0, 2] (shapeCast ⟨3, ![B, N, D]⟩ x hc1) ht) hc2 (ix2 r j)
      = x (ix2 ⟨(j.val / D) * N + r.val, hrow⟩ ⟨j.val % D, hcol⟩) := by
  subst hR hC
  have hD : 0 < D := by omega
  have hb : j.val / D < B := Nat.div_lt_of_lt_mul (lt_of_lt_of_eq j.isLt (Nat.mul_comm B D))
  refine (shapeCast_apply _ hc2 (ix2 r j) (ix3 r ⟨j.val / D, hb⟩ ⟨j.val % D, hcol⟩) ?_).trans ?_
  · rw [Shape.rowMajor_val_three, Shape.rowMajor_val_two]
    show (r.val * B + j.val / D) * D + j.val % D = r.val * (B * D) + j.val
    have := Nat.div_add_mod j.val D
    rw [Nat.add_mul, Nat.mul_assoc, Nat.add_assoc, Nat.mul_comm (j.val / D) D, this]
  refine (transpose_apply [1, 0, 2] _ ht (ix3 r ⟨j.val / D, hb⟩ ⟨j.val % D, hcol⟩)
    (ix3 ⟨j.val / D, hb⟩ r ⟨j.val % D, hcol⟩) fun b => ?_).trans ?_
  · match b with
    | ⟨0, _⟩ => rfl
    | ⟨1, _⟩ => rfl
    | ⟨2, _⟩ => rfl
  refine shapeCast_apply x hc1 (ix3 ⟨j.val / D, hb⟩ r ⟨j.val % D, hcol⟩) (ix2 ⟨(j.val / D) * N + r.val, hrow⟩ ⟨j.val % D, hcol⟩) ?_
  rw [Shape.rowMajor_val_three, Shape.rowMajor_val_two]
  rfl

end Cert.KHost0Lib

end
-- ==== Proof.KHost0.lean ====
import proofs.«421097_j4681514352669_2_alg».proof.Proof.Gen.KernelIdeal.Frame
import proofs.«421097_j4681514352669_2_alg».proof.Proof.KHost0Lib
import Idealize.ShloMosaic.Lib.StableHlo.Run

set_option maxRecDepth 16384

noncomputable section

open scoped BigOperators

namespace Cert.KernelIdeal.KHost0

open Idealize.ShloMosaic Idealize.ShloMosaic.TcCoe Idealize.ShloMosaic.ValueIdx Idealize.ShloMosaic.StableHlo
open Idealize.SL.Sem
open Cert.KernelIdeal Cert.KernelIdeal.Gen Cert.Spec Cert.KHost0Lib

variable (m : (ℓ : Loc nD τ sig) → Buf (Elt Ideal) ℓ) (ρ : Dev nD → PrngReg)

abbrev xin (c : Dev nD) : FVec Ideal S262144x64 .f32 := m ((c : Thread nD τ).loc main_arg0)
abbrev edge0 (c : Dev nD) : IVec S2x65536 32 := m ((c : Thread nD τ).loc main_arg2)
abbrev cross1 (c : Dev nD) : IVec S2x16384 32 := m ((c : Thread nD τ).loc main_arg3)
abbrev inner1 (c : Dev nD) : IVec S2x16384 32 := m ((c : Thread nD τ).loc main_arg4)
abbrev cross2 (c : Dev nD) : IVec S2x2048 32 := m ((c : Thread nD τ).loc main_arg5)
abbrev inner2 (c : Dev nD) : IVec S2x2048 32 := m ((c : Thread nD τ).loc main_arg6)

abbrev C1F (c : Dev nD) : FVec Ideal S1024x8192 .f32 :=
  adjF scatter_S1024x8192_S16384x2_S16384_n_01_01_1 (cross1 m c) bcast_S_S1024x8192 bcast_S_S16384 bcast_S16384_S16384x1_0
    concatenates_S16384x1_S16384x1_S16384x2_d1 slices_S2x16384_S1x16384_0_0 slices_S2x16384_S1x16384_1_0
    shapeCasts_S1x16384_S16384

abbrev C2F (c : Dev nD) : FVec Ideal S128x1024 .f32 :=
  adjF scatter_S128x1024_S2048x2_S2048_n_01_01_1 (cross2 m c) bcast_S_S128x1024 bcast_S_S2048 bcast_S2048_S2048x1_0
    concatenates_S2048x1_S2048x1_S2048x2_d1 slices_S2x2048_S1x2048_0_0 slices_S2x2048_S1x2048_1_0
    shapeCasts_S1x2048_S2048

theorem adj0 (c : Dev nD) (h0 : InRange (edge0 m c) 0 8192) (h1 : InRange (edge0 m c) 1 8192)
    (p : Fin 8192) (q : Fin 8192) :
    (W1 m ρ c (Proc.devRef .tc main_v20) : S8192x8192.Idx → EReal) (ix2 p q)
      = zero + ∑ _k ∈ Finset.univ.filter (fun k : Fin 65536 =>
          dstOf 8192 (by decide) (edge0 m c) k = p ∧ srcOf 8192 (by decide) (edge0 m c) k = q), one := by
  dsimp only [W1, hostOps0]
  after_results_simp
  exact adjF_apply (by decide) (by decide) scatter_S8192x8192_S65536x2_S65536_n_01_01_1 rfl rfl rfl rfl (edge0 m c) h0 h1 bcast_S_S8192x8192 bcast_S_S65536 bcast_S65536_S65536x1_0 concatenates_S65536x1_S65536x1_S65536x2_d1 slices_S2x65536_S1x65536_0_0 slices_S2x65536_S1x65536_1_0 shapeCasts_S1x65536_S65536 p q

theorem adjC1 (c : Dev nD) (h0 : InRange (cross1 m c) 0 8192) (h1 : InRange (cross1 m c) 1 1024)
    (p : Fin 1024) (q : Fin 8192) :
    (W1 m ρ c (Proc.devRef .tc main_v45) : S1024x8192.Idx → EReal) (ix2 p q)
      = zero + ∑ _k ∈ Finset.univ.filter (fun k : Fin 16384 =>
          dstOf 1024 (by decide) (cross1 m c) k = p ∧ srcOf 8192 (by decide) (cross1 m c) k = q), one := by
  dsimp only [W1, hostOps0]
  after_results_simp
  exact adjF_apply (by decide) (by decide) scatter_S1024x8192_S16384x2_S16384_n_01_01_1 rfl rfl rfl rfl (cross1 m c) h0 h1 bcast_S_S1024x8192 bcast_S_S16384 bcast_S16384_S16384x1_0 concatenates_S16384x1_S16384x1_S16384x2_d1 slices_S2x16384_S1x16384_0_0 slices_S2x16384_S1x16384_1_0 shapeCasts_S1x16384_S16384 p q

theorem adjI1 (c : Dev nD) (h0 : InRange (inner1 m c) 0 1024) (h1 : InRange (inner1 m c) 1 1024)
    (p : Fin 1024) (q : Fin 1024) :
    (W1 m ρ c (Proc.devRef .tc main_v66) : S1024x1024.Idx → EReal) (ix2 p q)
      = zero + ∑ _k ∈ Finset.univ.filter (fun k : Fin 16384 =>
          dstOf 1024 (by decide) (inner1 m c) k = p ∧ srcOf 1024 (by decide) (inner1 m c) k = q), one := by
  dsimp only [W1, hostOps0]
  after_results_simp
  exact adjF_apply (by decide) (by decide) scatter_S1024x1024_S16384x2_S16384_n_01_01_1 rfl rfl rfl rfl (inner1 m c) h0 h1 bcast_S_S1024x1024 bcast_S_S16384 bcast_S16384_S16384x1_0 concatenates_S16384x1_S16384x1_S16384x2_d1 slices_S2x16384_S1x16384_0_0 slices_S2x16384_S1x16384_1_0 shapeCasts_S1x16384_S16384 p q

theorem adjC2 (c : Dev nD) (h0 : InRange (cross2 m c) 0 1024) (h1 : InRange (cross2 m c) 1 128)
    (p : Fin 128) (q : Fin 1024) :
    (W1 m ρ c (Proc.devRef .tc main_v91) : S128x1024.Idx → EReal) (ix2 p q)
      = zero + ∑ _k ∈ Finset.univ.filter (fun k : Fin 2048 =>
          dstOf 128 (by decide) (cross2 m c) k = p ∧ srcOf 1024 (by decide) (cross2 m c) k = q), one := by
  dsimp only [W1, hostOps0]
  after_results_simp
  exact adjF_apply (by decide) (by decide) scatter_S128x1024_S2048x2_S2048_n_01_01_1 rfl rfl rfl rfl (cross2 m c) h0 h1 bcast_S_S128x1024 bcast_S_S2048 bcast_S2048_S2048x1_0 concatenates_S2048x1_S2048x1_S2048x2_d1 slices_S2x2048_S1x2048_0_0 slices_S2x2048_S1x2048_1_0 shapeCasts_S1x2048_S2048 p q

theorem adjI2 (c : Dev nD) (h0 : InRange (inner2 m c) 0 128) (h1 : InRange (inner2 m c) 1 128)
    (p : Fin 128) (q : Fin 128) :
    (W1 m ρ c (Proc.devRef .tc main_v112) : S128x128.Idx → EReal) (ix2 p q)
      = zero + ∑ _k ∈ Finset.univ.filter (fun k : Fin 2048 =>
          dstOf 128 (by decide) (inner2 m c) k = p ∧ srcOf 128 (by decide) (inner2 m c) k = q), one := by
  dsimp only [W1, hostOps0]
  after_results_simp
  exact adjF_apply (by decide) (by decide) scatter_S128x128_S2048x2_S2048_n_01_01_1 rfl rfl rfl rfl (inner2 m c) h0 h1 bcast_S_S128x128 bcast_S_S2048 bcast_S2048_S2048x1_0 concatenates_S2048x1_S2048x1_S2048x2_d1 slices_S2x2048_S1x2048_0_0 slices_S2x2048_S1x2048_1_0 shapeCasts_S1x2048_S2048 p q

theorem cnt1_count (c : Dev nD) (h0 : InRange (cross1 m c) 0 8192) (h1 : InRange (cross1 m c) 1 1024) (p : Fin 1024) :
    (W1 m ρ c (Proc.devRef .tc main_v44) : S1024x1.Idx → EReal) (ix2 p (0 : Fin 1))
      = max (zero + ∑ s : Fin 8192, (zero + ∑ _k ∈ Finset.univ.filter (fun k : Fin 16384 =>
          dstOf 1024 (by decide) (cross1 m c) k = p ∧ srcOf 8192 (by decide) (cross1 m c) k = s), one)) one := by
  dsimp only [W1, hostOps0]
  after_results_simp
  exact (cnt_apply (C1F m c) reducesTo_S1024x8192_S1024_d1 h_S_ bcast_S1024_S1024x1_0 bcast_S_S1024x1 p).trans
    (congrArg (fun t => max (zero + t) one) (Finset.sum_congr rfl fun s _ =>
      adjF_apply (by decide) (by decide) _ rfl rfl rfl rfl _ h0 h1 _ _ _ _ _ _ _ p s))

theorem cnt2_count (c : Dev nD) (h0 : InRange (cross2 m c) 0 1024) (h1 : InRange (cross2 m c) 1 128) (p : Fin 128) :
    (W1 m ρ c (Proc.devRef .tc main_v90) : S128x1.Idx → EReal) (ix2 p (0 : Fin 1))
      = max (zero + ∑ s : Fin 1024, (zero + ∑ _k ∈ Finset.univ.filter (fun k : Fin 2048 =>
          dstOf 128 (by decide) (cross2 m c) k = p ∧ srcOf 1024 (by decide) (cross2 m c) k = s), one)) one := by
  dsimp only [W1, hostOps0]
  after_results_simp
  exact (cnt_apply (C2F m c) reducesTo_S128x1024_S128_d1 h_S_ bcast_S128_S128x1_0 bcast_S_S128x1 p).trans
    (congrArg (fun t => max (zero + t) one) (Finset.sum_congr rfl fun s _ =>
      adjF_apply (by decide) (by decide) _ rfl rfl rfl rfl _ h0 h1 _ _ _ _ _ _ _ p s))

theorem xcolsF (c : Dev nD) (r : Fin 8192) (j : Fin 2048) :
    (W1 m ρ c (Proc.devRef .tc main_v115) : S8192x2048.Idx → EReal) (ix2 r j)
      = xin m c (ix2 ⟨(j.val / 64) * 8192 + r.val, by have := r.isLt; have := j.isLt; omega⟩
          ⟨j.val % 64, Nat.mod_lt _ (by decide)⟩) := by
  dsimp only [W1, hostOps0]
  after_results_simp
  exact cols_apply (B := 32) (N := 8192) (D := 64) (R := 262144) (C := 2048) (by decide) (by decide) (xin m c)
    shapeCasts_S262144x64_S32x8192x64 transposes_S32x8192x64_S8192x32x64_1_0_2 shapeCasts_S8192x32x64_S8192x2048 r j _ _

theorem xcols (c : Dev nD) (r : Fin 8192) (j : Fin 2048) :
    (W1 m ρ c (Proc.devRef .tc main_v116) : S8192x2048.Idx → EReal) (ix2 r j)
      = xin m c (ix2 ⟨(j.val / 64) * 8192 + r.val, by have := r.isLt; have := j.isLt; omega⟩
          ⟨j.val % 64, Nat.mod_lt _ (by decide)⟩) := by
  dsimp only [W1, hostOps0]
  after_results_simp
  exact cols_apply (B := 32) (N := 8192) (D := 64) (R := 262144) (C := 2048) (by decide) (by decide) (xin m c)
    shapeCasts_S262144x64_S32x8192x64 transposes_S32x8192x64_S8192x32x64_1_0_2 shapeCasts_S8192x32x64_S8192x2048 r j _ _

end Cert.KernelIdeal.KHost0

end
-- ==== Proof.MatLib.lean ====
import Idealize.ShloMosaic.Lib.ValueIdx
import Idealize.ShloMosaic.PureOps.Ideal.Laws

noncomputable section

namespace Cert.MatLib

open Idealize.ShloMosaic Idealize.ShloMosaic.ValueIdx
open scoped BigOperators

variable {T M K N : ℕ}

theorem hz : (![0, 0] : Fin 2 → Nat) = fun _ => 0 := funext fun a => by fin_cases a <;> rfl

theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain matrix product into a zero accumulator at an entry: the sum over the shared coordinate. -/
theorem matmul_plain {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ s : Fin K, A (ix2 (j 0) s) * B (ix2 s (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_0 _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_1 _ _)
  rw [el, er]
  rfl

/-- The product of an M×K array by a K×N array, entry by entry. -/
abbrev prod (A : (⟨2, ![M, K]⟩ : Shape).Idx → EReal) (X : (⟨2, ![K, N]⟩ : Shape).Idx → EReal) :
    (⟨2, ![M, N]⟩ : Shape).Idx → EReal :=
  fun i => ∑ s : Fin K, A (ix2 (i 0) s) * X (ix2 s (i 1))

/-- The product of a tile of `A`'s rows (read through `e0`) by `X` (read through `e1`), at `j`, is the arrays' product at `k` once `e0` sends the tile's row `j 0` to row `k 0` and `e1` keeps column `j 1` as column `k 1`. -/
theorem tile_apply {φ₁ φ₂ : FTy} (prec : Option ContractPrecision) (A : (⟨2, ![M, K]⟩ : Shape).Idx → EReal)
    (X : (⟨2, ![K, N]⟩ : Shape).Idx → EReal) (e0 : (⟨2, ![T, K]⟩ : Shape).Idx → (⟨2, ![M, K]⟩ : Shape).Idx)
    (e1 : (⟨2, ![K, N]⟩ : Shape).Idx → (⟨2, ![K, N]⟩ : Shape).Idx)
    (j : (⟨2, ![T, N]⟩ : Shape).Idx) (k : (⟨2, ![M, N]⟩ : Shape).Idx)
    (h0 : ∀ s, e0 (ix2 (j 0) s) = ix2 (k 0) s) (h1 : ∀ s, e1 (ix2 s (j 1)) = ix2 s (k 1)) :
    FloatOps.matmul (F := Ideal) (φ₁ := φ₁) (φ₂ := φ₂) (DotDims.plain T K N) prec (fun y => A (e0 y))
      (fun y => X (e1 y)) (constant ⟨2, ![T, N]⟩ .f32 0x00000000#32) j = prod A X k := by
  rw [matmul_plain]
  exact Finset.sum_congr rfl fun s _ => by rw [h0 s, h1 s]; rfl

/-- Offsets `x·n + y` agree when the block indices do. -/
theorem same_blk {x x' : ℕ} (h : x = x') (n y : ℕ) : x * n + 1 * y = x' * n + 1 * y := by rw [h]

/-- At block index 0 the offset is the coordinate inside the block. -/
theorem zero_blk {x : ℕ} (h : x = 0) (n y : ℕ) : x * n + 1 * y = y := by
  rw [h, Nat.zero_mul, Nat.zero_add, Nat.one_mul]

/-- Row `r` lies in the block of `T` rows numbered `r / T`. -/
theorem row_blk {x : ℕ} (hT : 0 < T) (r : ℕ) (e : x = r / T) : x * T ≤ r ∧ r < x * T + T := by
  subst e; exact ⟨Nat.div_mul_le_self r T, Nat.lt_div_mul_add hT⟩

/-- Block 0 of `n` columns holds every column below `n`. -/
theorem col_blk {x n v : ℕ} (e : x = 0) (h : v < n) : x * n ≤ v ∧ v < x * n + n := by
  rw [e, Nat.zero_mul, Nat.zero_add]; exact ⟨Nat.zero_le _, h⟩

end Cert.MatLib

end
-- ==== Proof.KMat0.lean ====
import proofs.«421097_j4681514352669_2_alg».proof.Proof.Gen.KernelIdeal.Frame
import proofs.«421097_j4681514352669_2_alg».proof.Proof.MatLib
import Idealize.ShloMosaic.Lib.Pipeline.Value

noncomputable section

namespace Cert.KernelIdeal.KMat

open Cert.KernelIdeal Cert.KernelIdeal.Gen Idealize.ShloMosaic Idealize.ShloMosaic.TcCoe Idealize.ShloMosaic.ValueIdx Idealize.SL.Sem
open Idealize.ShloMosaic.Pipeline (Dat)
open scoped BigOperators

abbrev prod0 (A : S8192x8192.Idx → EReal) (X : S8192x2048.Idx → EReal) : S8192x2048.Idx → EReal := MatLib.prod A X

theorem prod0_apply (A : S8192x8192.Idx → EReal) (X : S8192x2048.Idx → EReal) (r : Fin 8192) (q : Fin 2048) :
    prod0 A X (ix2 r q) = ∑ s : Fin 8192, A (ix2 r s) * X (ix2 s q) := rfl

namespace R0

/-- The block indices at every grid point: the left tile and the output tile are row block `t`, every other index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The output tile of grid point `t` is tile `t` of the product: the left tile's rows and the output tile's rows are the same rows of their arrays, and the right block is the whole right array. -/
theorem flushed_eq (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  obtain ⟨e0, e1, e2, e3, e4, e5⟩ := idx_facts t
  show (cfg0.win 2).cut (grid0.coords t) ((dat0 (F := Ideal) V c).after 2 t) = _
  rw [after0_2]
  unfold out0_2 k0_pay1
  rw [View.canon_unit_zero MatLib.hz, View.ld_unit_zero (S := S128x8192) MatLib.hz, View.ld_unit_zero (S := S8192x2048) MatLib.hz,
    shapeCast_self, shapeCast_self]
  funext j
  exact MatLib.tile_apply none (V c (Pipeline.arrRef spec0 0)) (V c (Pipeline.arrRef spec0 1))
    ((cfg0.win 0).blk t).view.emb ((cfg0.win 1).blk t).view.emb ((cfg0.win 2).xinj (grid0.coords t) j)
    (((cfg0.win 2).blk t).view.emb j)
    (fun s => Shape.idx_ext₂ (MatLib.same_blk (e0.trans e4.symm) 128 (j 0).val) (MatLib.zero_blk e1 8192 s.val))
    (fun s => Shape.idx_ext₂ (MatLib.zero_blk e2 8192 s.val) (MatLib.same_blk (e3.trans e5.symm) 2048 (j 1).val))

/-- Every entry of the result is in some point's tile: row `r` in tile `r / 128`, which spans every column. -/
theorem cover (i : S8192x2048.Idx) : ∃ t : Fin cfg0.N, (cfg0.win 2).flush t = true ∧ i ∈ ((cfg0.win 2).blk t).view.set := by
  have hi : (i 0).val < 8192 := (i 0).isLt
  have ht : (i 0).val / 128 < cfg0.N := by rw [show cfg0.N = 64 from N_0]; omega
  obtain ⟨-, -, -, -, e4, e5⟩ := idx_facts ⟨_, ht⟩
  refine ⟨⟨_, ht⟩, flush0_2 _, ?_⟩
  show i ∈ ((View.whole main_v117).slice (win0_2.rect ⟨_, ht⟩)).set
  rw [View.set_slice_whole, Rect.mem_set_unit]
  exact Fin.forall_fin_two.mpr ⟨MatLib.row_blk (T := 128) (by decide) (i 0).val e4, MatLib.col_blk e5 (i 1).isLt⟩

end R0

theorem mat0 (V : (c : Dev nD) → (b : Ref sig .tc) → Buf (Elt Ideal) ((c : Thread nD τ).loc b)) (c : Dev nD) :
    (dat0 (F := Ideal) V c).arrAt 2 cfg0.N = prod0 (V c (Pipeline.arrRef spec0 0)) (V c (Pipeline.arrRef spec0 1)) :=
  (dat0 (F := Ideal) V c).arrAt_eq_of_cover 2 _ (fun t _ => R0.flushed_eq V c t) R0.cover

end Cert.KernelIdeal.KMat

end
-- ==== Proof.KMat2.lean ====
import proofs.«421097_j4681514352669_2_alg».proof.Proof.Gen.KernelIdeal.Frame
import proofs.«421097_j4681514352669_2_alg».proof.Proof.MatLib
import Idealize.ShloMosaic.Lib.Pipeline.Value

noncomputable section

namespace Cert.KernelIdeal.KMat

open Cert.KernelIdeal Cert.KernelIdeal.Gen Idealize.ShloMosaic Idealize.ShloMosaic.TcCoe Idealize.ShloMosaic.ValueIdx Idealize.SL.Sem
open Idealize.ShloMosaic.Pipeline (Dat)
open scoped BigOperators

abbrev prod2 (A : S1024x8192.Idx → EReal) (X : S8192x2048.Idx → EReal) : S1024x2048.Idx → EReal := MatLib.prod A X

theorem prod2_apply (A : S1024x8192.Idx → EReal) (X : S8192x2048.Idx → EReal) (r : Fin 1024) (q : Fin 2048) :
    prod2 A X (ix2 r q) = ∑ s : Fin 8192, A (ix2 r s) * X (ix2 s q) := rfl

namespace R2

/-- The block indices at every grid point: the left tile and the output tile are row block `t`, every other index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The output tile of grid point `t` is tile `t` of the product: the left tile's rows and the output tile's rows are the same rows of their arrays, and the right block is the whole right array. -/
theorem flushed_eq (c : Dev nD) (t : Fin cfg2.N) :
    (dat2 (F := Ideal) V c).flushed 2 t
      = ((cfg2.win 2).blk t).view.read (Elt Ideal) (prod2 (V c (Pipeline.arrRef spec2 0)) (V c (Pipeline.arrRef spec2 1))) := by
  obtain ⟨e0, e1, e2, e3, e4, e5⟩ := idx_facts t
  show (cfg2.win 2).cut (grid2.coords t) ((dat2 (F := Ideal) V c).after 2 t) = _
  rw [after2_2]
  unfold out2_2 k2_pay1
  rw [View.canon_unit_zero MatLib.hz, View.ld_unit_zero (S := S128x8192) MatLib.hz, View.ld_unit_zero (S := S8192x2048) MatLib.hz,
    shapeCast_self, shapeCast_self]
  funext j
  exact MatLib.tile_apply none (V c (Pipeline.arrRef spec2 0)) (V c (Pipeline.arrRef spec2 1))
    ((cfg2.win 0).blk t).view.emb ((cfg2.win 1).blk t).view.emb ((cfg2.win 2).xinj (grid2.coords t) j)
    (((cfg2.win 2).blk t).view.emb j)
    (fun s => Shape.idx_ext₂ (MatLib.same_blk (e0.trans e4.symm) 128 (j 0).val) (MatLib.zero_blk e1 8192 s.val))
    (fun s => Shape.idx_ext₂ (MatLib.zero_blk e2 8192 s.val) (MatLib.same_blk (e3.trans e5.symm) 2048 (j 1).val))

/-- Every entry of the result is in some point's tile: row `r` in tile `r / 128`, which spans every column. -/
theorem cover (i : S1024x2048.Idx) : ∃ t : Fin cfg2.N, (cfg2.win 2).flush t = true ∧ i ∈ ((cfg2.win 2).blk t).view.set := by
  have hi : (i 0).val < 1024 := (i 0).isLt
  have ht : (i 0).val / 128 < cfg2.N := by rw [show cfg2.N = 8 from N_2]; omega
  obtain ⟨-, -, -, -, e4, e5⟩ := idx_facts ⟨_, ht⟩
  refine ⟨⟨_, ht⟩, flush2_2 _, ?_⟩
  show i ∈ ((View.whole main_v129).slice (win2_2.rect ⟨_, ht⟩)).set
  rw [View.set_slice_whole, Rect.mem_set_unit]
  exact Fin.forall_fin_two.mpr ⟨MatLib.row_blk (T := 128) (by decide) (i 0).val e4, MatLib.col_blk e5 (i 1).isLt⟩

end R2

theorem mat2 (V : (c : Dev nD) → (b : Ref sig .tc) → Buf (Elt Ideal) ((c : Thread nD τ).loc b)) (c : Dev nD) :
    (dat2 (F := Ideal) V c).arrAt 2 cfg2.N = prod2 (V c (Pipeline.arrRef spec2 0)) (V c (Pipeline.arrRef spec2 1)) :=
  (dat2 (F := Ideal) V c).arrAt_eq_of_cover 2 _ (fun t _ => R2.flushed_eq V c t) R2.cover

end Cert.KernelIdeal.KMat

end
-- ==== Proof.KGin1.lean ====
import proofs.«421097_j4681514352669_2_alg».proof.Proof.Gen.KernelIdeal.Frame
import proofs.«421097_j4681514352669_2_alg».proof.Proof.Spec
import proofs.«421097_j4681514352669_2_alg».proof.Proof.MatLib
import Idealize.ShloMosaic.Lib.Pipeline.Value
import Idealize.ShloMosaic.Lib.ValueIdx
import Idealize.ShloMosaic.PureOps.Ideal.Laws

set_option maxRecDepth 16384

noncomputable section

namespace Cert.KernelIdeal.KGin

open Cert.KernelIdeal Cert.KernelIdeal.Gen Idealize.ShloMosaic Idealize.ShloMosaic.ValueIdx Idealize.ShloMosaic.TcCoe
open Idealize.SL.Sem
open Idealize.ShloMosaic.Pipeline (Dat)

def row1 (v : (⟨2, ![1, 64]⟩ : Shape).Idx → EReal) : (⟨1, ![64]⟩ : Shape).Idx → EReal := fun j => v (ix2 0 (j 0))

def ginWOf (w1 : S64x64.Idx → EReal) (b1 g bt rm rv : S1x64.Idx → EReal) (w2 : S64x64.Idx → EReal)
    (b2 : S1x64.Idx → EReal) : Cert.Spec.GinW :=
  ⟨w1, row1 b1, row1 g, row1 bt, row1 rm, row1 rv, w2, row1 b2⟩

def rowSum {M : ℕ} (X A : (⟨2, ![M, 64]⟩ : Shape).Idx → EReal) (r : Fin M) : Fin 64 → EReal :=
  fun f => X (ix2 r f) + A (ix2 r f)

theorem rowSum_apply {M : ℕ} (X A : (⟨2, ![M, 64]⟩ : Shape).Idx → EReal) (r : Fin M) (f : Fin 64) :
    rowSum X A r f = X (ix2 r f) + A (ix2 r f) := rfl

theorem matmul_at (A : FVec Ideal S4096x64 .bf16) (B : FVec Ideal S64x64 .bf16) (p : Fin 4096) (q : Fin 64) :
    matmul dot_S4096x64_S64x64_S4096x64_1_0_0_1_n_n none A B (constant S4096x64 .f32 0x00000000#32) (ix2 p q)
      = ∑ k : Fin 64, A (ix2 p k) * B (ix2 k q) :=
  MatLib.matmul_plain none A B (ix2 p q)

theorem spread_at (v : FVec Ideal S1x64 .f32) (h : S1x64.Broadcasts S4096x64) (p : Fin 4096) (q : Fin 64) :
    broadcastTo S4096x64 v h (ix2 p q) = v (ix2 0 q) := by
  refine broadcastTo_apply v h (ix2 p q) (ix2 0 q) fun a => ?_
  match a with
  | ⟨0, _⟩ => rfl
  | ⟨1, _⟩ => rfl

theorem hz : (![0, 0] : Fin 2 → Nat) = fun _ => 0 := funext fun a => by fin_cases a <;> rfl

theorem tile_ext (A B : S4096x64.Idx → EReal) (h : ∀ (p : Fin 4096) (q : Fin 64), A (ix2 p q) = B (ix2 p q)) : A = B :=
  funext fun j => by rw [eq_ix2 j]; exact h _ _

/-- Every step of the body acts row by row: the output tile's row p is the perceptron of the sum of the input tiles' rows p. -/
theorem spec {M : ℕ} (x0 x1 : Vec Ideal S4096x64 .f32) (x2 : Vec Ideal S64x64 .f32) (x3 x4 x5 x6 x7 : Vec Ideal S1x64 .f32)
    (x8 : Vec Ideal S64x64 .f32) (x9 : Vec Ideal S1x64 .f32) (X A : (⟨2, ![M, 64]⟩ : Shape).Idx → EReal)
    (p : Fin 4096) (q : Fin 64) (r : Fin M)
    (h0 : ∀ f : Fin 64, x0 (ix2 p f) = X (ix2 r f)) (h1 : ∀ f : Fin 64, x1 (ix2 p f) = A (ix2 r f)) :
    out1_10 x0 x1 x2 x3 x4 x5 x6 x7 x8 x9 (ix2 p q)
      = Cert.Spec.ginOut (ginWOf x2 x3 x4 x5 x6 x7 x8 x9) (rowSum X A r) q := by
  unfold out1_10
  rw [View.canon_unit_zero hz]
  simp only [View.ld_unit_zero (S := S4096x64) hz, View.ld_unit_zero (S := S64x64) hz, View.ld_unit_zero (S := S1x64) hz]
  unfold k1_pay1 k1_pay2 k1_pay3
  simp only [truncf_apply, maximumf_apply, addf_apply, subf_apply, mulf_apply, broadcast_apply, shapeCast_self,
    spread_at, matmul_at, h0, h1]
  rfl

/-- An index whose coordinates are a block's offsets plus a tile entry's, the block numbered t down the rows. -/
theorem emb_tile {M : ℕ} (e : (⟨2, ![M, 64]⟩ : Shape).Idx) (i : Fin 2 → ℕ) (t : ℕ) (p : Fin 4096) (f : Fin 64) (r : Fin M)
    (hi : ∀ a, i a = if a.val = 0 then t else 0)
    (he : ∀ a, (e a).val = i a * S4096x64.size a + 1 * (ix2 p f a).val) (hr : r.val = t * 4096 + p.val) : e = ix2 r f :=
  funext fun a => Fin.ext (by
    rw [he, hi]
    match a with
    | ⟨0, _⟩ => show t * 4096 + 1 * p.val = r.val; omega
    | ⟨1, _⟩ => show 0 * 64 + 1 * f.val = f.val; omega)

/-- A block at offset zero on every axis has the array's own indices. -/
theorem emb_whole {S : Shape} (e y : S.Idx) (i : Fin S.rank → ℕ) (hi : ∀ a, i a = 0)
    (he : ∀ a, (e a).val = i a * S.size a + 1 * (y a).val) : e = y :=
  funext fun a => Fin.ext (by rw [he, hi]; omega)

/-- Row r of an array of n tiles of 4096 rows lies in tile r / 4096. -/
theorem cover_tile {M n : ℕ} (hM : M = n * 4096) (idx : Fin n → Fin 2 → ℕ)
    (hi : ∀ t a, idx t a = if a.val = 0 then t.val else 0) (i : (⟨2, ![M, 64]⟩ : Shape).Idx) :
    ∃ t : Fin n, ∀ a : Fin 2, idx t a * S4096x64.size a ≤ (i a).val
      ∧ (i a).val < idx t a * S4096x64.size a + S4096x64.size a := by
  have h0 : (i 0).val < M := (i 0).isLt
  have h1 : (i 1).val < 64 := (i 1).isLt
  refine ⟨⟨(i 0).val / 4096, by omega⟩, fun a => ?_⟩
  rw [hi]
  match a with
  | ⟨0, _⟩ =>
    show (i 0).val / 4096 * 4096 ≤ (i 0).val ∧ (i 0).val < (i 0).val / 4096 * 4096 + 4096
    omega
  | ⟨1, _⟩ =>
    show 0 * 64 ≤ (i 1).val ∧ (i 1).val < 0 * 64 + 64
    omega

section Region
variable (V : (c : Dev nD) → (b : Ref sig .tc) → Buf (Elt Ideal) ((c : Thread nD τ).loc b))

theorem idx_r1 : ∀ t : Fin cfg1.N,
    (∀ k : Fin 11, 2 ≤ k.val → k.val ≤ 9 → ∀ a, (cfg1.win k).index t a = 0)
      ∧ ∀ k : Fin 11, k.val < 2 ∨ k.val = 10 → ∀ a, (cfg1.win k).index t a = if a.val = 0 then t.val else 0 :=
  (by decide +kernel : ∀ t : Fin grid1.N, _)

theorem whole2_r1 (c : Dev nD) (t : Fin cfg1.N) : (iblk1 V c 2 t : Vec Ideal S64x64 .f32) = V c (Pipeline.arrRef spec1 2) :=
  funext fun y => congrArg (V c (Pipeline.arrRef spec1 2)) (emb_whole (((cfg1.win 2).blk t).view.emb y) y _ ((idx_r1 t).1 2 (by decide) (by decide)) fun a => rfl)

theorem whole3_r1 (c : Dev nD) (t : Fin cfg1.N) : (iblk1 V c 3 t : Vec Ideal S1x64 .f32) = V c (Pipeline.arrRef spec1 3) :=
  funext fun y => congrArg (V c (Pipeline.arrRef spec1 3)) (emb_whole (((cfg1.win 3).blk t).view.emb y) y _ ((idx_r1 t).1 3 (by decide) (by decide)) fun a => rfl)

theorem whole4_r1 (c : Dev nD) (t : Fin cfg1.N) : (iblk1 V c 4 t : Vec Ideal S1x64 .f32) = V c (Pipeline.arrRef spec1 4) :=
  funext fun y => congrArg (V c (Pipeline.arrRef spec1 4)) (emb_whole (((cfg1.win 4).blk t).view.emb y) y _ ((idx_r1 t).1 4 (by decide) (by decide)) fun a => rfl)

theorem whole5_r1 (c : Dev nD) (t : Fin cfg1.N) : (iblk1 V c 5 t : Vec Ideal S1x64 .f32) = V c (Pipeline.arrRef spec1 5) :=
  funext fun y => congrArg (V c (Pipeline.arrRef spec1 5)) (emb_whole (((cfg1.win 5).blk t).view.emb y) y _ ((idx_r1 t).1 5 (by decide) (by decide)) fun a => rfl)

theorem whole6_r1 (c : Dev nD) (t : Fin cfg1.N) : (iblk1 V c 6 t : Vec Ideal S1x64 .f32) = V c (Pipeline.arrRef spec1 6) :=
  funext fun y => congrArg (V c (Pipeline.arrRef spec1 6)) (emb_whole (((cfg1.win 6).blk t).view.emb y) y _ ((idx_r1 t).1 6 (by decide) (by decide)) fun a => rfl)

theorem whole7_r1 (c : Dev nD) (t : Fin cfg1.N) : (iblk1 V c 7 t : Vec Ideal S1x64 .f32) = V c (Pipeline.arrRef spec1 7) :=
  funext fun y => congrArg (V c (Pipeline.arrRef spec1 7)) (emb_whole (((cfg1.win 7).blk t).view.emb y) y _ ((idx_r1 t).1 7 (by decide) (by decide)) fun a => rfl)

theorem whole8_r1 (c : Dev nD) (t : Fin cfg1.N) : (iblk1 V c 8 t : Vec Ideal S64x64 .f32) = V c (Pipeline.arrRef spec1 8) :=
  funext fun y => congrArg (V c (Pipeline.arrRef spec1 8)) (emb_whole (((cfg1.win 8).blk t).view.emb y) y _ ((idx_r1 t).1 8 (by decide) (by decide)) fun a => rfl)

theorem whole9_r1 (c : Dev nD) (t : Fin cfg1.N) : (iblk1 V c 9 t : Vec Ideal S1x64 .f32) = V c (Pipeline.arrRef spec1 9) :=
  funext fun y => congrArg (V c (Pipeline.arrRef spec1 9)) (emb_whole (((cfg1.win 9).blk t).view.emb y) y _ ((idx_r1 t).1 9 (by decide) (by decide)) fun a => rfl)

/-- Row p of the two feature windows' blocks at point t is row 4096 t + p of their arrays. -/
theorem tile_r1 (c : Dev nD) (t : Fin cfg1.N) (p : Fin 4096) (f : Fin 64) (r : Fin 262144) (hr : r.val = t.val * 4096 + p.val) :
    (iblk1 V c 0 t : Vec Ideal S4096x64 .f32) (ix2 p f) = (V c (Pipeline.arrRef spec1 0) : S262144x64.Idx → EReal) (ix2 r f)
      ∧ (iblk1 V c 1 t : Vec Ideal S4096x64 .f32) (ix2 p f) = (V c (Pipeline.arrRef spec1 1) : S262144x64.Idx → EReal) (ix2 r f) :=
  ⟨congrArg (V c (Pipeline.arrRef spec1 0))
      (emb_tile (((cfg1.win 0).blk t).view.emb (ix2 p f)) ((cfg1.win 0).index t) t.val p f r ((idx_r1 t).2 0 (by decide)) (fun a => rfl) hr),
    congrArg (V c (Pipeline.arrRef spec1 1))
      (emb_tile (((cfg1.win 1).blk t).view.emb (ix2 p f)) ((cfg1.win 1).index t) t.val p f r ((idx_r1 t).2 1 (by decide)) (fun a => rfl) hr)⟩

abbrev G_r1 (c : Dev nD) : S262144x64.Idx → EReal := fun i =>
  Cert.Spec.ginOut (ginWOf (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)))
    (rowSum (V c (Pipeline.arrRef spec1 0)) (V c (Pipeline.arrRef spec1 1)) (i 0)) (i 1)

/-- The tile computed at point t is block t of that array: its input tiles are blocks t of the two feature arrays, its weight blocks the whole weight arrays. -/
theorem flushed_r1 (c : Dev nD) (t : Fin cfg1.N) :
    (dat1 V c).flushed 10 t = ((cfg1.win 10).blk t).view.read (Elt Ideal) (G_r1 V c) := by
  have ht : t.val < grid1.N := t.isLt
  rw [N_1] at ht
  have hx := (idx_r1 t).2
  show (cfg1.win 10).cut (grid1.coords t) ((dat1 V c).after 10 t) = _
  rw [after1_10]
  refine tile_ext _ _ fun p q => ?_
  have hp : p.val < 4096 := p.isLt
  let r : Fin 262144 := ⟨t.val * 4096 + p.val, by omega⟩
  show _ = G_r1 V c (((cfg1.win 10).blk t).view.emb (ix2 p q))
  rw [emb_tile (((cfg1.win 10).blk t).view.emb (ix2 p q)) ((cfg1.win 10).index t) t.val p q r (hx 10 (by decide)) (fun a => rfl) rfl]
  refine (spec (iblk1 V c 0 t) (iblk1 V c 1 t) _ _ _ _ _ _ _ _ (V c (Pipeline.arrRef spec1 0)) (V c (Pipeline.arrRef spec1 1)) p q r
    (fun f => (tile_r1 V c t p f r rfl).1) (fun f => (tile_r1 V c t p f r rfl).2)).trans ?_
  rw [whole2_r1 V c t, whole3_r1 V c t, whole4_r1 V c t, whole5_r1 V c t, whole6_r1 V c t, whole7_r1 V c t,
    whole8_r1 V c t, whole9_r1 V c t]

/-- Every row of the array lies in the block of some point. -/
theorem cover_r1 (i : S262144x64.Idx) :
    ∃ t : Fin cfg1.N, (cfg1.win 10).flush t = true ∧ i ∈ ((cfg1.win 10).blk t).view.set := by
  obtain ⟨t, h⟩ := cover_tile (n := cfg1.N) (by show _ = grid1.N * 4096; rw [N_1]) (cfg1.win 10).index
    (fun t => (idx_r1 t).2 10 (by decide)) i
  refine ⟨t, flush1_10 t, ?_⟩
  show i ∈ ((View.whole main_v126).slice (win1_10.rect t)).set
  rw [View.set_slice_whole, Rect.mem_set_unit]
  exact h

theorem gin1 (c : Dev nD) :
    (dat1 V c).arrAt 10 cfg1.N
      = fun (i : S262144x64.Idx) => Cert.Spec.ginOut (ginWOf (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)))
          (rowSum (V c (Pipeline.arrRef spec1 0)) (V c (Pipeline.arrRef spec1 1)) (i 0)) (i 1) :=
  (dat1 V c).arrAt_eq_of_cover 10 (G_r1 V c) (fun t _ => flushed_r1 V c t) cover_r1

end Region

end Cert.KernelIdeal.KGin

end
-- ==== Proof.Net.lean ====
import proofs.«421097_j4681514352669_2_alg».proof.Proof.Spec

noncomputable section

namespace Cert.Net

open Idealize.ShloMosaic Idealize.ShloMosaic.ValueIdx Cert.Spec

/-- Features of 32 graphs of `N` nodes, 64 to a node. -/
abbrev Feat (N : ℕ) := Fin 32 → Fin N → Fin 64 → EReal

/-- Batch-major rows: row `b * N + n` holds node `n` of graph `b`. -/
def bmaj {N : ℕ} (hN : 0 < N) (T : Feat N) : (⟨2, ![32 * N, 64]⟩ : Shape).Idx → EReal :=
  fun i => T ⟨(i 0).val / N, by have := (i 0).isLt; exact Nat.div_lt_of_lt_mul (by simpa [Nat.mul_comm] using this)⟩
    ⟨(i 0).val % N, Nat.mod_lt _ hN⟩ (i 1)

/-- Node-major rows: row `n * 32 + b` holds node `n` of graph `b`. -/
def rows {N : ℕ} (T : Feat N) : (⟨2, ![N * 32, 64]⟩ : Shape).Idx → EReal :=
  fun i => T ⟨(i 0).val % 32, Nat.mod_lt _ (by decide)⟩
    ⟨(i 0).val / 32, by have := (i 0).isLt; exact Nat.div_lt_of_lt_mul (by simpa [Nat.mul_comm] using this)⟩ (i 1)

/-- The batch folded into the columns: row `n`, column `b * 64 + f` holds feature `f` of node `n` of graph `b`. -/
def cols {N : ℕ} (T : Feat N) : (⟨2, ![N, 2048]⟩ : Shape).Idx → EReal :=
  fun i => T ⟨(i 1).val / 64, by have h : (i 1).val < 2048 := (i 1).isLt; omega⟩ (i 0) ⟨(i 1).val % 64, Nat.mod_lt _ (by decide)⟩

structure Args where
  x : (⟨2, ![262144, 64]⟩ : Shape).Idx → EReal
  e0 : (⟨2, ![2, 65536]⟩ : Shape).Idx → BitVec 32
  c1 : (⟨2, ![2, 16384]⟩ : Shape).Idx → BitVec 32
  i1 : (⟨2, ![2, 16384]⟩ : Shape).Idx → BitVec 32
  c2 : (⟨2, ![2, 2048]⟩ : Shape).Idx → BitVec 32
  i2 : (⟨2, ![2, 2048]⟩ : Shape).Idx → BitVec 32
  conv1 : GinW
  gin1 : GinW
  gin2 : GinW
  lin1_w : (⟨2, ![8192, 64]⟩ : Shape).Idx → EReal
  lin1_b : (⟨1, ![64]⟩ : Shape).Idx → EReal
  lin2_w : (⟨2, ![64, 10]⟩ : Shape).Idx → EReal
  lin2_b : (⟨1, ![10]⟩ : Shape).Idx → EReal

/-- Every edge word names a node of its level. -/
structure Args.Ranges (a : Args) : Prop where
  e0s : InRange a.e0 0 8192
  e0d : InRange a.e0 1 8192
  c1s : InRange a.c1 0 8192
  c1d : InRange a.c1 1 1024
  i1s : InRange a.i1 0 1024
  i1d : InRange a.i1 1 1024
  c2s : InRange a.c2 0 1024
  c2d : InRange a.c2 1 128
  i2s : InRange a.i2 0 128
  i2d : InRange a.i2 1 128

variable (a : Args)

/-- The three levels: a convolution on each, a mean pooling between them. -/
def H0 : Feat 8192 := fun b n f => a.x (ix2 ⟨b.val * 8192 + n.val, by have := b.isLt; have := n.isLt; omega⟩ f)
def L0 : Feat 8192 := conv a.conv1 (srcOf 8192 (by decide) a.e0) (dstOf 8192 (by decide) a.e0) (H0 a)
def P1 : Feat 1024 := pool (srcOf 8192 (by decide) a.c1) (dstOf 1024 (by decide) a.c1) (L0 a)
def L1 : Feat 1024 := conv a.gin1 (srcOf 1024 (by decide) a.i1) (dstOf 1024 (by decide) a.i1) (P1 a)
def P2 : Feat 128 := pool (srcOf 1024 (by decide) a.c2) (dstOf 128 (by decide) a.c2) (L1 a)
def L2 : Feat 128 := conv a.gin2 (srcOf 128 (by decide) a.i2) (dstOf 128 (by decide) a.i2) (P2 a)

/-- The readout's hidden layer: each graph's level-2 features flattened, an affine map, rectified. -/
def R1 (b : Fin 32) (c : Fin 64) : EReal :=
  max ((∑ j : Fin 8192, L2 a b ⟨j.val / 64, by have := j.isLt; omega⟩ ⟨j.val % 64, Nat.mod_lt _ (by decide)⟩ * a.lin1_w (ix2 j c))
    + a.lin1_b (ix1 c)) zero

/-- The network's result: an affine map of the readout's hidden layer. -/
def out : (⟨2, ![32, 10]⟩ : Shape).Idx → EReal :=
  fun i => (∑ c : Fin 64, R1 a (i 0) c * a.lin2_w (ix2 c (i 1))) + a.lin2_b (ix1 (i 1))

end Cert.Net

end
-- ==== Proof.Args.lean ====
import proofs.«421097_j4681514352669_2_alg».proof.KernelIdeal
import proofs.«421097_j4681514352669_2_alg».proof.ReferenceIdeal
import proofs.«421097_j4681514352669_2_alg».proof.Proof.Net

noncomputable section

open Idealize.ShloMosaic Idealize.ShloMosaic.TcCoe Idealize.SL.Sem

def Cert.KernelIdeal.argsOf (m : (ℓ : Loc Cert.KernelIdeal.nD Cert.KernelIdeal.τ Cert.KernelIdeal.sig) → Buf (Elt Ideal) ℓ) (c : Dev Cert.KernelIdeal.nD) : Cert.Net.Args where
  x := (m ((c.tc : Thread Cert.KernelIdeal.nD Cert.KernelIdeal.τ).loc Cert.KernelIdeal.main_arg0))
  e0 := (m ((c.tc : Thread Cert.KernelIdeal.nD Cert.KernelIdeal.τ).loc Cert.KernelIdeal.main_arg2))
  c1 := (m ((c.tc : Thread Cert.KernelIdeal.nD Cert.KernelIdeal.τ).loc Cert.KernelIdeal.main_arg3))
  i1 := (m ((c.tc : Thread Cert.KernelIdeal.nD Cert.KernelIdeal.τ).loc Cert.KernelIdeal.main_arg4))
  c2 := (m ((c.tc : Thread Cert.KernelIdeal.nD Cert.KernelIdeal.τ).loc Cert.KernelIdeal.main_arg5))
  i2 := (m ((c.tc : Thread Cert.KernelIdeal.nD Cert.KernelIdeal.τ).loc Cert.KernelIdeal.main_arg6))
  conv1 := ⟨(m ((c.tc : Thread Cert.KernelIdeal.nD Cert.KernelIdeal.τ).loc Cert.KernelIdeal.main_arg7)), (m ((c.tc : Thread Cert.KernelIdeal.nD Cert.KernelIdeal.τ).loc Cert.KernelIdeal.main_arg8)), (m ((c.tc : Thread Cert.KernelIdeal.nD Cert.KernelIdeal.τ).loc Cert.KernelIdeal.main_arg9)), (m ((c.tc : Thread Cert.KernelIdeal.nD Cert.KernelIdeal.τ).loc Cert.KernelIdeal.main_arg10)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)), (m ((c.tc : Thread Cert.KernelIdeal.nD Cert.KernelIdeal.τ).loc Cert.KernelIdeal.main_arg13)), (m ((c.tc : Thread Cert.KernelIdeal.nD Cert.KernelIdeal.τ).loc Cert.KernelIdeal.main_arg14))⟩
  gin1 := ⟨(m ((c.tc : Thread Cert.KernelIdeal.nD Cert.KernelIdeal.τ).loc Cert.KernelIdeal.main_arg15)), (m ((c.tc : Thread Cert.KernelIdeal.nD Cert.KernelIdeal.τ).loc Cert.KernelIdeal.main_arg16)), (m ((c.tc : Thread Cert.KernelIdeal.nD Cert.KernelIdeal.τ).loc Cert.KernelIdeal.main_arg17)), (m ((c.tc : Thread Cert.KernelIdeal.nD Cert.KernelIdeal.τ).loc Cert.KernelIdeal.main_arg18)), (m ((c.tc : Thread Cert.KernelIdeal.nD Cert.KernelIdeal.τ).loc Cert.KernelIdeal.main_arg19)), (m ((c.tc : Thread Cert.KernelIdeal.nD Cert.KernelIdeal.τ).loc Cert.KernelIdeal.main_arg20)), (m ((c.tc : Thread Cert.KernelIdeal.nD Cert.KernelIdeal.τ).loc Cert.KernelIdeal.main_arg21)), (m ((c.tc : Thread Cert.KernelIdeal.nD Cert.KernelIdeal.τ).loc Cert.KernelIdeal.main_arg22))⟩
  gin2 := ⟨(m ((c.tc : Thread Cert.KernelIdeal.nD Cert.KernelIdeal.τ).loc Cert.KernelIdeal.main_arg23)), (m ((c.tc : Thread Cert.KernelIdeal.nD Cert.KernelIdeal.τ).loc Cert.KernelIdeal.main_arg24)), (m ((c.tc : Thread Cert.KernelIdeal.nD Cert.KernelIdeal.τ).loc Cert.KernelIdeal.main_arg25)), (m ((c.tc : Thread Cert.KernelIdeal.nD Cert.KernelIdeal.τ).loc Cert.KernelIdeal.main_arg26)), (m ((c.tc : Thread Cert.KernelIdeal.nD Cert.KernelIdeal.τ).loc Cert.KernelIdeal.main_arg27)), (m ((c.tc : Thread Cert.KernelIdeal.nD Cert.KernelIdeal.τ).loc Cert.KernelIdeal.main_arg28)), (m ((c.tc : Thread Cert.KernelIdeal.nD Cert.KernelIdeal.τ).loc Cert.KernelIdeal.main_arg29)), (m ((c.tc : Thread Cert.KernelIdeal.nD Cert.KernelIdeal.τ).loc Cert.KernelIdeal.main_arg30))⟩
  lin1_w := (m ((c.tc : Thread Cert.KernelIdeal.nD Cert.KernelIdeal.τ).loc Cert.KernelIdeal.main_arg31))
  lin1_b := (m ((c.tc : Thread Cert.KernelIdeal.nD Cert.KernelIdeal.τ).loc Cert.KernelIdeal.main_arg32))
  lin2_w := (m ((c.tc : Thread Cert.KernelIdeal.nD Cert.KernelIdeal.τ).loc Cert.KernelIdeal.main_arg33))
  lin2_b := (m ((c.tc : Thread Cert.KernelIdeal.nD Cert.KernelIdeal.τ).loc Cert.KernelIdeal.main_arg34))

def Cert.ReferenceIdeal.argsOf (m : (ℓ : Loc Cert.ReferenceIdeal.nD Cert.ReferenceIdeal.τ Cert.ReferenceIdeal.sig) → Buf (Elt Ideal) ℓ) (c : Dev Cert.ReferenceIdeal.nD) : Cert.Net.Args where
  x := (m ((c.tc : Thread Cert.ReferenceIdeal.nD Cert.ReferenceIdeal.τ).loc Cert.ReferenceIdeal.main_arg0))
  e0 := (m ((c.tc : Thread Cert.ReferenceIdeal.nD Cert.ReferenceIdeal.τ).loc Cert.ReferenceIdeal.main_arg2))
  c1 := (m ((c.tc : Thread Cert.ReferenceIdeal.nD Cert.ReferenceIdeal.τ).loc Cert.ReferenceIdeal.main_arg3))
  i1 := (m ((c.tc : Thread Cert.ReferenceIdeal.nD Cert.ReferenceIdeal.τ).loc Cert.ReferenceIdeal.main_arg4))
  c2 := (m ((c.tc : Thread Cert.ReferenceIdeal.nD Cert.ReferenceIdeal.τ).loc Cert.ReferenceIdeal.main_arg5))
  i2 := (m ((c.tc : Thread Cert.ReferenceIdeal.nD Cert.ReferenceIdeal.τ).loc Cert.ReferenceIdeal.main_arg6))
  conv1 := ⟨(m ((c.tc : Thread Cert.ReferenceIdeal.nD Cert.ReferenceIdeal.τ).loc Cert.ReferenceIdeal.main_arg7)), (m ((c.tc : Thread Cert.ReferenceIdeal.nD Cert.ReferenceIdeal.τ).loc Cert.ReferenceIdeal.main_arg8)), (m ((c.tc : Thread Cert.ReferenceIdeal.nD Cert.ReferenceIdeal.τ).loc Cert.ReferenceIdeal.main_arg9)), (m ((c.tc : Thread Cert.ReferenceIdeal.nD Cert.ReferenceIdeal.τ).loc Cert.ReferenceIdeal.main_arg10)), (m ((c.tc : Thread Cert.ReferenceIdeal.nD Cert.ReferenceIdeal.τ).loc Cert.ReferenceIdeal.main_arg11)), (m ((c.tc : Thread Cert.ReferenceIdeal.nD Cert.ReferenceIdeal.τ).loc Cert.ReferenceIdeal.main_arg12)), (m ((c.tc : Thread Cert.ReferenceIdeal.nD Cert.ReferenceIdeal.τ).loc Cert.ReferenceIdeal.main_arg13)), (m ((c.tc : Thread Cert.ReferenceIdeal.nD Cert.ReferenceIdeal.τ).loc Cert.ReferenceIdeal.main_arg14))⟩
  gin1 := ⟨(m ((c.tc : Thread Cert.ReferenceIdeal.nD Cert.ReferenceIdeal.τ).loc Cert.ReferenceIdeal.main_arg15)), (m ((c.tc : Thread Cert.ReferenceIdeal.nD Cert.ReferenceIdeal.τ).loc Cert.ReferenceIdeal.main_arg16)), (m ((c.tc : Thread Cert.ReferenceIdeal.nD Cert.ReferenceIdeal.τ).loc Cert.ReferenceIdeal.main_arg17)), (m ((c.tc : Thread Cert.ReferenceIdeal.nD Cert.ReferenceIdeal.τ).loc Cert.ReferenceIdeal.main_arg18)), (m ((c.tc : Thread Cert.ReferenceIdeal.nD Cert.ReferenceIdeal.τ).loc Cert.ReferenceIdeal.main_arg19)), (m ((c.tc : Thread Cert.ReferenceIdeal.nD Cert.ReferenceIdeal.τ).loc Cert.ReferenceIdeal.main_arg20)), (m ((c.tc : Thread Cert.ReferenceIdeal.nD Cert.ReferenceIdeal.τ).loc Cert.ReferenceIdeal.main_arg21)), (m ((c.tc : Thread Cert.ReferenceIdeal.nD Cert.ReferenceIdeal.τ).loc Cert.ReferenceIdeal.main_arg22))⟩
  gin2 := ⟨(m ((c.tc : Thread Cert.ReferenceIdeal.nD Cert.ReferenceIdeal.τ).loc Cert.ReferenceIdeal.main_arg23)), (m ((c.tc : Thread Cert.ReferenceIdeal.nD Cert.ReferenceIdeal.τ).loc Cert.ReferenceIdeal.main_arg24)), (m ((c.tc : Thread Cert.ReferenceIdeal.nD Cert.ReferenceIdeal.τ).loc Cert.ReferenceIdeal.main_arg25)), (m ((c.tc : Thread Cert.ReferenceIdeal.nD Cert.ReferenceIdeal.τ).loc Cert.ReferenceIdeal.main_arg26)), (m ((c.tc : Thread Cert.ReferenceIdeal.nD Cert.ReferenceIdeal.τ).loc Cert.ReferenceIdeal.main_arg27)), (m ((c.tc : Thread Cert.ReferenceIdeal.nD Cert.ReferenceIdeal.τ).loc Cert.ReferenceIdeal.main_arg28)), (m ((c.tc : Thread Cert.ReferenceIdeal.nD Cert.ReferenceIdeal.τ).loc Cert.ReferenceIdeal.main_arg29)), (m ((c.tc : Thread Cert.ReferenceIdeal.nD Cert.ReferenceIdeal.τ).loc Cert.ReferenceIdeal.main_arg30))⟩
  lin1_w := (m ((c.tc : Thread Cert.ReferenceIdeal.nD Cert.ReferenceIdeal.τ).loc Cert.ReferenceIdeal.main_arg31))
  lin1_b := (m ((c.tc : Thread Cert.ReferenceIdeal.nD Cert.ReferenceIdeal.τ).loc Cert.ReferenceIdeal.main_arg32))
  lin2_w := (m ((c.tc : Thread Cert.ReferenceIdeal.nD Cert.ReferenceIdeal.τ).loc Cert.ReferenceIdeal.main_arg33))
  lin2_b := (m ((c.tc : Thread Cert.ReferenceIdeal.nD Cert.ReferenceIdeal.τ).loc Cert.ReferenceIdeal.main_arg34))

end
-- ==== Proof.Algebra.lean ====
import proofs.«421097_j4681514352669_2_alg».proof.Proof.Spec
import Idealize.ShloMosaic.Lib.IdealHost
import Mathlib.Data.EReal.Operations
import Mathlib.Algebra.BigOperators.Group.Finset.Basic
import Mathlib.Algebra.BigOperators.Group.Finset.Defs

noncomputable section

namespace Cert.Algebra

open Idealize.ShloMosaic Idealize.ShloMosaic.ValueIdx Cert.Spec

theorem zero_eq : Cert.Spec.zero = 0 := Ideal.ofBits_zero_f32

theorem one_eq : Cert.Spec.one = 1 := Ideal.ofBits_one_f32

theorem sum_one_eq_card {ι : Type} (S : Finset ι) : (∑ _k ∈ S, (1 : EReal)) = (S.card : EReal) := by
  rw [Finset.sum_const, EReal.nsmul_eq_mul, mul_one]

theorem card_mul_eq_sum {ι : Type} (S : Finset ι) (x : EReal) : (S.card : EReal) * x = ∑ _k ∈ S, x := by
  rw [Finset.sum_const, EReal.nsmul_eq_mul]

/-- A count times a value is the value added that many times: the matrix that counts the edges from `s` to `d`, applied to `h`, is the sum over the edges into `d`. -/
theorem adj_mul_eq_segSum {E Ns Nd : ℕ} (src : Fin E → Fin Ns) (dst : Fin E → Fin Nd) (h : Fin Ns → EReal) (d : Fin Nd) :
    ∑ s : Fin Ns, (zero + ∑ _k ∈ Finset.univ.filter (fun k : Fin E => dst k = d ∧ src k = s), one) * h s
      = segSum src dst h d := by
  unfold segSum
  rw [← Finset.sum_fiberwise (Finset.univ.filter (fun k : Fin E => dst k = d)) src (fun k => h (src k))]
  refine Finset.sum_congr rfl fun s _ => ?_
  rw [zero_eq, one_eq, zero_add, sum_one_eq_card, card_mul_eq_sum, Finset.filter_filter]
  exact Finset.sum_congr rfl fun k hk => by rw [(Finset.mem_filter.mp hk).2.2]

/-- The row sums of that matrix count the edges into `d`. -/
theorem adj_rowsum_eq_segCnt {E Ns Nd : ℕ} (src : Fin E → Fin Ns) (dst : Fin E → Fin Nd) (d : Fin Nd) :
    zero + ∑ s : Fin Ns, (zero + ∑ _k ∈ Finset.univ.filter (fun k : Fin E => dst k = d ∧ src k = s), one)
      = segCnt dst d := by
  unfold segCnt
  rw [← Finset.sum_fiberwise (Finset.univ.filter (fun k : Fin E => dst k = d)) src (fun _ => one), zero_eq, zero_add]
  refine Finset.sum_congr rfl fun s _ => ?_
  rw [zero_add, Finset.filter_filter]

/-- Over the 32-fold replicated edge list, the edges of graph `b` into `d` are the base edges into `d`. -/
theorem sum_batch {E Nd : ℕ} (dst : Fin E → Fin Nd) (F : Fin 32 → Fin E → EReal) (b : Fin 32) (d : Fin Nd) :
    ∑ j ∈ Finset.univ.filter (fun j : Fin 32 × Fin E => j.1 = b ∧ dst j.2 = d), F j.1 j.2
      = ∑ k ∈ Finset.univ.filter (fun k : Fin E => dst k = d), F b k := by
  refine Finset.sum_nbij' (fun j => j.2) (fun k => (b, k)) ?_ ?_ ?_ ?_ ?_
  · intro j hj
    exact Finset.mem_filter.mpr ⟨Finset.mem_univ _, (Finset.mem_filter.mp hj).2.2⟩
  · intro k hk
    exact Finset.mem_filter.mpr ⟨Finset.mem_univ _, rfl, (Finset.mem_filter.mp hk).2⟩
  · intro j hj
    exact Prod.ext (Finset.mem_filter.mp hj).2.1.symm rfl
  · intro k _
    rfl
  · intro j hj
    rw [(Finset.mem_filter.mp hj).2.1]

theorem segSum_batch {E Ns Nd : ℕ} (src : Fin E → Fin Ns) (dst : Fin E → Fin Nd) (H : Fin 32 → Fin Ns → EReal)
    (b : Fin 32) (d : Fin Nd) :
    ∑ j ∈ Finset.univ.filter (fun j : Fin 32 × Fin E => j.1 = b ∧ dst j.2 = d), H j.1 (src j.2)
      = segSum src dst (H b) d :=
  sum_batch dst (fun a k => H a (src k)) b d

theorem segCnt_batch {E Nd : ℕ} (dst : Fin E → Fin Nd) (b : Fin 32) (d : Fin Nd) :
    ∑ _j ∈ Finset.univ.filter (fun j : Fin 32 × Fin E => j.1 = b ∧ dst j.2 = d), one = segCnt dst d :=
  sum_batch dst (fun _ _ => one) b d

end Cert.Algebra

end
-- ==== Proof.Layout.lean ====
import proofs.«421097_j4681514352669_2_alg».proof.Proof.Net
import proofs.«421097_j4681514352669_2_alg».proof.Proof.Algebra
import Mathlib.Algebra.BigOperators.Group.Finset.Defs

noncomputable section

namespace Cert.Layout

open Idealize.ShloMosaic Idealize.ShloMosaic.ValueIdx Cert.Spec Cert.Net Cert.Algebra

theorem flat_lt {a M N s : ℕ} (ha : a < M) (hs : s < N) : a * N + s < M * N := by
  have h1 : (a + 1) * N ≤ M * N := Nat.mul_le_mul_right N ha
  have h2 : (a + 1) * N = a * N + N := Nat.succ_mul a N
  omega

theorem flat_div {a N s : ℕ} (hs : s < N) : (a * N + s) / N = a := by
  rw [Nat.add_comm, Nat.add_mul_div_right _ _ (by omega), Nat.div_eq_of_lt hs, Nat.zero_add]

theorem flat_mod {a N s : ℕ} (hs : s < N) : (a * N + s) % N = s := by
  rw [Nat.add_comm, Nat.add_mul_mod_self_right, Nat.mod_eq_of_lt hs]

theorem feat_congr {N : ℕ} (T : Feat N) {b b' : Fin 32} {n n' : Fin N} {f f' : Fin 64} (hb : b.val = b'.val)
    (hn : n.val = n'.val) (hf : f.val = f'.val) : T b n f = T b' n' f' := by
  rw [Fin.ext hb, Fin.ext hn, Fin.ext hf]

/-- The count matrix times the folded-column layout is the segment sum, node by node. -/
theorem cols_matmul_adj_apply {E Ns Nd : ℕ} (src : Fin E → Fin Ns) (dst : Fin E → Fin Nd) (T : Feat Ns)
    (n : Fin Nd) (j : Fin 2048) :
    ∑ s : Fin Ns, (zero + ∑ _k ∈ Finset.univ.filter (fun k : Fin E => dst k = n ∧ src k = s), one)
        * cols T (ix2 s j)
      = cols (fun b n f => segSum src dst (fun s => T b s f) n) (ix2 n j) :=
  adj_mul_eq_segSum src dst
    (fun s => T ⟨j.val / 64, by have h := j.isLt; omega⟩ s ⟨j.val % 64, Nat.mod_lt _ (by decide)⟩) n

/-- Dividing that product by the row count is the mean pooling. -/
theorem cols_pool_apply {E Ns Nd : ℕ} (src : Fin E → Fin Ns) (dst : Fin E → Fin Nd) (T : Feat Ns)
    (n : Fin Nd) (j : Fin 2048) :
    Ideal.div (cols (fun b n f => segSum src dst (fun s => T b s f) n) (ix2 n j))
        (max (zero + ∑ s : Fin Ns,
          (zero + ∑ _k ∈ Finset.univ.filter (fun k : Fin E => dst k = n ∧ src k = s), one)) one)
      = cols (pool src dst T) (ix2 n j) := by
  rw [adj_rowsum_eq_segCnt]
  rfl

theorem rows_eq_cols_apply {N : ℕ} (T : Feat N) (r : Fin (N * 32)) (c : Fin 64) :
    rows T (ix2 r c) = cols T (ix2
      (⟨r.val / 32, by have := r.isLt; omega⟩ : Fin N)
      (⟨(r.val % 32) * 64 + c.val, by have := c.isLt; omega⟩ : Fin 2048)) := by
  have h1 := c.isLt
  exact feat_congr T (by show r.val % 32 = ((r.val % 32) * 64 + c.val) / 64; omega) rfl
    (by show c.val = ((r.val % 32) * 64 + c.val) % 64; omega)

theorem cols_eq_rows_apply {N : ℕ} (T : Feat N) (n : Fin N) (j : Fin 2048) :
    cols T (ix2 n j) = rows T (ix2
      (⟨n.val * 32 + j.val / 64, by have := n.isLt; have := j.isLt; omega⟩ : Fin (N * 32))
      (⟨j.val % 64, Nat.mod_lt _ (by decide)⟩ : Fin 64)) := by
  have h1 := j.isLt
  exact feat_congr T (by show j.val / 64 = (n.val * 32 + j.val / 64) % 32; omega)
    (by show n.val = (n.val * 32 + j.val / 64) / 32; omega) rfl

theorem rows_eq_cols {N : ℕ} (T : Feat N) (i : (⟨2, ![N * 32, 64]⟩ : Shape).Idx) :
    rows T i = cols T (ix2
      (⟨(i 0).val / 32, by have := idx2_lt0 i; omega⟩ : Fin N)
      (⟨((i 0).val % 32) * 64 + (i 1).val, by have := idx2_lt1 i; omega⟩ : Fin 2048)) := by
  have h1 := idx2_lt1 i
  exact feat_congr T (by show (i 0).val % 32 = (((i 0).val % 32) * 64 + (i 1).val) / 64; omega) rfl
    (by show (i 1).val = (((i 0).val % 32) * 64 + (i 1).val) % 64; omega)

theorem cols_eq_rows {N : ℕ} (T : Feat N) (i : (⟨2, ![N, 2048]⟩ : Shape).Idx) :
    cols T i = rows T (ix2
      (⟨(i 0).val * 32 + (i 1).val / 64, by have := idx2_lt0 i; have := idx2_lt1 i; omega⟩ : Fin (N * 32))
      (⟨(i 1).val % 64, Nat.mod_lt _ (by decide)⟩ : Fin 64)) := by
  have h1 := idx2_lt1 i
  exact feat_congr T (by show (i 1).val / 64 = ((i 0).val * 32 + (i 1).val / 64) % 32; omega)
    (by show (i 0).val = ((i 0).val * 32 + (i 1).val / 64) / 32; omega) rfl

/-- The perceptron acts row by row, so in node-major rows it gives the convolution. -/
theorem rows_conv_apply {E N : ℕ} (P : GinW) (src dst : Fin E → Fin N) (T : Feat N) (r : Fin (N * 32)) (c : Fin 64) :
    ginOut P (fun f => rows T (ix2 r f)
        + rows (fun b n f => segSum src dst (fun s => T b s f) n) (ix2 r f)) c
      = rows (conv P src dst T) (ix2 r c) := rfl

theorem bmaj_conv_apply {E N : ℕ} (hN : 0 < N) (P : GinW) (src dst : Fin E → Fin N) (T : Feat N) (r : Fin (32 * N))
    (c : Fin 64) :
    ginOut P (fun f => bmaj hN T (ix2 r f)
        + bmaj hN (fun b n f => segSum src dst (fun s => T b s f) n) (ix2 r f)) c
      = bmaj hN (conv P src dst T) (ix2 r c) := rfl

theorem mod_edge {E : ℕ} (j : Fin (32 * E)) : j.val % E < E := Nat.mod_lt _ (by have := j.isLt; omega)

theorem div_edge {E : ℕ} (j : Fin (32 * E)) : j.val / E < 32 :=
  Nat.div_lt_of_lt_mul (by have := j.isLt; omega)

theorem div_row {N : ℕ} (r : Fin (32 * N)) : r.val / N < 32 :=
  Nat.div_lt_of_lt_mul (by have := r.isLt; omega)

theorem sum_replica {E Nd : ℕ} (hNd : 0 < Nd) (dst : Fin E → Fin Nd) (F : Fin 32 → Fin E → EReal) (r : Fin (32 * Nd)) :
    ∑ j ∈ Finset.univ.filter (fun j : Fin (32 * E) =>
          (j.val / E) * Nd + (dst ⟨j.val % E, mod_edge j⟩).val = r.val),
        F ⟨j.val / E, div_edge j⟩ ⟨j.val % E, mod_edge j⟩
      = ∑ k ∈ Finset.univ.filter (fun k : Fin E => dst k = ⟨r.val % Nd, Nat.mod_lt _ hNd⟩),
          F ⟨r.val / Nd, div_row r⟩ k := by
  refine Finset.sum_nbij' (fun j => (⟨j.val % E, mod_edge j⟩ : Fin E))
    (fun k => (⟨(r.val / Nd) * E + k.val, flat_lt (div_row r) k.isLt⟩ : Fin (32 * E))) ?_ ?_ ?_ ?_ ?_
  · intro j hj
    have h := (Finset.mem_filter.mp hj).2
    refine Finset.mem_filter.mpr ⟨Finset.mem_univ _, Fin.ext ?_⟩
    show (dst ⟨j.val % E, mod_edge j⟩).val = r.val % Nd
    rw [← h, flat_mod (dst _).isLt]
  · intro k hk
    have h := (Finset.mem_filter.mp hk).2
    refine Finset.mem_filter.mpr ⟨Finset.mem_univ _, ?_⟩
    have e1 : ((r.val / Nd) * E + k.val) / E = r.val / Nd := flat_div k.isLt
    have e2 : dst ⟨((r.val / Nd) * E + k.val) % E, Nat.mod_lt _ (by have := k.isLt; omega)⟩ = dst k :=
      congrArg dst (Fin.ext (flat_mod k.isLt))
    show ((r.val / Nd) * E + k.val) / E * Nd + (dst ⟨((r.val / Nd) * E + k.val) % E, _⟩).val = r.val
    rw [e1, e2, h]
    exact Nat.div_add_mod' r.val Nd
  · intro j hj
    have h := (Finset.mem_filter.mp hj).2
    have hb : r.val / Nd = j.val / E := by rw [← h, flat_div (dst _).isLt]
    refine Fin.ext ?_
    show (r.val / Nd) * E + j.val % E = j.val
    rw [hb]
    exact Nat.div_add_mod' j.val E
  · intro k _
    exact Fin.ext (flat_mod k.isLt)
  · intro j hj
    have h := (Finset.mem_filter.mp hj).2
    have hb : j.val / E = r.val / Nd := by rw [← h, flat_div (dst _).isLt]
    show F ⟨j.val / E, div_edge j⟩ ⟨j.val % E, mod_edge j⟩ = F ⟨r.val / Nd, div_row r⟩ ⟨j.val % E, mod_edge j⟩
    rw [show (⟨j.val / E, div_edge j⟩ : Fin 32) = ⟨r.val / Nd, div_row r⟩ from Fin.ext hb]

/-- In batch-major rows the sum over the replicated edges into row `b * Nd + n` is graph `b`'s segment sum at `n`. -/
theorem bmaj_segSum {E Ns Nd : ℕ} (hNs : 0 < Ns) (hNd : 0 < Nd) (src : Fin E → Fin Ns) (dst : Fin E → Fin Nd)
    (T : Feat Ns) (r : Fin (32 * Nd)) (f : Fin 64) :
    ∑ j ∈ Finset.univ.filter (fun j : Fin (32 * E) =>
          (j.val / E) * Nd + (dst ⟨j.val % E, mod_edge j⟩).val = r.val),
        bmaj hNs T (ix2 (⟨(j.val / E) * Ns + (src ⟨j.val % E, mod_edge j⟩).val,
          flat_lt (div_edge j) (src _).isLt⟩ : Fin (32 * Ns)) f)
      = bmaj hNd (fun b n f => segSum src dst (fun s => T b s f) n) (ix2 r f) := by
  refine Eq.trans (Finset.sum_congr rfl fun j _ => ?_) (sum_replica hNd dst (fun b k => T b (src k) f) r)
  exact feat_congr T
    (by show ((j.val / E) * Ns + (src ⟨j.val % E, mod_edge j⟩).val) / Ns = j.val / E; exact flat_div (src _).isLt)
    (by show ((j.val / E) * Ns + (src ⟨j.val % E, mod_edge j⟩).val) % Ns = (src ⟨j.val % E, mod_edge j⟩).val
        exact flat_mod (src _).isLt) rfl

theorem bmaj_segCnt {E Nd : ℕ} (hNd : 0 < Nd) (dst : Fin E → Fin Nd) (r : Fin (32 * Nd)) :
    ∑ _j ∈ Finset.univ.filter (fun j : Fin (32 * E) =>
          (j.val / E) * Nd + (dst ⟨j.val % E, mod_edge j⟩).val = r.val), one
      = segCnt dst ⟨r.val % Nd, Nat.mod_lt _ hNd⟩ :=
  sum_replica hNd dst (fun _ _ => one) r

theorem bmaj_H0_apply (a : Args) (r : Fin 262144) (c : Fin 64) :
    bmaj (by decide) (H0 a) (ix2 r c) = a.x (ix2 r c) := by
  show a.x (ix2 ⟨(r.val / 8192) * 8192 + r.val % 8192, _⟩ c) = a.x (ix2 r c)
  rw [show (⟨(r.val / 8192) * 8192 + r.val % 8192, by have := r.isLt; omega⟩ : Fin 262144) = r from
    Fin.ext (by show (r.val / 8192) * 8192 + r.val % 8192 = r.val; omega)]

theorem bmaj_H0 (a : Args) : (bmaj (by decide) (H0 a) : (⟨2, ![262144, 64]⟩ : Shape).Idx → EReal) = a.x := by
  funext i
  obtain ⟨r, c, rfl⟩ : ∃ r c, i = ix2 r c := ⟨i 0, i 1, eq_ix2 i⟩
  exact bmaj_H0_apply a r c

theorem cols_H0_apply (a : Args) (n : Fin 8192) (j : Fin 2048) :
    cols (H0 a) (ix2 n j) = a.x (ix2
      (⟨(j.val / 64) * 8192 + n.val, by have := n.isLt; have := j.isLt; omega⟩ : Fin 262144)
      (⟨j.val % 64, Nat.mod_lt _ (by decide)⟩ : Fin 64)) := rfl

theorem cols_H0 (a : Args) (i : (⟨2, ![8192, 2048]⟩ : Shape).Idx) :
    cols (H0 a) i = a.x (ix2
      (⟨((i 1).val / 64) * 8192 + (i 0).val, by have := idx2_lt0 i; have := idx2_lt1 i; omega⟩ : Fin 262144)
      (⟨(i 1).val % 64, Nat.mod_lt _ (by decide)⟩ : Fin 64)) := rfl

theorem R1_of_rows (a : Args) (b : Fin 32) (c : Fin 64) :
    R1 a b c = max ((∑ j : Fin 8192,
        rows (L2 a) (ix2 (⟨(j.val / 64) * 32 + b.val, by have := j.isLt; have := b.isLt; omega⟩ : Fin (128 * 32))
          (⟨j.val % 64, Nat.mod_lt _ (by decide)⟩ : Fin 64)) * a.lin1_w (ix2 j c)) + a.lin1_b (ix1 c)) zero := by
  unfold R1
  refine congrArg (fun z => max (z + a.lin1_b (ix1 c)) zero) (Finset.sum_congr rfl fun j _ => ?_)
  have hb := b.isLt
  refine congrArg (· * a.lin1_w (ix2 j c)) ?_
  exact feat_congr (L2 a) (by show b.val = ((j.val / 64) * 32 + b.val) % 32; omega)
    (by show j.val / 64 = ((j.val / 64) * 32 + b.val) / 32; omega) rfl

theorem R1_of_bmaj (a : Args) (b : Fin 32) (c : Fin 64) :
    R1 a b c = max ((∑ j : Fin 8192,
        bmaj (by decide) (L2 a) (ix2 (⟨b.val * 128 + j.val / 64, by have := j.isLt; have := b.isLt; omega⟩ : Fin (32 * 128))
          (⟨j.val % 64, Nat.mod_lt _ (by decide)⟩ : Fin 64)) * a.lin1_w (ix2 j c)) + a.lin1_b (ix1 c)) zero := by
  unfold R1
  refine congrArg (fun z => max (z + a.lin1_b (ix1 c)) zero) (Finset.sum_congr rfl fun j _ => ?_)
  have hj := j.isLt
  refine congrArg (· * a.lin1_w (ix2 j c)) ?_
  exact feat_congr (L2 a) (by show b.val = (b.val * 128 + j.val / 64) / 128; omega)
    (by show j.val / 64 = (b.val * 128 + j.val / 64) % 128; omega) rfl

end Cert.Layout

end
-- ==== Proof.KChain0.lean ====
import proofs.«421097_j4681514352669_2_alg».proof.Proof.KChain0Pre
import proofs.«421097_j4681514352669_2_alg».proof.Proof.KHost0
import proofs.«421097_j4681514352669_2_alg».proof.Proof.KMat0
import proofs.«421097_j4681514352669_2_alg».proof.Proof.KMat2
import proofs.«421097_j4681514352669_2_alg».proof.Proof.KGin1
import proofs.«421097_j4681514352669_2_alg».proof.Proof.Spec
import proofs.«421097_j4681514352669_2_alg».proof.Proof.Net
import proofs.«421097_j4681514352669_2_alg».proof.Proof.Args
import proofs.«421097_j4681514352669_2_alg».proof.Proof.Algebra
import proofs.«421097_j4681514352669_2_alg».proof.Proof.Layout

set_option maxRecDepth 16384

noncomputable section

namespace Cert.KernelIdeal.KChain

open Idealize.ShloMosaic Idealize.ShloMosaic.TcCoe Idealize.ShloMosaic.ValueIdx Idealize.ShloMosaic.StableHlo
open Idealize.SL.Sem
open Cert.KernelIdeal Cert.KernelIdeal.Gen Cert.Spec Cert.Net

variable (m : (ℓ : Loc nD τ sig) → Buf (Elt Ideal) ℓ) (ρ : Dev nD → PrngReg)

namespace L0

abbrev S0 (a : Args) : Feat 8192 :=
  fun b n f => segSum (srcOf 8192 (by decide) a.e0) (dstOf 8192 (by decide) a.e0) (fun s => H0 a b s f) n

abbrev S1 (a : Args) : Feat 1024 :=
  fun b n f => segSum (srcOf 8192 (by decide) a.c1) (dstOf 1024 (by decide) a.c1) (fun s => L0 a b s f) n

-- A count matrix times features in folded columns is the sum over the edges, entry by entry.
theorem cols_adj {E Ns Nd : ℕ} (src : Fin E → Fin Ns) (dst : Fin E → Fin Nd) (T : Feat Ns)
    (A : (⟨2, ![Nd, Ns]⟩ : Shape).Idx → EReal) (X : (⟨2, ![Ns, 2048]⟩ : Shape).Idx → EReal)
    (hA : ∀ p s, A (ix2 p s) = zero + ∑ _k ∈ Finset.univ.filter (fun k : Fin E => dst k = p ∧ src k = s), one)
    (hX : ∀ s j, X (ix2 s j) = cols T (ix2 s j)) (p : Fin Nd) (j : Fin 2048) :
    ∑ s : Fin Ns, A (ix2 p s) * X (ix2 s j) = cols (fun b n f => segSum src dst (fun s => T b s f) n) (ix2 p j) :=
  Eq.trans (α := EReal) (Finset.sum_congr rfl fun s _ => congrArg₂ (· * ·) (hA p s) (hX s j))
    (Cert.Layout.cols_matmul_adj_apply src dst T p j)

-- A reshape of folded columns to node-major rows keeps the features.
theorem rows_of_cols (T : Feat 8192) (Y : S262144x64.Idx → EReal) (X : S8192x2048.Idx → EReal)
    (h : S8192x2048.ShapeCasts S262144x64) (e : Y = shapeCast S262144x64 X h)
    (hX : ∀ p j, X (ix2 p j) = cols T (ix2 p j)) (r : Fin 262144) (f : Fin 64) :
    Y (ix2 r f) = rows T (ix2 r f) := by
  rw [e]
  exact (cast2_apply _ _ r f _ _ (by dsimp only; omega)).trans
    ((hX _ _).trans (Cert.Layout.rows_eq_cols_apply T r f).symm)

theorem v117_W2_apply (c : Dev nD) (hr : (argsOf m c).Ranges) (p : Fin 8192) (j : Fin 2048) :
    (W2 m ρ c (Proc.devRef .tc main_v117) : S8192x2048.Idx → EReal) (ix2 p j)
      = cols (S0 (argsOf m c)) (ix2 p j) := by
  rw [v117_W2, KMat.mat0 (V1 m ρ) c, KMat.prod0_apply]
  exact cols_adj _ _ (H0 (argsOf m c)) _ _ (KHost0.adj0 m ρ c hr.e0s hr.e0d) (KHost0.xcols m ρ c) p j

-- A one-row matrix made of a vector, read back as a vector, is the vector.
theorem row1_of {v : S1x64.Idx → EReal} {w : S64.Idx → EReal} {h : S64.ShapeCasts S1x64}
    (e : v = shapeCast S1x64 w h) : KGin.row1 v = w := by
  funext j
  rw [e, eq_ix1 j]
  exact shapeCast_a_1a_apply _ _ 0 (j 0)

theorem conv1_eq (c : Dev nD) :
    KGin.ginWOf (W3 m ρ c (Proc.devRef .tc main_arg7)) (W3 m ρ c (Proc.devRef .tc main_v120))
        (W3 m ρ c (Proc.devRef .tc main_v121)) (W3 m ρ c (Proc.devRef .tc main_v122))
        (W3 m ρ c (Proc.devRef .tc main_v123)) (W3 m ρ c (Proc.devRef .tc main_v124))
        (W3 m ρ c (Proc.devRef .tc main_arg13)) (W3 m ρ c (Proc.devRef .tc main_v125))
      = (argsOf m c).conv1 := by
  unfold KGin.ginWOf
  dsimp only [W3, hostOps1]
  after_results_simp
  rw [arg_W2 m ρ c main_arg7 (by decide) (by decide), arg_W2 m ρ c main_arg8 (by decide) (by decide),
    arg_W2 m ρ c main_arg9 (by decide) (by decide), arg_W2 m ρ c main_arg10 (by decide) (by decide),
    arg_W2 m ρ c main_arg11 (by decide) (by decide), arg_W2 m ρ c main_arg12 (by decide) (by decide),
    arg_W2 m ρ c main_arg13 (by decide) (by decide), arg_W2 m ρ c main_arg14 (by decide) (by decide)]
  refine Eq.trans ?_ (rfl : (⟨_, _, _, _, _, _, _, _⟩ : GinW) = (argsOf m c).conv1)
  congr 1 <;> exact row1_of rfl

theorem v126_W4_apply (c : Dev nD) (hr : (argsOf m c).Ranges) (r : Fin 262144) (f : Fin 64) :
    (W4 m ρ c (Proc.devRef .tc main_v126) : S262144x64.Idx → EReal) (ix2 r f)
      = rows (L0 (argsOf m c)) (ix2 r f) := by
  rw [v126_W4, KGin.gin1 (V3 m ρ) c]
  exact (congrArg₂ (fun W s => ginOut W s f) (conv1_eq m ρ c) (funext fun f' => congrArg₂ (fun a b : EReal => a + b)
      (rows_of_cols (H0 (argsOf m c)) _ _ _ (ops1_terms m ρ c).1
        (fun p j => (congrFun (W2_of_ne m ρ c main_v115 (by decide)) _).trans (KHost0.xcolsF m ρ c p j)) r f')
      (rows_of_cols (S0 (argsOf m c)) _ _ _ (ops1_terms m ρ c).2 (v117_W2_apply m ρ c hr) r f'))).trans
    (Cert.Layout.rows_conv_apply (argsOf m c).conv1 _ _ (H0 (argsOf m c)) r f)

theorem v128_W5_apply (c : Dev nD) (hr : (argsOf m c).Ranges) (p : Fin 8192) (j : Fin 2048) :
    (W5 m ρ c (Proc.devRef .tc main_v128) : S8192x2048.Idx → EReal) (ix2 p j)
      = cols (L0 (argsOf m c)) (ix2 p j) := by
  rw [v128_term]
  exact (cast2_apply _ _ p j _ _ (by dsimp only; omega)).trans
    ((v126_W4_apply m ρ c hr _ _).trans (Cert.Layout.cols_eq_rows_apply (L0 (argsOf m c)) p j).symm)

theorem v129_W6_apply (c : Dev nD) (hr : (argsOf m c).Ranges) (p : Fin 1024) (j : Fin 2048) :
    (W6 m ρ c (Proc.devRef .tc main_v129) : S1024x2048.Idx → EReal) (ix2 p j)
      = cols (S1 (argsOf m c)) (ix2 p j) := by
  rw [v129_W6, KMat.mat2 (V5 m ρ) c, KMat.prod2_apply]
  exact cols_adj _ _ (L0 (argsOf m c)) _ _
    (fun p s => (congrFun (W5_keep m ρ c main_v45 (by decide) (by decide) (by decide)) (ix2 p s)).trans (KHost0.adjC1 m ρ c hr.c1s hr.c1d p s))
    (v128_W5_apply m ρ c hr) p j

end L0

theorem lvl0 (c : Dev nD) (hr : (Cert.KernelIdeal.argsOf m c).Ranges) (p : Fin 1024) (q : Fin 2048) :
    (Gen.W7 (F := Ideal) m ρ c (Proc.devRef .tc main_v131) : S1024x2048.Idx → EReal) (ix2 p q)
      = Cert.Net.cols (Cert.Net.P1 (Cert.KernelIdeal.argsOf m c)) (ix2 p q) := by
  rw [L0.v131_term]
  refine (hostDivf_apply _ _ _).trans ?_
  exact (congrArg₂ Ideal.div (L0.v129_W6_apply m ρ c hr p q)
      ((broadcastInDim_apply _ _ _ (ix2 p q) (ix2 p (0 : Fin 1)) fun a => by
          match a with
          | ⟨0, _⟩ => rfl
          | ⟨1, _⟩ => rfl).trans
        ((congrFun ((W6_of_ne m ρ c main_v44 (by decide)).trans
            (L0.W5_keep m ρ c main_v44 (by decide) (by decide) (by decide))) (ix2 p (0 : Fin 1))).trans
          (KHost0.cnt1_count m ρ c hr.c1s hr.c1d p)))).trans
    (Cert.Layout.cols_pool_apply _ _ (L0 (argsOf m c)) p q)

theorem lvl0_bf (c : Dev nD) (hr : (Cert.KernelIdeal.argsOf m c).Ranges) (p : Fin 1024) (q : Fin 2048) :
    (Gen.W7 (F := Ideal) m ρ c (Proc.devRef .tc main_v132) : S1024x2048.Idx → EReal) (ix2 p q)
      = Cert.Net.cols (Cert.Net.P1 (Cert.KernelIdeal.argsOf m c)) (ix2 p q) := by
  rw [L0.v132_term]
  exact lvl0 m ρ c hr p q

end Cert.KernelIdeal.KChain

end
-- ==== Proof.KMat3.lean ====
import proofs.«421097_j4681514352669_2_alg».proof.Proof.Gen.KernelIdeal.Frame
import proofs.«421097_j4681514352669_2_alg».proof.Proof.MatLib
import Idealize.ShloMosaic.Lib.Pipeline.Value

noncomputable section

namespace Cert.KernelIdeal.KMat

open Cert.KernelIdeal Cert.KernelIdeal.Gen Idealize.ShloMosaic Idealize.ShloMosaic.TcCoe Idealize.ShloMosaic.ValueIdx Idealize.SL.Sem
open Idealize.ShloMosaic.Pipeline (Dat)
open scoped BigOperators

abbrev prod3 (A : S1024x1024.Idx → EReal) (X : S1024x2048.Idx → EReal) : S1024x2048.Idx → EReal := MatLib.prod A X

theorem prod3_apply (A : S1024x1024.Idx → EReal) (X : S1024x2048.Idx → EReal) (r : Fin 1024) (q : Fin 2048) :
    prod3 A X (ix2 r q) = ∑ s : Fin 1024, A (ix2 r s) * X (ix2 s q) := rfl

namespace R3

/-- The block indices at every grid point: the left tile and the output tile are row block `t`, every other index is 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The output tile of grid point `t` is tile `t` of the product: the left tile's rows and the output tile's rows are the same rows of their arrays, and the right block is the whole right array. -/
theorem flushed_eq (c : Dev nD) (t : Fin cfg3.N) :
    (dat3 (F := Ideal) V c).flushed 2 t
      = ((cfg3.win 2).blk t).view.read (Elt Ideal) (prod3 (V c (Pipeline.arrRef spec3 0)) (V c (Pipeline.arrRef spec3 1))) := by
  obtain ⟨e0, e1, e2, e3, e4, e5⟩ := idx_facts t
  show (cfg3.win 2).cut (grid3.coords t) ((dat3 (F := Ideal) V c).after 2 t) = _
  rw [after3_2]
  unfold out3_2 k3_pay1
  rw [View.canon_unit_zero MatLib.hz, View.ld_unit_zero (S := S128x1024) MatLib.hz, View.ld_unit_zero (S := S1024x2048) MatLib.hz,
    shapeCast_self, shapeCast_self]
  funext j
  exact MatLib.tile_apply none (V c (Pipeline.arrRef spec3 0)) (V c (Pipeline.arrRef spec3 1))
    ((cfg3.win 0).blk t).view.emb ((cfg3.win 1).blk t).view.emb ((cfg3.win 2).xinj (grid3.coords t) j)
    (((cfg3.win 2).blk t).view.emb j)
    (fun s => Shape.idx_ext₂ (MatLib.same_blk (e0.trans e4.symm) 128 (j 0).val) (MatLib.zero_blk e1 1024 s.val))
    (fun s => Shape.idx_ext₂ (MatLib.zero_blk e2 1024 s.val) (MatLib.same_blk (e3.trans e5.symm) 2048 (j 1).val))

/-- Every entry of the result is in some point's tile: row `r` in tile `r / 128`, which spans every column. -/
theorem cover (i : S1024x2048.Idx) : ∃ t : Fin cfg3.N, (cfg3.win 2).flush t = true ∧ i ∈ ((cfg3.win 2).blk t).view.set := by
  have hi : (i 0).val < 1024 := (i 0).isLt
  have ht : (i 0).val / 128 < cfg3.N := by rw [show cfg3.N = 8 from N_3]; omega
  obtain ⟨-, -, -, -, e4, e5⟩ := idx_facts ⟨_, ht⟩
  refine ⟨⟨_, ht⟩, flush3_2 _, ?_⟩
  show i ∈ ((View.whole main_v133).slice (win3_2.rect ⟨_, ht⟩)).set
  rw [View.set_slice_whole, Rect.mem_set_unit]
  exact Fin.forall_fin_two.mpr ⟨MatLib.row_blk (T := 128) (by decide) (i 0).val e4, MatLib.col_blk e5 (i 1).isLt⟩

end R3

theorem mat3 (V : (c : Dev nD) → (b : Ref sig .tc) → Buf (Elt Ideal) ((c : Thread nD τ).loc b)) (c : Dev nD) :
    (dat3 (F := Ideal) V c).arrAt 2 cfg3.N = prod3 (V c (Pipeline.arrRef spec3 0)) (V c (Pipeline.arrRef spec3 1)) :=
  (dat3 (F := Ideal) V c).arrAt_eq_of_cover 2 _ (fun t _ => R3.flushed_eq V c t) R3.cover

end Cert.KernelIdeal.KMat

end
-- ==== Proof.KMat5.lean ====
import proofs.«421097_j4681514352669_2_alg».proof.Proof.Gen.KernelIdeal.Frame
import proofs.«421097_j4681514352669_2_alg».proof.Proof.MatLib
import Idealize.ShloMosaic.Lib.Pipeline.Value

noncomputable section

namespace Cert.KernelIdeal.KMat

open Cert.KernelIdeal Cert.KernelIdeal.Gen Idealize.ShloMosaic Idealize.ShloMosaic.TcCoe Idealize.ShloMosaic.ValueIdx Idealize.SL.Sem
open Idealize.ShloMosaic.Pipeline (Dat)
open scoped BigOperators

abbrev prod5 (A : S128x1024.Idx → EReal) (X : S1024x2048.Idx → EReal) : S128x2048.Idx → EReal := MatLib.prod A X

theorem prod5_apply (A : S128x1024.Idx → EReal) (X : S1024x2048.Idx → EReal) (r : Fin 128) (q : Fin 2048) :
    prod5 A X (ix2 r q) = ∑ s : Fin 1024, A (ix2 r s) * X (ix2 s q) := rfl

namespace R5

/-- The block indices at every grid point: the left tile and the output tile are row block `t`, every other index is 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The output tile of grid point `t` is tile `t` of the product: the left tile's rows and the output tile's rows are the same rows of their arrays, and the right block is the whole right array. -/
theorem flushed_eq (c : Dev nD) (t : Fin cfg5.N) :
    (dat5 (F := Ideal) V c).flushed 2 t
      = ((cfg5.win 2).blk t).view.read (Elt Ideal) (prod5 (V c (Pipeline.arrRef spec5 0)) (V c (Pipeline.arrRef spec5 1))) := by
  obtain ⟨e0, e1, e2, e3, e4, e5⟩ := idx_facts t
  show (cfg5.win 2).cut (grid5.coords t) ((dat5 (F := Ideal) V c).after 2 t) = _
  rw [after5_2]
  unfold out5_2 k5_pay1
  rw [View.canon_unit_zero MatLib.hz, View.ld_unit_zero (S := S128x1024) MatLib.hz, View.ld_unit_zero (S := S1024x2048) MatLib.hz,
    shapeCast_self, shapeCast_self]
  funext j
  exact MatLib.tile_apply none (V c (Pipeline.arrRef spec5 0)) (V c (Pipeline.arrRef spec5 1))
    ((cfg5.win 0).blk t).view.emb ((cfg5.win 1).blk t).view.emb ((cfg5.win 2).xinj (grid5.coords t) j)
    (((cfg5.win 2).blk t).view.emb j)
    (fun s => Shape.idx_ext₂ (MatLib.same_blk (e0.trans e4.symm) 128 (j 0).val) (MatLib.zero_blk e1 1024 s.val))
    (fun s => Shape.idx_ext₂ (MatLib.zero_blk e2 1024 s.val) (MatLib.same_blk (e3.trans e5.symm) 2048 (j 1).val))

/-- Every entry of the result is in some point's tile: row `r` in tile `r / 128`, which spans every column. -/
theorem cover (i : S128x2048.Idx) : ∃ t : Fin cfg5.N, (cfg5.win 2).flush t = true ∧ i ∈ ((cfg5.win 2).blk t).view.set := by
  have hi : (i 0).val < 128 := (i 0).isLt
  have ht : (i 0).val / 128 < cfg5.N := by rw [show cfg5.N = 1 from N_5]; omega
  obtain ⟨-, -, -, -, e4, e5⟩ := idx_facts ⟨_, ht⟩
  refine ⟨⟨_, ht⟩, flush5_2 _, ?_⟩
  show i ∈ ((View.whole main_v145).slice (win5_2.rect ⟨_, ht⟩)).set
  rw [View.set_slice_whole, Rect.mem_set_unit]
  exact Fin.forall_fin_two.mpr ⟨MatLib.row_blk (T := 128) (by decide) (i 0).val e4, MatLib.col_blk e5 (i 1).isLt⟩

end R5

theorem mat5 (V : (c : Dev nD) → (b : Ref sig .tc) → Buf (Elt Ideal) ((c : Thread nD τ).loc b)) (c : Dev nD) :
    (dat5 (F := Ideal) V c).arrAt 2 cfg5.N = prod5 (V c (Pipeline.arrRef spec5 0)) (V c (Pipeline.arrRef spec5 1)) :=
  (dat5 (F := Ideal) V c).arrAt_eq_of_cover 2 _ (fun t _ => R5.flushed_eq V c t) R5.cover

end Cert.KernelIdeal.KMat

end
-- ==== Proof.KGin4.lean ====
import proofs.«421097_j4681514352669_2_alg».proof.Proof.KGin1

set_option maxRecDepth 16384

noncomputable section

namespace Cert.KernelIdeal.KGin

open Cert.KernelIdeal Cert.KernelIdeal.Gen Idealize.ShloMosaic Idealize.ShloMosaic.ValueIdx Idealize.ShloMosaic.TcCoe
open Idealize.SL.Sem
open Idealize.ShloMosaic.Pipeline (Dat)

section Region
variable (V : (c : Dev nD) → (b : Ref sig .tc) → Buf (Elt Ideal) ((c : Thread nD τ).loc b))

theorem idx_r4 : ∀ t : Fin cfg4.N,
    (∀ k : Fin 11, 2 ≤ k.val → k.val ≤ 9 → ∀ a, (cfg4.win k).index t a = 0)
      ∧ ∀ k : Fin 11, k.val < 2 ∨ k.val = 10 → ∀ a, (cfg4.win k).index t a = if a.val = 0 then t.val else 0 :=
  (by decide +kernel : ∀ t : Fin grid4.N, _)

theorem whole2_r4 (c : Dev nD) (t : Fin cfg4.N) : (iblk4 V c 2 t : Vec Ideal S64x64 .f32) = V c (Pipeline.arrRef spec4 2) :=
  funext fun y => congrArg (V c (Pipeline.arrRef spec4 2)) (emb_whole (((cfg4.win 2).blk t).view.emb y) y _ ((idx_r4 t).1 2 (by decide) (by decide)) fun a => rfl)

theorem whole3_r4 (c : Dev nD) (t : Fin cfg4.N) : (iblk4 V c 3 t : Vec Ideal S1x64 .f32) = V c (Pipeline.arrRef spec4 3) :=
  funext fun y => congrArg (V c (Pipeline.arrRef spec4 3)) (emb_whole (((cfg4.win 3).blk t).view.emb y) y _ ((idx_r4 t).1 3 (by decide) (by decide)) fun a => rfl)

theorem whole4_r4 (c : Dev nD) (t : Fin cfg4.N) : (iblk4 V c 4 t : Vec Ideal S1x64 .f32) = V c (Pipeline.arrRef spec4 4) :=
  funext fun y => congrArg (V c (Pipeline.arrRef spec4 4)) (emb_whole (((cfg4.win 4).blk t).view.emb y) y _ ((idx_r4 t).1 4 (by decide) (by decide)) fun a => rfl)

theorem whole5_r4 (c : Dev nD) (t : Fin cfg4.N) : (iblk4 V c 5 t : Vec Ideal S1x64 .f32) = V c (Pipeline.arrRef spec4 5) :=
  funext fun y => congrArg (V c (Pipeline.arrRef spec4 5)) (emb_whole (((cfg4.win 5).blk t).view.emb y) y _ ((idx_r4 t).1 5 (by decide) (by decide)) fun a => rfl)

theorem whole6_r4 (c : Dev nD) (t : Fin cfg4.N) : (iblk4 V c 6 t : Vec Ideal S1x64 .f32) = V c (Pipeline.arrRef spec4 6) :=
  funext fun y => congrArg (V c (Pipeline.arrRef spec4 6)) (emb_whole (((cfg4.win 6).blk t).view.emb y) y _ ((idx_r4 t).1 6 (by decide) (by decide)) fun a => rfl)

theorem whole7_r4 (c : Dev nD) (t : Fin cfg4.N) : (iblk4 V c 7 t : Vec Ideal S1x64 .f32) = V c (Pipeline.arrRef spec4 7) :=
  funext fun y => congrArg (V c (Pipeline.arrRef spec4 7)) (emb_whole (((cfg4.win 7).blk t).view.emb y) y _ ((idx_r4 t).1 7 (by decide) (by decide)) fun a => rfl)

theorem whole8_r4 (c : Dev nD) (t : Fin cfg4.N) : (iblk4 V c 8 t : Vec Ideal S64x64 .f32) = V c (Pipeline.arrRef spec4 8) :=
  funext fun y => congrArg (V c (Pipeline.arrRef spec4 8)) (emb_whole (((cfg4.win 8).blk t).view.emb y) y _ ((idx_r4 t).1 8 (by decide) (by decide)) fun a => rfl)

theorem whole9_r4 (c : Dev nD) (t : Fin cfg4.N) : (iblk4 V c 9 t : Vec Ideal S1x64 .f32) = V c (Pipeline.arrRef spec4 9) :=
  funext fun y => congrArg (V c (Pipeline.arrRef spec4 9)) (emb_whole (((cfg4.win 9).blk t).view.emb y) y _ ((idx_r4 t).1 9 (by decide) (by decide)) fun a => rfl)

/-- Row p of the two feature windows' blocks at point t is row 4096 t + p of their arrays. -/
theorem tile_r4 (c : Dev nD) (t : Fin cfg4.N) (p : Fin 4096) (f : Fin 64) (r : Fin 32768) (hr : r.val = t.val * 4096 + p.val) :
    (iblk4 V c 0 t : Vec Ideal S4096x64 .f32) (ix2 p f) = (V c (Pipeline.arrRef spec4 0) : S32768x64.Idx → EReal) (ix2 r f)
      ∧ (iblk4 V c 1 t : Vec Ideal S4096x64 .f32) (ix2 p f) = (V c (Pipeline.arrRef spec4 1) : S32768x64.Idx → EReal) (ix2 r f) :=
  ⟨congrArg (V c (Pipeline.arrRef spec4 0))
      (emb_tile (((cfg4.win 0).blk t).view.emb (ix2 p f)) ((cfg4.win 0).index t) t.val p f r ((idx_r4 t).2 0 (by decide)) (fun a => rfl) hr),
    congrArg (V c (Pipeline.arrRef spec4 1))
      (emb_tile (((cfg4.win 1).blk t).view.emb (ix2 p f)) ((cfg4.win 1).index t) t.val p f r ((idx_r4 t).2 1 (by decide)) (fun a => rfl) hr)⟩

abbrev G_r4 (c : Dev nD) : S32768x64.Idx → EReal := fun i =>
  Cert.Spec.ginOut (ginWOf (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)))
    (rowSum (V c (Pipeline.arrRef spec4 0)) (V c (Pipeline.arrRef spec4 1)) (i 0)) (i 1)

/-- The tile computed at point t is block t of that array: its input tiles are blocks t of the two feature arrays, its weight blocks the whole weight arrays. -/
theorem flushed_r4 (c : Dev nD) (t : Fin cfg4.N) :
    (dat4 V c).flushed 10 t = ((cfg4.win 10).blk t).view.read (Elt Ideal) (G_r4 V c) := by
  have ht : t.val < grid4.N := t.isLt
  rw [N_4] at ht
  have hx := (idx_r4 t).2
  show (cfg4.win 10).cut (grid4.coords t) ((dat4 V c).after 10 t) = _
  rw [after4_10, show @out4_10 Ideal _ = @out1_10 Ideal _ from rfl]
  refine tile_ext _ _ fun p q => ?_
  have hp : p.val < 4096 := p.isLt
  let r : Fin 32768 := ⟨t.val * 4096 + p.val, by omega⟩
  show _ = G_r4 V c (((cfg4.win 10).blk t).view.emb (ix2 p q))
  rw [emb_tile (((cfg4.win 10).blk t).view.emb (ix2 p q)) ((cfg4.win 10).index t) t.val p q r (hx 10 (by decide)) (fun a => rfl) rfl]
  refine (spec (iblk4 V c 0 t) (iblk4 V c 1 t) _ _ _ _ _ _ _ _ (V c (Pipeline.arrRef spec4 0)) (V c (Pipeline.arrRef spec4 1)) p q r
    (fun f => (tile_r4 V c t p f r rfl).1) (fun f => (tile_r4 V c t p f r rfl).2)).trans ?_
  rw [whole2_r4 V c t, whole3_r4 V c t, whole4_r4 V c t, whole5_r4 V c t, whole6_r4 V c t, whole7_r4 V c t,
    whole8_r4 V c t, whole9_r4 V c t]

/-- Every row of the array lies in the block of some point. -/
theorem cover_r4 (i : S32768x64.Idx) :
    ∃ t : Fin cfg4.N, (cfg4.win 10).flush t = true ∧ i ∈ ((cfg4.win 10).blk t).view.set := by
  obtain ⟨t, h⟩ := cover_tile (n := cfg4.N) (by show _ = grid4.N * 4096; rw [N_4]) (cfg4.win 10).index
    (fun t => (idx_r4 t).2 10 (by decide)) i
  refine ⟨t, flush4_10 t, ?_⟩
  show i ∈ ((View.whole main_v142).slice (win4_10.rect t)).set
  rw [View.set_slice_whole, Rect.mem_set_unit]
  exact h

theorem gin4 (c : Dev nD) :
    (dat4 V c).arrAt 10 cfg4.N
      = fun (i : S32768x64.Idx) => Cert.Spec.ginOut (ginWOf (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)))
          (rowSum (V c (Pipeline.arrRef spec4 0)) (V c (Pipeline.arrRef spec4 1)) (i 0)) (i 1) :=
  (dat4 V c).arrAt_eq_of_cover 10 (G_r4 V c) (fun t _ => flushed_r4 V c t) cover_r4

end Region

end Cert.KernelIdeal.KGin

end
-- ==== Proof.KChain1.lean ====
import proofs.«421097_j4681514352669_2_alg».proof.Proof.Gen.KernelIdeal.Frame
import proofs.«421097_j4681514352669_2_alg».proof.Proof.KGin1
import proofs.«421097_j4681514352669_2_alg».proof.Proof.KHost0
import proofs.«421097_j4681514352669_2_alg».proof.Proof.KMat3
import proofs.«421097_j4681514352669_2_alg».proof.Proof.KMat5
import proofs.«421097_j4681514352669_2_alg».proof.Proof.KGin4
import proofs.«421097_j4681514352669_2_alg».proof.Proof.Spec
import proofs.«421097_j4681514352669_2_alg».proof.Proof.Net
import proofs.«421097_j4681514352669_2_alg».proof.Proof.Args
import proofs.«421097_j4681514352669_2_alg».proof.Proof.Algebra
import proofs.«421097_j4681514352669_2_alg».proof.Proof.Layout
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.KChain

open Idealize.ShloMosaic Idealize.ShloMosaic.TcCoe Idealize.ShloMosaic.ValueIdx Idealize.ShloMosaic.StableHlo
open Idealize.SL.Sem
open Cert.KernelIdeal Cert.KernelIdeal.Gen Cert.Spec Cert.Net

variable (m : (ℓ : Loc nD τ sig) → Buf (Elt Ideal) ℓ) (ρ : Dev nD → PrngReg)

namespace L1

local macro "host_skip " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- Between the first product and the fourth, these buffers are read and never written. -/
theorem W7_W1 (c : Dev nD) : ∀ b ∈ [main_v66, main_v91, main_v90, main_arg15, main_arg16, main_arg17, main_arg18,
      main_arg19, main_arg20, main_arg21, main_arg22],
    W7 (F := Ideal) m ρ c (Proc.devRef .tc b) = W1 (F := Ideal) m ρ c (Proc.devRef .tc b) := by
  intro b hb
  simp only [List.mem_cons, List.mem_singleton, List.not_mem_nil, or_false] at hb
  rcases hb with rfl | rfl | rfl | rfl | rfl | rfl | rfl | rfl | rfl | rfl | rfl
  all_goals
    refine Eq.trans (by host_skip hostOps3) ?_
    refine (W6_of_ne m ρ c _ (by decide)).trans ?_
    refine Eq.trans (by host_skip hostOps2) ?_
    refine (W4_of_ne m ρ c _ (by decide)).trans ?_
    refine Eq.trans (by host_skip hostOps1) ?_
    exact W2_of_ne m ρ c _ (by decide)

/-- The second pooling's count matrix and row counts stay unwritten up to that pooling. -/
theorem W11_W1 (c : Dev nD) : ∀ b ∈ [main_v91, main_v90],
    W11 (F := Ideal) m ρ c (Proc.devRef .tc b) = W1 (F := Ideal) m ρ c (Proc.devRef .tc b) := by
  intro b hb
  simp only [List.mem_cons, List.mem_singleton, List.not_mem_nil, or_false] at hb
  rcases hb with rfl | rfl
  all_goals
    refine Eq.trans (by host_skip hostOps5) ?_
    refine (W10_of_ne m ρ c _ (by decide)).trans ?_
    refine Eq.trans (by host_skip hostOps4) ?_
    refine (W8_of_ne m ρ c _ (by decide)).trans ?_
    exact W7_W1 m ρ c _ (by decide)

/-- The 35 arguments come first among the buffers, and the first stretch writes only later ones. -/
theorem W1_arg (c : Dev nD) (b : Ref sig .tc) (hb : b.idx.val < 35) :
    W1 (F := Ideal) m ρ c (Proc.devRef .tc b) = m ((c : Thread nD τ).loc b) := by
  refine Eq.trans (StableHlo.after_of_forall_not_mem _ _ (List.forall_iff_forall_mem.mp ?_)) rfl
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne fun e => absurd (e ▸ hb) (by decide)

/-- Hence the perceptron's weight arguments reach it as given. -/
theorem arg_W8 (c : Dev nD) : ∀ b ∈ [main_arg15, main_arg16, main_arg17, main_arg18, main_arg19, main_arg20, main_arg21,
      main_arg22],
    W8 (F := Ideal) m ρ c (Proc.devRef .tc b) = m ((c : Thread nD τ).loc b) := by
  intro b hb
  simp only [List.mem_cons, List.mem_singleton, List.not_mem_nil, or_false] at hb
  rcases hb with rfl | rfl | rfl | rfl | rfl | rfl | rfl | rfl
  all_goals
    refine (W8_of_ne m ρ c _ (by decide)).trans ?_
    exact (W7_W1 m ρ c _ (by decide)).trans (W1_arg m ρ c _ (by decide))

/-- Both entries sit at position r * 64 + f of the row-major order, so folded columns become node-major rows. -/
theorem toRows_cols (X : S1024x2048.Idx → EReal) (T : Feat 1024)
    (h : ∀ (p : Fin 1024) (q : Fin 2048), X (ix2 p q) = cols T (ix2 p q)) (r : Fin 32768) (f : Fin 64) :
    shapeCast S32768x64 X shapeCasts_S1024x2048_S32768x64 (ix2 r f) = rows T (ix2 r f) := by
  rw [Layout.rows_eq_cols_apply, ← h]
  exact shapeCast_apply X _ _ _ (by
    rw [Shape.rowMajor_val_two, Shape.rowMajor_val_two]
    show (r.val / 32) * 2048 + ((r.val % 32) * 64 + f.val) = r.val * 64 + f.val
    omega)

/-- Both entries sit at position p * 2048 + q of the row-major order. -/
theorem toCols_apply (Y : S32768x64.Idx → EReal) (p : Fin 1024) (q : Fin 2048) :
    shapeCast S1024x2048 Y shapeCasts_S32768x64_S1024x2048 (ix2 p q)
      = Y (ix2 (⟨p.val * 32 + q.val / 64, by have := p.isLt; have := q.isLt; omega⟩ : Fin 32768)
            (⟨q.val % 64, Nat.mod_lt _ (by decide)⟩ : Fin 64)) :=
  shapeCast_apply Y _ _ _ (by
    rw [Shape.rowMajor_val_two, Shape.rowMajor_val_two]
    show (p.val * 32 + q.val / 64) * 64 + q.val % 64 = p.val * 2048 + q.val
    omega)

/-- Entry k of the vector and entry (0, k) of the one-row array sit at the same position k. -/
theorem row1_reshape (x : S64.Idx → EReal) : KGin.row1 (shapeCast S1x64 x shapeCasts_S64_S1x64) = x := by
  funext j
  obtain ⟨k, rfl⟩ : ∃ k : Fin 64, j = ix1 k := ⟨j 0, eq_ix1 j⟩
  exact shapeCast_a_1a_apply x shapeCasts_S64_S1x64 0 k

/-- The spread keeps axis 0 and the source's axis 1 has one entry, so (p, q) reads (p, 0). -/
theorem bcol_apply (v : S128x1.Idx → EReal) (p : Fin 128) (q : Fin 2048) :
    broadcastInDim S128x2048 ![0, 1] bcast_S128x1_S128x2048_0_1 v (ix2 p q) = v (ix2 p (0 : Fin 1)) := by
  refine broadcastInDim_apply ![0, 1] bcast_S128x1_S128x2048_0_1 v (ix2 p q) (ix2 p (0 : Fin 1)) fun a => ?_
  match a with
  | ⟨0, _⟩ =>
    show p.val = if (128 : ℕ) = 1 then 0 else p.val
    exact (if_neg (by decide)).symm
  | ⟨1, _⟩ =>
    show (0 : ℕ) = if (1 : ℕ) = 1 then 0 else q.val
    exact (if_pos rfl).symm

abbrev src1 (c : Dev nD) : Fin 16384 → Fin 1024 := srcOf 1024 (by decide) (argsOf m c).i1
abbrev dst1 (c : Dev nD) : Fin 16384 → Fin 1024 := dstOf 1024 (by decide) (argsOf m c).i1
abbrev srcX (c : Dev nD) : Fin 2048 → Fin 1024 := srcOf 1024 (by decide) (argsOf m c).c2
abbrev dstX (c : Dev nD) : Fin 2048 → Fin 128 := dstOf 128 (by decide) (argsOf m c).c2

/-- The pooled features summed over each level-1 node's incoming edges. -/
abbrev S1 (c : Dev nD) : Feat 1024 :=
  fun b n f => segSum (src1 m c) (dst1 m c) (fun s => P1 (argsOf m c) b s f) n
/-- The level-1 features summed over the pooling edges into each level-2 node. -/
abbrev S2 (c : Dev nD) : Feat 128 :=
  fun b n f => segSum (srcX m c) (dstX m c) (fun s => L1 (argsOf m c) b s f) n

/-- Each weight matrix is an argument as given; each weight vector is one cast to a single row and read back. -/
theorem wts (c : Dev nD) :
    KGin.ginWOf (V9 m ρ c main_arg15) (V9 m ρ c main_v136) (V9 m ρ c main_v137) (V9 m ρ c main_v138)
        (V9 m ρ c main_v139) (V9 m ρ c main_v140) (V9 m ρ c main_arg21) (V9 m ρ c main_v141)
      = (argsOf m c).gin1 := by
  show GinW.mk _ _ _ _ _ _ _ _ = GinW.mk _ _ _ _ _ _ _ _
  rw [GinW.mk.injEq]
  refine ⟨?_, ?_, ?_, ?_, ?_, ?_, ?_, ?_⟩ <;>
  · dsimp only [V9, W9, hostOps4]
    after_results
    first
    | exact (row1_reshape _).trans (arg_W8 m ρ c _ (by decide))
    | exact arg_W8 m ρ c _ (by decide)

section Chain

variable (c : Dev nD) (hr : (argsOf m c).Ranges)
    (h131 : ∀ (p : Fin 1024) (q : Fin 2048),
      (W7 (F := Ideal) m ρ c (Proc.devRef .tc main_v131) : S1024x2048.Idx → EReal) (ix2 p q)
        = cols (P1 (argsOf m c)) (ix2 p q))
    (h132 : ∀ (p : Fin 1024) (q : Fin 2048),
      (W7 (F := Ideal) m ρ c (Proc.devRef .tc main_v132) : S1024x2048.Idx → EReal) (ix2 p q)
        = cols (P1 (argsOf m c)) (ix2 p q))
include hr h131 h132

/-- The count matrix of the level-1 edges times the pooled features is the sum over incoming edges. -/
theorem s133 (p : Fin 1024) (q : Fin 2048) :
    (W8 (F := Ideal) m ρ c (Proc.devRef .tc main_v133) : S1024x2048.Idx → EReal) (ix2 p q)
      = cols (S1 m c) (ix2 p q) := by
  refine (congrFun ((W8_arr m ρ c 2).trans (KMat.mat3 (V7 m ρ) c)) (ix2 p q)).trans ?_
  refine (KMat.prod3_apply (V7 m ρ c main_v66) (V7 m ρ c main_v132) p q).trans ?_
  refine Eq.trans ?_ (Layout.cols_matmul_adj_apply (src1 m c) (dst1 m c) (P1 (argsOf m c)) p q)
  refine Finset.sum_congr rfl fun s _ => ?_
  exact congrArg₂ (fun (a b : EReal) => a * b)
    ((congrFun (W7_W1 m ρ c main_v66 (by decide)) (ix2 p s)).trans (KHost0.adjI1 m ρ c hr.i1s hr.i1d p s))
    (h132 s q)

/-- Features and neighbour sums reshaped to rows and added: the perceptron on that sum is the level-1 convolution. -/
theorem s142 (r : Fin 32768) (f : Fin 64) :
    (W10 (F := Ideal) m ρ c (Proc.devRef .tc main_v142) : S32768x64.Idx → EReal) (ix2 r f)
      = rows (L1 (argsOf m c)) (ix2 r f) := by
  refine (congrFun ((W10_arr m ρ c 10).trans (KGin.gin4 (V9 m ρ) c)) (ix2 r f)).trans ?_
  show ginOut (KGin.ginWOf (V9 m ρ c main_arg15) (V9 m ρ c main_v136) (V9 m ρ c main_v137) (V9 m ρ c main_v138)
        (V9 m ρ c main_v139) (V9 m ρ c main_v140) (V9 m ρ c main_arg21) (V9 m ρ c main_v141))
      (KGin.rowSum (V9 m ρ c main_v134) (V9 m ρ c main_v135) r) f = _
  rw [wts, show KGin.rowSum (V9 m ρ c main_v134) (V9 m ρ c main_v135) r
      = fun g => rows (P1 (argsOf m c)) (ix2 r g) + rows (S1 m c) (ix2 r g) from funext fun g => by
    dsimp only [KGin.rowSum, V9, W9, hostOps4]
    after_results
    exact congrArg₂ (fun (a b : EReal) => a + b)
      (toRows_cols _ _ (fun p q => (congrFun (W8_of_ne m ρ c main_v131 (by decide)) _).trans (h131 p q)) r g)
      (toRows_cols _ _ (s133 m ρ c hr h131 h132) r g)]
  exact Layout.rows_conv_apply (argsOf m c).gin1 (src1 m c) (dst1 m c) (P1 (argsOf m c)) r f

/-- A reshape back to folded columns; the narrowing after it changes no extended real. -/
theorem s144 (p : Fin 1024) (q : Fin 2048) :
    (W11 (F := Ideal) m ρ c (Proc.devRef .tc main_v144) : S1024x2048.Idx → EReal) (ix2 p q)
      = cols (L1 (argsOf m c)) (ix2 p q) := by
  dsimp only [W11, hostOps5]
  after_results
  show shapeCast S1024x2048 (W10 (F := Ideal) m ρ c (Proc.devRef .tc main_v142) : S32768x64.Idx → EReal)
      shapeCasts_S32768x64_S1024x2048 (ix2 p q) = _
  rw [toCols_apply, Layout.cols_eq_rows_apply]
  exact s142 m ρ c hr h131 h132 _ _

/-- The count matrix of the pooling edges times the level-1 features is the sum over pooling edges. -/
theorem s145 (p : Fin 128) (q : Fin 2048) :
    (W12 (F := Ideal) m ρ c (Proc.devRef .tc main_v145) : S128x2048.Idx → EReal) (ix2 p q)
      = cols (S2 m c) (ix2 p q) := by
  refine (congrFun ((W12_arr m ρ c 2).trans (KMat.mat5 (V11 m ρ) c)) (ix2 p q)).trans ?_
  refine (KMat.prod5_apply (V11 m ρ c main_v91) (V11 m ρ c main_v144) p q).trans ?_
  refine Eq.trans ?_ (Layout.cols_matmul_adj_apply (srcX m c) (dstX m c) (L1 (argsOf m c)) p q)
  refine Finset.sum_congr rfl fun s _ => ?_
  exact congrArg₂ (fun (a b : EReal) => a * b)
    ((congrFun (W11_W1 m ρ c main_v91 (by decide)) (ix2 p s)).trans (KHost0.adjC2 m ρ c hr.c2s hr.c2d p s))
    (s144 m ρ c hr h131 h132 s q)

end Chain

end L1

/-- The pooling sums divided by the row counts of the count matrix are the mean pooling. -/
theorem lvl1 (c : Dev nD) (hr : (argsOf m c).Ranges)
    (h131 : ∀ (p : Fin 1024) (q : Fin 2048),
      (W7 (F := Ideal) m ρ c (Proc.devRef .tc main_v131) : S1024x2048.Idx → EReal) (ix2 p q)
        = cols (P1 (argsOf m c)) (ix2 p q))
    (h132 : ∀ (p : Fin 1024) (q : Fin 2048),
      (W7 (F := Ideal) m ρ c (Proc.devRef .tc main_v132) : S1024x2048.Idx → EReal) (ix2 p q)
        = cols (P1 (argsOf m c)) (ix2 p q))
    (p : Fin 128) (q : Fin 2048) :
    (W13 (F := Ideal) m ρ c (Proc.devRef .tc main_v147) : S128x2048.Idx → EReal) (ix2 p q)
      = cols (P2 (argsOf m c)) (ix2 p q) := by
  dsimp only [W13, hostOps6]
  after_results
  rw [hostDivf_apply, L1.bcol_apply]
  refine Eq.trans ?_ (Layout.cols_pool_apply (L1.srcX m c) (L1.dstX m c) (L1 (argsOf m c)) p q)
  exact congrArg₂ Ideal.div (L1.s145 m ρ c hr h131 h132 p q)
    ((congrFun ((W12_of_ne m ρ c main_v90 (by decide)).trans (L1.W11_W1 m ρ c main_v90 (by decide)))
      (ix2 p (0 : Fin 1))).trans (KHost0.cnt2_count m ρ c hr.c2s hr.c2d p))

/-- The second array is the first one narrowed, which changes no extended real. -/
theorem lvl1_bf (c : Dev nD) (hr : (argsOf m c).Ranges)
    (h131 : ∀ (p : Fin 1024) (q : Fin 2048),
      (W7 (F := Ideal) m ρ c (Proc.devRef .tc main_v131) : S1024x2048.Idx → EReal) (ix2 p q)
        = cols (P1 (argsOf m c)) (ix2 p q))
    (h132 : ∀ (p : Fin 1024) (q : Fin 2048),
      (W7 (F := Ideal) m ρ c (Proc.devRef .tc main_v132) : S1024x2048.Idx → EReal) (ix2 p q)
        = cols (P1 (argsOf m c)) (ix2 p q))
    (p : Fin 128) (q : Fin 2048) :
    (W13 (F := Ideal) m ρ c (Proc.devRef .tc main_v148) : S128x2048.Idx → EReal) (ix2 p q)
      = cols (P2 (argsOf m c)) (ix2 p q) :=
  (congrFun (show (W13 (F := Ideal) m ρ c (Proc.devRef .tc main_v148) : S128x2048.Idx → EReal)
      = W13 (F := Ideal) m ρ c (Proc.devRef .tc main_v147) by
    dsimp only [W13, hostOps6]; after_results; all_goals rfl) (ix2 p q)).trans (lvl1 m ρ c hr h131 h132 p q)

end Cert.KernelIdeal.KChain

end
-- ==== Proof.KMat6.lean ====
import proofs.«421097_j4681514352669_2_alg».proof.Proof.Gen.KernelIdeal.Frame
import proofs.«421097_j4681514352669_2_alg».proof.Proof.MatLib
import Idealize.ShloMosaic.Lib.Pipeline.Value

noncomputable section

namespace Cert.KernelIdeal.KMat

open Cert.KernelIdeal Cert.KernelIdeal.Gen Idealize.ShloMosaic Idealize.ShloMosaic.TcCoe Idealize.ShloMosaic.ValueIdx Idealize.SL.Sem
open Idealize.ShloMosaic.Pipeline (Dat)
open scoped BigOperators

abbrev prod6 (A : S128x128.Idx → EReal) (X : S128x2048.Idx → EReal) : S128x2048.Idx → EReal := MatLib.prod A X

theorem prod6_apply (A : S128x128.Idx → EReal) (X : S128x2048.Idx → EReal) (r : Fin 128) (q : Fin 2048) :
    prod6 A X (ix2 r q) = ∑ s : Fin 128, A (ix2 r s) * X (ix2 s q) := rfl

namespace R6

/-- The block indices at every grid point: the left tile and the output tile are row block `t`, every other index is 0. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- The output tile of grid point `t` is tile `t` of the product: the left tile's rows and the output tile's rows are the same rows of their arrays, and the right block is the whole right array. -/
theorem flushed_eq (c : Dev nD) (t : Fin cfg6.N) :
    (dat6 (F := Ideal) V c).flushed 2 t
      = ((cfg6.win 2).blk t).view.read (Elt Ideal) (prod6 (V c (Pipeline.arrRef spec6 0)) (V c (Pipeline.arrRef spec6 1))) := by
  obtain ⟨e0, e1, e2, e3, e4, e5⟩ := idx_facts t
  show (cfg6.win 2).cut (grid6.coords t) ((dat6 (F := Ideal) V c).after 2 t) = _
  rw [after6_2]
  unfold out6_2 k6_pay1
  rw [View.canon_unit_zero MatLib.hz, View.ld_unit_zero (S := S128x128) MatLib.hz, View.ld_unit_zero (S := S128x2048) MatLib.hz,
    shapeCast_self, shapeCast_self]
  funext j
  exact MatLib.tile_apply none (V c (Pipeline.arrRef spec6 0)) (V c (Pipeline.arrRef spec6 1))
    ((cfg6.win 0).blk t).view.emb ((cfg6.win 1).blk t).view.emb ((cfg6.win 2).xinj (grid6.coords t) j)
    (((cfg6.win 2).blk t).view.emb j)
    (fun s => Shape.idx_ext₂ (MatLib.same_blk (e0.trans e4.symm) 128 (j 0).val) (MatLib.zero_blk e1 128 s.val))
    (fun s => Shape.idx_ext₂ (MatLib.zero_blk e2 128 s.val) (MatLib.same_blk (e3.trans e5.symm) 2048 (j 1).val))

/-- Every entry of the result is in some point's tile: row `r` in tile `r / 128`, which spans every column. -/
theorem cover (i : S128x2048.Idx) : ∃ t : Fin cfg6.N, (cfg6.win 2).flush t = true ∧ i ∈ ((cfg6.win 2).blk t).view.set := by
  have hi : (i 0).val < 128 := (i 0).isLt
  have ht : (i 0).val / 128 < cfg6.N := by rw [show cfg6.N = 1 from N_6]; omega
  obtain ⟨-, -, -, -, e4, e5⟩ := idx_facts ⟨_, ht⟩
  refine ⟨⟨_, ht⟩, flush6_2 _, ?_⟩
  show i ∈ ((View.whole main_v149).slice (win6_2.rect ⟨_, ht⟩)).set
  rw [View.set_slice_whole, Rect.mem_set_unit]
  exact Fin.forall_fin_two.mpr ⟨MatLib.row_blk (T := 128) (by decide) (i 0).val e4, MatLib.col_blk e5 (i 1).isLt⟩

end R6

theorem mat6 (V : (c : Dev nD) → (b : Ref sig .tc) → Buf (Elt Ideal) ((c : Thread nD τ).loc b)) (c : Dev nD) :
    (dat6 (F := Ideal) V c).arrAt 2 cfg6.N = prod6 (V c (Pipeline.arrRef spec6 0)) (V c (Pipeline.arrRef spec6 1)) :=
  (dat6 (F := Ideal) V c).arrAt_eq_of_cover 2 _ (fun t _ => R6.flushed_eq V c t) R6.cover

end Cert.KernelIdeal.KMat

end
-- ==== Proof.KGin7.lean ====
import proofs.«421097_j4681514352669_2_alg».proof.Proof.KGin1

set_option maxRecDepth 16384

noncomputable section

namespace Cert.KernelIdeal.KGin

open Cert.KernelIdeal Cert.KernelIdeal.Gen Idealize.ShloMosaic Idealize.ShloMosaic.ValueIdx Idealize.ShloMosaic.TcCoe
open Idealize.SL.Sem
open Idealize.ShloMosaic.Pipeline (Dat)

section Region
variable (V : (c : Dev nD) → (b : Ref sig .tc) → Buf (Elt Ideal) ((c : Thread nD τ).loc b))

theorem idx_r7 : ∀ t : Fin cfg7.N,
    (∀ k : Fin 11, 2 ≤ k.val → k.val ≤ 9 → ∀ a, (cfg7.win k).index t a = 0)
      ∧ ∀ k : Fin 11, k.val < 2 ∨ k.val = 10 → ∀ a, (cfg7.win k).index t a = if a.val = 0 then t.val else 0 :=
  (by decide +kernel : ∀ t : Fin grid7.N, _)

theorem whole2_r7 (c : Dev nD) (t : Fin cfg7.N) : (iblk7 V c 2 t : Vec Ideal S64x64 .f32) = V c (Pipeline.arrRef spec7 2) :=
  funext fun y => congrArg (V c (Pipeline.arrRef spec7 2)) (emb_whole (((cfg7.win 2).blk t).view.emb y) y _ ((idx_r7 t).1 2 (by decide) (by decide)) fun a => rfl)

theorem whole3_r7 (c : Dev nD) (t : Fin cfg7.N) : (iblk7 V c 3 t : Vec Ideal S1x64 .f32) = V c (Pipeline.arrRef spec7 3) :=
  funext fun y => congrArg (V c (Pipeline.arrRef spec7 3)) (emb_whole (((cfg7.win 3).blk t).view.emb y) y _ ((idx_r7 t).1 3 (by decide) (by decide)) fun a => rfl)

theorem whole4_r7 (c : Dev nD) (t : Fin cfg7.N) : (iblk7 V c 4 t : Vec Ideal S1x64 .f32) = V c (Pipeline.arrRef spec7 4) :=
  funext fun y => congrArg (V c (Pipeline.arrRef spec7 4)) (emb_whole (((cfg7.win 4).blk t).view.emb y) y _ ((idx_r7 t).1 4 (by decide) (by decide)) fun a => rfl)

theorem whole5_r7 (c : Dev nD) (t : Fin cfg7.N) : (iblk7 V c 5 t : Vec Ideal S1x64 .f32) = V c (Pipeline.arrRef spec7 5) :=
  funext fun y => congrArg (V c (Pipeline.arrRef spec7 5)) (emb_whole (((cfg7.win 5).blk t).view.emb y) y _ ((idx_r7 t).1 5 (by decide) (by decide)) fun a => rfl)

theorem whole6_r7 (c : Dev nD) (t : Fin cfg7.N) : (iblk7 V c 6 t : Vec Ideal S1x64 .f32) = V c (Pipeline.arrRef spec7 6) :=
  funext fun y => congrArg (V c (Pipeline.arrRef spec7 6)) (emb_whole (((cfg7.win 6).blk t).view.emb y) y _ ((idx_r7 t).1 6 (by decide) (by decide)) fun a => rfl)

theorem whole7_r7 (c : Dev nD) (t : Fin cfg7.N) : (iblk7 V c 7 t : Vec Ideal S1x64 .f32) = V c (Pipeline.arrRef spec7 7) :=
  funext fun y => congrArg (V c (Pipeline.arrRef spec7 7)) (emb_whole (((cfg7.win 7).blk t).view.emb y) y _ ((idx_r7 t).1 7 (by decide) (by decide)) fun a => rfl)

theorem whole8_r7 (c : Dev nD) (t : Fin cfg7.N) : (iblk7 V c 8 t : Vec Ideal S64x64 .f32) = V c (Pipeline.arrRef spec7 8) :=
  funext fun y => congrArg (V c (Pipeline.arrRef spec7 8)) (emb_whole (((cfg7.win 8).blk t).view.emb y) y _ ((idx_r7 t).1 8 (by decide) (by decide)) fun a => rfl)

theorem whole9_r7 (c : Dev nD) (t : Fin cfg7.N) : (iblk7 V c 9 t : Vec Ideal S1x64 .f32) = V c (Pipeline.arrRef spec7 9) :=
  funext fun y => congrArg (V c (Pipeline.arrRef spec7 9)) (emb_whole (((cfg7.win 9).blk t).view.emb y) y _ ((idx_r7 t).1 9 (by decide) (by decide)) fun a => rfl)

/-- Row p of the two feature windows' blocks at point t is row 4096 t + p of their arrays. -/
theorem tile_r7 (c : Dev nD) (t : Fin cfg7.N) (p : Fin 4096) (f : Fin 64) (r : Fin 4096) (hr : r.val = t.val * 4096 + p.val) :
    (iblk7 V c 0 t : Vec Ideal S4096x64 .f32) (ix2 p f) = (V c (Pipeline.arrRef spec7 0) : S4096x64.Idx → EReal) (ix2 r f)
      ∧ (iblk7 V c 1 t : Vec Ideal S4096x64 .f32) (ix2 p f) = (V c (Pipeline.arrRef spec7 1) : S4096x64.Idx → EReal) (ix2 r f) :=
  ⟨congrArg (V c (Pipeline.arrRef spec7 0))
      (emb_tile (((cfg7.win 0).blk t).view.emb (ix2 p f)) ((cfg7.win 0).index t) t.val p f r ((idx_r7 t).2 0 (by decide)) (fun a => rfl) hr),
    congrArg (V c (Pipeline.arrRef spec7 1))
      (emb_tile (((cfg7.win 1).blk t).view.emb (ix2 p f)) ((cfg7.win 1).index t) t.val p f r ((idx_r7 t).2 1 (by decide)) (fun a => rfl) hr)⟩

abbrev G_r7 (c : Dev nD) : S4096x64.Idx → EReal := fun i =>
  Cert.Spec.ginOut (ginWOf (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)))
    (rowSum (V c (Pipeline.arrRef spec7 0)) (V c (Pipeline.arrRef spec7 1)) (i 0)) (i 1)

/-- The tile computed at point t is block t of that array: its input tiles are blocks t of the two feature arrays, its weight blocks the whole weight arrays. -/
theorem flushed_r7 (c : Dev nD) (t : Fin cfg7.N) :
    (dat7 V c).flushed 10 t = ((cfg7.win 10).blk t).view.read (Elt Ideal) (G_r7 V c) := by
  have ht : t.val < grid7.N := t.isLt
  rw [N_7] at ht
  have hx := (idx_r7 t).2
  show (cfg7.win 10).cut (grid7.coords t) ((dat7 V c).after 10 t) = _
  rw [after7_10, show @out7_10 Ideal _ = @out1_10 Ideal _ from rfl]
  refine tile_ext _ _ fun p q => ?_
  have hp : p.val < 4096 := p.isLt
  let r : Fin 4096 := ⟨t.val * 4096 + p.val, by omega⟩
  show _ = G_r7 V c (((cfg7.win 10).blk t).view.emb (ix2 p q))
  rw [emb_tile (((cfg7.win 10).blk t).view.emb (ix2 p q)) ((cfg7.win 10).index t) t.val p q r (hx 10 (by decide)) (fun a => rfl) rfl]
  refine (spec (iblk7 V c 0 t) (iblk7 V c 1 t) _ _ _ _ _ _ _ _ (V c (Pipeline.arrRef spec7 0)) (V c (Pipeline.arrRef spec7 1)) p q r
    (fun f => (tile_r7 V c t p f r rfl).1) (fun f => (tile_r7 V c t p f r rfl).2)).trans ?_
  rw [whole2_r7 V c t, whole3_r7 V c t, whole4_r7 V c t, whole5_r7 V c t, whole6_r7 V c t, whole7_r7 V c t,
    whole8_r7 V c t, whole9_r7 V c t]

/-- Every row of the array lies in the block of some point. -/
theorem cover_r7 (i : S4096x64.Idx) :
    ∃ t : Fin cfg7.N, (cfg7.win 10).flush t = true ∧ i ∈ ((cfg7.win 10).blk t).view.set := by
  obtain ⟨t, h⟩ := cover_tile (n := cfg7.N) (by show _ = grid7.N * 4096; rw [N_7]) (cfg7.win 10).index
    (fun t => (idx_r7 t).2 10 (by decide)) i
  refine ⟨t, flush7_10 t, ?_⟩
  show i ∈ ((View.whole main_v158).slice (win7_10.rect t)).set
  rw [View.set_slice_whole, Rect.mem_set_unit]
  exact h

theorem gin7 (c : Dev nD) :
    (dat7 V c).arrAt 10 cfg7.N
      = fun (i : S4096x64.Idx) => Cert.Spec.ginOut (ginWOf (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)))
          (rowSum (V c (Pipeline.arrRef spec7 0)) (V c (Pipeline.arrRef spec7 1)) (i 0)) (i 1) :=
  (dat7 V c).arrAt_eq_of_cover 10 (G_r7 V c) (fun t _ => flushed_r7 V c t) cover_r7

end Region

end Cert.KernelIdeal.KGin

end
-- ==== Proof.KChain2Tail.lean ====
import proofs.«421097_j4681514352669_2_alg».proof.Proof.Gen.KernelIdeal.Frame
import proofs.«421097_j4681514352669_2_alg».proof.Proof.Spec
import Idealize.ShloMosaic.Lib.Pipeline.Value
import Idealize.ShloMosaic.Lib.ValueIdx
import Idealize.ShloMosaic.Lib.StackMember
import Idealize.ShloMosaic.Lib.StableHlo.Run

set_option maxRecDepth 16384

noncomputable section

namespace Cert.KernelIdeal.KChain

open Cert.KernelIdeal Cert.KernelIdeal.Gen Idealize.ShloMosaic Idealize.ShloMosaic.ValueIdx Idealize.ShloMosaic.TcCoe
open Idealize.SL.Sem

namespace Lvl2

-- Row r of the [4096, 64] array is the (r mod 32)-th block of 64 columns of row r / 32: both sit at offset r * 64 + f.
theorem reshape_rows {α : Type} (x : S128x2048.Idx → α) (h : S128x2048.ShapeCasts S4096x64) (r : Fin 4096) (f : Fin 64) :
    shapeCast S4096x64 x h (ix2 r f)
      = x (ix2 ⟨r.val / 32, by have := r.isLt; omega⟩ ⟨(r.val % 32) * 64 + f.val, by have := f.isLt; omega⟩) := by
  refine shapeCast_apply x h _ _ ?_
  rw [Shape.rowMajor_val_two, Shape.rowMajor_val_two]
  show (r.val / 32) * 2048 + ((r.val % 32) * 64 + f.val) = r.val * 64 + f.val
  omega

theorem reshape_row1 {α : Type} (x : S64.Idx → α) (h : S64.ShapeCasts S1x64) (j : Fin 64) :
    shapeCast S1x64 x h (ix2 0 j) = x (ix1 j) := by
  refine shapeCast_apply x h _ _ ?_
  rw [Shape.rowMajor_val_two, Shape.rowMajor_val_one]
  show j.val = 0 * 64 + j.val
  omega

-- Entry n * 64 + f of graph b's row is entry f of node-major row n * 32 + b: the three layout steps keep the offset.
theorem to_bmajor {α : Type} (x : S4096x64.Idx → α) (h1 : S4096x64.ShapeCasts S128x32x64)
    (h2 : S128x32x64.Transposes [1, 0, 2] S32x128x64) (h3 : S32x128x64.ShapeCasts S32x8192) (b : Fin 32) (j : Fin 8192) :
    shapeCast S32x8192 (transpose S32x128x64 [1, 0, 2] (shapeCast S128x32x64 x h1) h2) h3 (ix2 b j)
      = x (ix2 ⟨(j.val / 64) * 32 + b.val, by have := j.isLt; have := b.isLt; omega⟩ ⟨j.val % 64, Nat.mod_lt _ (by decide)⟩) := by
  have hj := j.isLt
  have hb := b.isLt
  rw [shapeCast_apply _ h3 (ix2 b j) (ix3 b ⟨j.val / 64, by omega⟩ ⟨j.val % 64, Nat.mod_lt _ (by decide)⟩) (by
    rw [Shape.rowMajor_val_two, Shape.rowMajor_val_three]
    show (b.val * 128 + j.val / 64) * 64 + j.val % 64 = b.val * 8192 + j.val
    omega)]
  rw [transpose_apply [1, 0, 2] _ h2 (ix3 b ⟨j.val / 64, by omega⟩ ⟨j.val % 64, Nat.mod_lt _ (by decide)⟩)
    (ix3 ⟨j.val / 64, by omega⟩ b ⟨j.val % 64, Nat.mod_lt _ (by decide)⟩) (fun a => by
      match a with
      | ⟨0, _⟩ => rfl
      | ⟨1, _⟩ => rfl
      | ⟨2, _⟩ => rfl)]
  refine shapeCast_apply x h1 _ _ ?_
  rw [Shape.rowMajor_val_two, Shape.rowMajor_val_three]
  rfl

-- A vector of n entries, n not 1, made one row and then spread over r rows, reads its own entry of the column.
theorem bias_at {α : Type} {r n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![r, n]⟩ ![0, 1])
    (p : Fin r) (q : Fin n) :
    broadcastInDim ⟨2, ![r, n]⟩ ![0, 1] h2 (broadcastInDim ⟨2, ![1, n]⟩ ![1] h1 v) (ix2 p q) = v (ix1 q) := by
  rw [broadcastInDim_apply ![0, 1] h2 _ (ix2 p q) (ix2 0 q) (fun a => by
    match a with
    | ⟨0, _⟩ => rfl
    | ⟨1, _⟩ => exact (if_neg hn).symm)]
  exact broadcastInDim_apply ![1] h1 v (ix2 0 q) (ix1 q) (fun a => by
    match a with
    | ⟨0, _⟩ => exact (if_neg hn).symm)

-- Both readout products are plain matrix products: an entry is the sum over the shared coordinate.
theorem dot1_at (A : FVec Ideal S32x8192 .f32) (B : FVec Ideal S8192x64 .f32) (p : Fin 32) (q : Fin 64) :
    Host.dotGeneral dot_S32x8192_S8192x64_S32x64_1_0_0_1_n_n none A B (ix2 p q) = ∑ k : Fin 8192, A (ix2 p k) * B (ix2 k q) :=
  StackMember.dotGeneral_plain_apply none A B p q

theorem dot2_at (A : FVec Ideal S32x64 .f32) (B : FVec Ideal S64x10 .f32) (p : Fin 32) (q : Fin 10) :
    Host.dotGeneral dot_S32x64_S64x10_S32x10_1_0_0_1_n_n none A B (ix2 p q) = ∑ k : Fin 64, A (ix2 p k) * B (ix2 k q) :=
  StackMember.dotGeneral_plain_apply none A B p q

def hidArr (H : FVec Ideal S4096x64 .f32) (W : FVec Ideal S8192x64 .f32) (bias : FVec Ideal S64 .f32) : FVec Ideal S32x64 .f32 :=
  addf (Host.dotGeneral dot_S32x8192_S8192x64_S32x64_1_0_0_1_n_n none
      (shapeCast S32x8192 (transpose S32x128x64 [1, 0, 2] (shapeCast S128x32x64 H shapeCasts_S4096x64_S128x32x64) transposes_S128x32x64_S32x128x64_1_0_2) shapeCasts_S32x128x64_S32x8192) W)
    (broadcastInDim S32x64 ![0, 1] bcast_S1x64_S32x64_0_1 (broadcastInDim S1x64 ![1] bcast_S64_S1x64_1 bias))

theorem hidArr_apply (H : FVec Ideal S4096x64 .f32) (W : FVec Ideal S8192x64 .f32) (bias : FVec Ideal S64 .f32) (b : Fin 32) (c : Fin 64) :
    hidArr H W bias (ix2 b c)
      = (∑ j : Fin 8192, H (ix2 ⟨(j.val / 64) * 32 + b.val, by have := j.isLt; have := b.isLt; omega⟩ ⟨j.val % 64, Nat.mod_lt _ (by decide)⟩)
          * W (ix2 j c)) + bias (ix1 c) := by
  unfold hidArr
  rw [ValueIdx.addf_apply, dot1_at, bias_at (n := 64) (by decide)]
  refine congrArg (· + _) (Finset.sum_congr rfl fun j _ => ?_)
  rw [to_bmajor]

def rectArr (X : FVec Ideal S32x64 .f32) : FVec Ideal S32x64 .f32 :=
  maximumf X (broadcastInDim S32x64 ![] bcast_S_S32x64 (constant (F := Ideal) S_ .f32 0x00000000#32))

theorem rectArr_apply (X : FVec Ideal S32x64 .f32) (b : Fin 32) (c : Fin 64) :
    rectArr X (ix2 b c) = max (X (ix2 b c)) Cert.Spec.zero := rfl

def finArr (X : FVec Ideal S32x64 .f32) (W : FVec Ideal S64x10 .f32) (bias : FVec Ideal S10 .f32) : FVec Ideal S32x10 .f32 :=
  addf (Host.dotGeneral dot_S32x64_S64x10_S32x10_1_0_0_1_n_n none X W)
    (broadcastInDim S32x10 ![0, 1] bcast_S1x10_S32x10_0_1 (broadcastInDim S1x10 ![1] bcast_S10_S1x10_1 bias))

theorem finArr_apply (X : FVec Ideal S32x64 .f32) (W : FVec Ideal S64x10 .f32) (bias : FVec Ideal S10 .f32) (p : Fin 32) (q : Fin 10) :
    finArr X W bias (ix2 p q) = (∑ k : Fin 64, X (ix2 p k) * W (ix2 k q)) + bias (ix1 q) := by
  unfold finArr
  rw [ValueIdx.addf_apply, dot2_at, bias_at (n := 10) (by decide)]

theorem tail1 (V : Valuation τ sig (Elt Ideal)) :
    StableHlo.after (hostOps8 (F := Ideal)) V (Proc.devRef .tc main_v165)
      = hidArr (V (Proc.devRef .tc main_v158)) (V (Proc.devRef .tc main_arg31)) (V (Proc.devRef .tc main_arg32)) := by
  dsimp only [hostOps8]; after_results; rfl

theorem tail2 (V : Valuation τ sig (Elt Ideal)) :
    StableHlo.after (hostOps8_1 (F := Ideal)) V (Proc.devRef .tc main_v166) = rectArr (V (Proc.devRef .tc main_v165)) := by
  dsimp only [hostOps8_1]; after_results; rfl

theorem tail3 (V : Valuation τ sig (Elt Ideal)) :
    StableHlo.after (hostOps8_2 (F := Ideal)) V (Proc.devRef .tc main_v170)
      = finArr (V (Proc.devRef .tc main_v166)) (V (Proc.devRef .tc main_arg33)) (V (Proc.devRef .tc main_arg34)) := by
  dsimp only [hostOps8_2]; after_results; rfl

end Lvl2

end Cert.KernelIdeal.KChain

end
-- ==== Proof.KChain2.lean ====
import proofs.«421097_j4681514352669_2_alg».proof.Proof.Gen.KernelIdeal.Frame
import proofs.«421097_j4681514352669_2_alg».proof.Proof.KHost0
import proofs.«421097_j4681514352669_2_alg».proof.Proof.KMat6
import proofs.«421097_j4681514352669_2_alg».proof.Proof.KGin7
import proofs.«421097_j4681514352669_2_alg».proof.Proof.KChain2Tail
import proofs.«421097_j4681514352669_2_alg».proof.Proof.Spec
import proofs.«421097_j4681514352669_2_alg».proof.Proof.Net
import proofs.«421097_j4681514352669_2_alg».proof.Proof.Args
import proofs.«421097_j4681514352669_2_alg».proof.Proof.Layout
import Idealize.ShloMosaic.Lib.Pipeline.Value
import Idealize.ShloMosaic.Lib.ValueIdx
import Idealize.ShloMosaic.Lib.StableHlo.Run

set_option maxRecDepth 16384

noncomputable section

namespace Cert.KernelIdeal.KChain

open Cert.KernelIdeal Cert.KernelIdeal.Gen Idealize.ShloMosaic Idealize.ShloMosaic.ValueIdx Idealize.ShloMosaic.TcCoe
open Idealize.SL.Sem
open Cert.Spec Cert.Net

namespace Lvl2

abbrev agg2 (a : Args) : Feat 128 :=
  fun b n f => segSum (srcOf 128 (by decide) a.i2) (dstOf 128 (by decide) a.i2) (fun s => P2 a b s f) n

-- The count matrix times the features, column by column, adds the features of the sources of the edges into each node.
theorem agg_cols (a : Args) (A : S128x128.Idx → EReal) (X : S128x2048.Idx → EReal)
    (hA : ∀ (p s : Fin 128), A (ix2 p s) = zero + ∑ _k ∈ Finset.univ.filter (fun k : Fin 2048 =>
      dstOf 128 (by decide) a.i2 k = p ∧ srcOf 128 (by decide) a.i2 k = s), one)
    (hX : ∀ (s : Fin 128) (q : Fin 2048), X (ix2 s q) = cols (P2 a) (ix2 s q)) (p : Fin 128) (q : Fin 2048) :
    KMat.prod6 A X (ix2 p q) = cols (agg2 a) (ix2 p q) := by
  rw [KMat.prod6_apply, ← Cert.Layout.cols_matmul_adj_apply (srcOf 128 (by decide) a.i2) (dstOf 128 (by decide) a.i2) (P2 a) p q]
  exact Finset.sum_congr rfl fun s _ => by rw [hA p s, hX s q]

def toRows (X : FVec Ideal S128x2048 .f32) : FVec Ideal S4096x64 .f32 := shapeCast S4096x64 X shapeCasts_S128x2048_S4096x64

theorem toRows_cols (T : Feat 128) (X : FVec Ideal S128x2048 .f32) (hX : ∀ (n : Fin 128) (j : Fin 2048), X (ix2 n j) = cols T (ix2 n j))
    (r : Fin 4096) (f : Fin 64) : toRows X (ix2 r f) = rows T (ix2 r f) := by
  unfold toRows
  rw [reshape_rows, hX]
  exact (Cert.Layout.rows_eq_cols_apply T r f).symm

def toRow1 (v : FVec Ideal S64 .f32) : FVec Ideal S1x64 .f32 := shapeCast S1x64 v shapeCasts_S64_S1x64

theorem row1_toRow1 (v : FVec Ideal S64 .f32) : KGin.row1 (toRow1 v) = v := by
  funext j
  obtain ⟨k, rfl⟩ : ∃ k : Fin 64, j = ix1 k := ⟨j 0, eq_ix1 j⟩
  exact reshape_row1 v _ k

theorem gin_rows (a : Args) (X Agg : S4096x64.Idx → EReal) (P : GinW) (hP : P = a.gin2)
    (hX : ∀ (r : Fin 4096) (f : Fin 64), X (ix2 r f) = rows (P2 a) (ix2 r f))
    (hAgg : ∀ (r : Fin 4096) (f : Fin 64), Agg (ix2 r f) = rows (agg2 a) (ix2 r f)) (r : Fin 4096) (f : Fin 64) :
    ginOut P (KGin.rowSum X Agg r) f = rows (L2 a) (ix2 r f) := by
  subst hP
  have e : KGin.rowSum X Agg r = fun f' => rows (P2 a) (ix2 r f') + rows (agg2 a) (ix2 r f') :=
    funext fun f' => by rw [KGin.rowSum_apply, hX, hAgg]
  rw [e]
  exact Cert.Layout.rows_conv_apply a.gin2 (srcOf 128 (by decide) a.i2) (dstOf 128 (by decide) a.i2) (P2 a) r f

theorem readout (a : Args) (H : FVec Ideal S4096x64 .f32) (hH : ∀ (r : Fin 4096) (f : Fin 64), H (ix2 r f) = rows (L2 a) (ix2 r f)) :
    finArr (rectArr (hidArr H a.lin1_w a.lin1_b)) a.lin2_w a.lin2_b = Cert.Net.out a := by
  funext i
  obtain ⟨p, q, rfl⟩ : ∃ p q, i = ix2 p q := ⟨i 0, i 1, eq_ix2 i⟩
  rw [finArr_apply]
  show _ = (∑ c : Fin 64, R1 a p c * a.lin2_w (ix2 c q)) + a.lin2_b (ix1 q)
  refine congrArg (· + _) (Finset.sum_congr rfl fun k _ => congrArg (· * _) ?_)
  rw [rectArr_apply, Cert.Layout.R1_of_rows, hidArr_apply]
  refine congrArg (fun t => max (t + _) _) (Finset.sum_congr rfl fun j _ => ?_)
  rw [hH]

-- The host stretches in program order, each with the references its operations write.
def st : Nat → List (HloOp τ sig (Elt Ideal)) × List (Ref sig .tc)
  | 0 => (hostOps1, [main_v118, main_v119, main_v120, main_v121, main_v122, main_v123, main_v124, main_v125])
  | 1 => (hostOps2, [main_v127, main_v128])
  | 2 => (hostOps3, [main_v130, main_v131, main_v132])
  | 3 => (hostOps4, [main_v134, main_v135, main_v136, main_v137, main_v138, main_v139, main_v140, main_v141])
  | 4 => (hostOps5, [main_v143, main_v144])
  | 5 => (hostOps6, [main_v146, main_v147, main_v148])
  | 6 => (hostOps7, [main_v150, main_v151, main_v152, main_v153, main_v154, main_v155, main_v156, main_v157])
  | 7 => (hostOps8, [main_v159, main_v160, main_v161, main_v162, main_v163, main_v164, main_v165])
  | 8 => (hostOps8_1, [main_call0_cst, main_call0_v0, main_v166])
  | 9 => (hostOps8_2, [main_v167, main_v168, main_v169, main_v170])
  | _ => ([], [])

theorem writes : ∀ i, (st i).1.Forall fun op => op.writes ⊆ ((st i).2.map (Proc.devRef (τ := τ) .tc)).toFinset
  | 0 | 1 | 2 | 3 | 4 | 5 | 6 | 7 | 8 | 9 => by
    simp only [st, List.Forall, StableHlo.nullary_writes, StableHlo.unary_writes, StableHlo.binary_writes, StableHlo.reshape_writes,
      Finset.singleton_subset_iff, List.mem_toFinset]
    repeat' apply And.intro
    all_goals exact List.mem_map_of_mem (by decide)
  | _ + 10 => trivial

-- A reference a stretch does not write holds after it what it held before.
theorem keep (i : Nat) (V : Valuation τ sig (Elt Ideal)) (r : Ref sig .tc) (h : r ∉ (st i).2) :
    StableHlo.after (st i).1 V (Proc.devRef .tc r) = V (Proc.devRef .tc r) :=
  StableHlo.after_of_writes_sub _ V (writes i) h

variable (m : (ℓ : Loc nD τ sig) → Buf (Elt Ideal) ℓ) (ρ : Dev nD → PrngReg)

-- What the stretch between the two regions writes, as terms of what it reads.
theorem mid (c : Dev nD) :
    W15 m ρ c (Proc.devRef .tc main_v150) = toRows (W14 m ρ c (Proc.devRef .tc main_v147)) ∧
    W15 m ρ c (Proc.devRef .tc main_v151) = toRows (W14 m ρ c (Proc.devRef .tc main_v149)) ∧
    W15 m ρ c (Proc.devRef .tc main_v152) = toRow1 (W14 m ρ c (Proc.devRef .tc main_arg24)) ∧
    W15 m ρ c (Proc.devRef .tc main_v153) = toRow1 (W14 m ρ c (Proc.devRef .tc main_arg25)) ∧
    W15 m ρ c (Proc.devRef .tc main_v154) = toRow1 (W14 m ρ c (Proc.devRef .tc main_arg26)) ∧
    W15 m ρ c (Proc.devRef .tc main_v155) = toRow1 (W14 m ρ c (Proc.devRef .tc main_arg27)) ∧
    W15 m ρ c (Proc.devRef .tc main_v156) = toRow1 (W14 m ρ c (Proc.devRef .tc main_arg28)) ∧
    W15 m ρ c (Proc.devRef .tc main_v157) = toRow1 (W14 m ρ c (Proc.devRef .tc main_arg30)) := by
  refine ⟨?_, ?_, ?_, ?_, ?_, ?_, ?_, ?_⟩ <;>
  · show StableHlo.after hostOps7 (W14 m ρ c) _ = _
    dsimp only [hostOps7]
    after_results
    rfl

-- The level-2 count matrix is built before the first region and nothing after writes it.
theorem v112_at13 (c : Dev nD) : W13 m ρ c (Proc.devRef .tc main_v112) = W1 m ρ c (Proc.devRef .tc main_v112) :=
  (keep 5 _ _ (by decide)).trans <| (W12_of_ne m ρ c _ (by decide)).trans <| (keep 4 _ _ (by decide)).trans <|
  (W10_of_ne m ρ c _ (by decide)).trans <| (keep 3 _ _ (by decide)).trans <| (W8_of_ne m ρ c _ (by decide)).trans <|
  (keep 2 _ _ (by decide)).trans <| (W6_of_ne m ρ c _ (by decide)).trans <| (keep 1 _ _ (by decide)).trans <|
  (W4_of_ne m ρ c _ (by decide)).trans <| (keep 0 _ _ (by decide)).trans (W2_of_ne m ρ c _ (by decide))

-- A reference with known final contents that the last three stretches do not write holds them after the perceptron region.
theorem from16 (c : Dev nD) {r : Ref sig .tc} {x} (e : W19 m ρ c (Proc.devRef .tc r) = x) (h : ∀ i ∈ [7, 8, 9], r ∉ (st i).2) :
    W16 m ρ c (Proc.devRef .tc r) = x :=
  ((keep 9 _ r (h 9 (by decide))).trans ((keep 8 _ r (h 8 (by decide))).trans (keep 7 _ r (h 7 (by decide))))).symm.trans e

-- The same from the entry of the perceptron region, for a reference that is none of the region's arrays.
theorem from14 (c : Dev nD) {r : Ref sig .tc} {x} (e : W19 m ρ c (Proc.devRef .tc r) = x) (hreg : ∀ w, Pipeline.arrRef spec7 w ≠ r)
    (h : ∀ i ∈ [6, 7, 8, 9], r ∉ (st i).2) : W14 m ρ c (Proc.devRef .tc r) = x :=
  ((keep 6 _ r (h 6 (by decide))).symm.trans (W16_of_ne m ρ c r hreg).symm).trans
    (from16 m ρ c e fun i hi => h i (List.mem_cons_of_mem _ hi))

-- An array the perceptron region only reads leaves it as it entered.
theorem in15 (c : Dev nD) (w : Fin cfg7.W) (hin : (cfg7.win w).isOut = false) {x}
    (e : W19 m ρ c (Proc.devRef .tc (Pipeline.arrRef spec7 w)) = x) (h : ∀ i ∈ [7, 8, 9], Pipeline.arrRef spec7 w ∉ (st i).2) :
    W15 m ρ c (Proc.devRef .tc (Pipeline.arrRef spec7 w)) = x :=
  ((W16_arr m ρ c w).trans (((dat7 (V15 m ρ) c).arrAt_in w hin _).trans (A_eq7 (V15 m ρ) c w))).symm.trans (from16 m ρ c e h)

theorem v149_at14 (c : Dev nD) (hr : (Cert.KernelIdeal.argsOf m c).Ranges)
    (h148 : ∀ (p : Fin 128) (q : Fin 2048), (W13 (F := Ideal) m ρ c (Proc.devRef .tc main_v148) : S128x2048.Idx → EReal) (ix2 p q)
      = cols (P2 (Cert.KernelIdeal.argsOf m c)) (ix2 p q)) (p : Fin 128) (q : Fin 2048) :
    (W14 (F := Ideal) m ρ c (Proc.devRef .tc main_v149) : S128x2048.Idx → EReal) (ix2 p q)
      = cols (agg2 (Cert.KernelIdeal.argsOf m c)) (ix2 p q) := by
  have e : W14 (F := Ideal) m ρ c (Proc.devRef .tc main_v149)
      = KMat.prod6 (W13 m ρ c (Proc.devRef .tc main_v112)) (W13 m ρ c (Proc.devRef .tc main_v148)) :=
    (W14_arr m ρ c 2).trans (KMat.mat6 (V13 m ρ) c)
  rw [e]
  exact agg_cols (Cert.KernelIdeal.argsOf m c) _ _
    (fun p s => (congrFun (v112_at13 m ρ c) (ix2 p s)).trans (KHost0.adjI2 m ρ c hr.i2s hr.i2d p s)) h148 p q

theorem weights_at15 (c : Dev nD) :
    KGin.ginWOf (V15 m ρ c (Pipeline.arrRef spec7 2)) (V15 m ρ c (Pipeline.arrRef spec7 3)) (V15 m ρ c (Pipeline.arrRef spec7 4))
      (V15 m ρ c (Pipeline.arrRef spec7 5)) (V15 m ρ c (Pipeline.arrRef spec7 6)) (V15 m ρ c (Pipeline.arrRef spec7 7))
      (V15 m ρ c (Pipeline.arrRef spec7 8)) (V15 m ρ c (Pipeline.arrRef spec7 9)) = (Cert.KernelIdeal.argsOf m c).gin2 := by
  obtain ⟨-, -, e2, e3, e4, e5, e6, e7⟩ := mid m ρ c
  have e0 : W15 m ρ c (Proc.devRef .tc main_arg23) = _ := in15 m ρ c 2 rfl (W19_main_arg23 m ρ c) (by decide)
  have e8 : W15 m ρ c (Proc.devRef .tc main_arg29) = _ := in15 m ρ c 8 rfl (W19_main_arg29 m ρ c) (by decide)
  show KGin.ginWOf (W15 m ρ c (Proc.devRef .tc main_arg23)) (W15 m ρ c (Proc.devRef .tc main_v152)) (W15 m ρ c (Proc.devRef .tc main_v153))
      (W15 m ρ c (Proc.devRef .tc main_v154)) (W15 m ρ c (Proc.devRef .tc main_v155)) (W15 m ρ c (Proc.devRef .tc main_v156))
      (W15 m ρ c (Proc.devRef .tc main_arg29)) (W15 m ρ c (Proc.devRef .tc main_v157)) = _
  rw [e0, e8, e2, e3, e4, e5, e6, e7, from14 m ρ c (W19_main_arg24 m ρ c) (by decide) (by decide),
    from14 m ρ c (W19_main_arg25 m ρ c) (by decide) (by decide), from14 m ρ c (W19_main_arg26 m ρ c) (by decide) (by decide),
    from14 m ρ c (W19_main_arg27 m ρ c) (by decide) (by decide), from14 m ρ c (W19_main_arg28 m ρ c) (by decide) (by decide),
    from14 m ρ c (W19_main_arg30 m ρ c) (by decide) (by decide)]
  unfold KGin.ginWOf
  simp only [row1_toRow1]
  rfl

theorem v158_at16 (c : Dev nD) (hr : (Cert.KernelIdeal.argsOf m c).Ranges)
    (h147 : ∀ (p : Fin 128) (q : Fin 2048), (W13 (F := Ideal) m ρ c (Proc.devRef .tc main_v147) : S128x2048.Idx → EReal) (ix2 p q)
      = cols (P2 (Cert.KernelIdeal.argsOf m c)) (ix2 p q))
    (h148 : ∀ (p : Fin 128) (q : Fin 2048), (W13 (F := Ideal) m ρ c (Proc.devRef .tc main_v148) : S128x2048.Idx → EReal) (ix2 p q)
      = cols (P2 (Cert.KernelIdeal.argsOf m c)) (ix2 p q)) (r : Fin 4096) (f : Fin 64) :
    (W16 (F := Ideal) m ρ c (Proc.devRef .tc main_v158) : S4096x64.Idx → EReal) (ix2 r f)
      = rows (L2 (Cert.KernelIdeal.argsOf m c)) (ix2 r f) := by
  have e : W16 (F := Ideal) m ρ c (Proc.devRef .tc main_v158) = _ := (W16_arr m ρ c 10).trans (KGin.gin7 (V15 m ρ) c)
  refine (congrFun e (ix2 r f)).trans ?_
  refine gin_rows (Cert.KernelIdeal.argsOf m c) _ _ _ (weights_at15 m ρ c) (fun r f => ?_) (fun r f => ?_) r f
  · show (W15 m ρ c (Proc.devRef .tc main_v150) : S4096x64.Idx → EReal) (ix2 r f) = _
    rw [(mid m ρ c).1]
    exact toRows_cols _ _ (fun n j => (congrFun (W14_of_ne m ρ c main_v147 (by decide)) (ix2 n j)).trans (h147 n j)) r f
  · show (W15 m ρ c (Proc.devRef .tc main_v151) : S4096x64.Idx → EReal) (ix2 r f) = _
    rw [(mid m ρ c).2.1]
    exact toRows_cols _ _ (v149_at14 m ρ c hr h148) r f

end Lvl2

theorem lvl2 (m : (ℓ : Loc nD τ sig) → Buf (Elt Ideal) ℓ) (ρ : Dev nD → PrngReg) (c : Dev nD)
    (hr : (Cert.KernelIdeal.argsOf m c).Ranges)
    (h147 : ∀ (p : Fin 128) (q : Fin 2048), (Gen.W13 (F := Ideal) m ρ c (Proc.devRef .tc main_v147) : S128x2048.Idx → EReal) (ix2 p q)
      = Cert.Net.cols (Cert.Net.P2 (Cert.KernelIdeal.argsOf m c)) (ix2 p q))
    (h148 : ∀ (p : Fin 128) (q : Fin 2048), (Gen.W13 (F := Ideal) m ρ c (Proc.devRef .tc main_v148) : S128x2048.Idx → EReal) (ix2 p q)
      = Cert.Net.cols (Cert.Net.P2 (Cert.KernelIdeal.argsOf m c)) (ix2 p q)) :
    (Gen.W19 (F := Ideal) m ρ c (Proc.devRef .tc main_v170) : S32x10.Idx → EReal) = Cert.Net.out (Cert.KernelIdeal.argsOf m c) := by
  have e19 := Lvl2.tail3 (W18 m ρ c)
  have e17 := Lvl2.tail1 (W16 m ρ c)
  rw [(Lvl2.keep 9 _ _ (by decide)).symm.trans (W19_main_arg33 m ρ c),
    (Lvl2.keep 9 _ _ (by decide)).symm.trans (W19_main_arg34 m ρ c)] at e19
  rw [Lvl2.from16 m ρ c (W19_main_arg31 m ρ c) (by decide), Lvl2.from16 m ρ c (W19_main_arg32 m ρ c) (by decide)] at e17
  refine (e19.trans ?_).trans (Lvl2.readout (Cert.KernelIdeal.argsOf m c) (W16 m ρ c (Proc.devRef .tc main_v158))
    (Lvl2.v158_at16 m ρ c hr h147 h148))
  exact congrArg (fun X => Lvl2.finArr X _ _) ((Lvl2.tail2 (W17 m ρ c)).trans (congrArg Lvl2.rectArr e17))

end Cert.KernelIdeal.KChain

end
-- ==== Proof.RefRunFast.lean ====
import proofs.«421097_j4681514352669_2_alg».proof.Proof.RefRead
import proofs.«421097_j4681514352669_2_alg».proof.Proof.Gen.ReferenceIdeal
import Idealize.ShloMosaic.Lib.StableHlo.Run

noncomputable section

namespace Cert.ReferenceIdeal.ValueFast

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Running two lists of operations one after the other is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 16384 in
set_option maxHeartbeats 4000000 in
abbrev ops0 : List (HloOp τ sig (Elt F)) :=
  [ nullary main_v0 (iotaInDim S32 32 0),
    nullary main_c (constantI S_ 32 8192#32),
    unary main_c main_v1 (broadcastInDim S32 ![] bcast_S_S32),
    binary main_v0 main_v1 main_v2 muli,
    unary main_v2 main_v3 (broadcastInDim S32x1 ![0] bcast_S32_S32x1_0),
    nullary main_v4 (iotaInDim S32 32 0),
    nullary main_c_0 (constantI S_ 32 8192#32),
    unary main_c_0 main_v5 (broadcastInDim S32 ![] bcast_S_S32),
    binary main_v4 main_v5 main_v6 muli,
    unary main_v6 main_v7 (broadcastInDim S32x1 ![0] bcast_S32_S32x1_0),
    unary main_arg2 main_v8 (extractStridedSlice S1x65536 ![0, 0] · slices_S2x65536_S1x65536_0_0),
    reshape main_v8 main_v9 rfl shapeCasts_S1x65536_S65536,
    unary main_v9 main_v10 (broadcastInDim S1x65536 ![1] bcast_S65536_S1x65536_1),
    unary main_v10 main_v11 (broadcastInDim S32x65536 ![0, 1] bcast_S1x65536_S32x65536_0_1),
    unary main_v3 main_v12 (broadcastInDim S32x65536 ![0, 1] bcast_S32x1_S32x65536_0_1),
    binary main_v11 main_v12 main_v13 addi,
    reshape main_v13 main_v14 rfl shapeCasts_S32x65536_S2097152,
    unary main_arg2 main_v15 (extractStridedSlice S1x65536 ![1, 0] · slices_S2x65536_S1x65536_1_0),
    reshape main_v15 main_v16 rfl shapeCasts_S1x65536_S65536,
    unary main_v16 main_v17 (broadcastInDim S1x65536 ![1] bcast_S65536_S1x65536_1),
    unary main_v17 main_v18 (broadcastInDim S32x65536 ![0, 1] bcast_S1x65536_S32x65536_0_1),
    unary main_v7 main_v19 (broadcastInDim S32x65536 ![0, 1] bcast_S32x1_S32x65536_0_1),
    binary main_v18 main_v19 main_v20 addi,
    reshape main_v20 main_v21 rfl shapeCasts_S32x65536_S2097152,
    nullary main_c_1 (constantI S_ 32 0#32),
    unary main_c_1 main_v22 (broadcastInDim S2097152 ![] bcast_S_S2097152),
    binary main_v14 main_v22 main_v23 (cmpi .slt),
    nullary main_c_2 (constantI S_ 32 262144#32),
    unary main_c_2 main_v24 (broadcastInDim S2097152 ![] bcast_S_S2097152),
    binary main_v14 main_v24 main_v25 addi,
    ternary main_v23 main_v25 main_v14 main_v26 select,
    unary main_v26 main_v27 (broadcastInDim S2097152x1 ![0] bcast_S2097152_S2097152x1_0),
    binary main_arg0 main_v27 main_v28 (fun x i => Host.gather gather_S262144x64_S2097152x1_S2097152x64_1_0_n_n_0_1_164 x i),
    nullary main_cst (constant S_ .f32 0x00000000#32),
    unary main_cst main_v29 (broadcastInDim S262144x64 ![] bcast_S_S262144x64),
    unary main_v21 main_v30 (broadcastInDim S2097152x1 ![0] bcast_S2097152_S2097152x1_0),
    ternary main_v29 main_v30 main_v28 main_v31 (fun x i u => Host.scatterAdd scatter_S262144x64_S2097152x1_S2097152x64_1_0_0_1 x i u),
    binary main_arg0 main_v31 main_v32 addf,
    binary main_v32 main_arg7 main_v33 (fun l r => Host.dotGeneral dot_S262144x64_S64x64_S262144x64_1_0_0_1_n_n none l r),
    unary main_arg8 main_v34 (broadcastInDim S1x64 ![1] bcast_S64_S1x64_1),
    unary main_v34 main_v35 (broadcastInDim S262144x64 ![0, 1] bcast_S1x64_S262144x64_0_1),
    binary main_v33 main_v35 main_v36 addf,
    unary main_arg11 main_v37 (broadcastInDim S1x64 ![1] bcast_S64_S1x64_1),
    unary main_v37 main_v38 (broadcastInDim S262144x64 ![0, 1] bcast_S1x64_S262144x64_0_1),
    binary main_v36 main_v38 main_v39 subf,
    nullary main_cst_3 (constant S_ .f32 0x3727C5AC#32),
    unary main_cst_3 main_v40 (broadcastInDim S64 ![] bcast_S_S64),
    binary main_arg12 main_v40 main_v41 addf,
    unary main_v41 main_v42 (Host.rsqrt),
    unary main_v42 main_v43 (broadcastInDim S1x64 ![1] bcast_S64_S1x64_1),
    unary main_v43 main_v44 (broadcastInDim S262144x64 ![0, 1] bcast_S1x64_S262144x64_0_1),
    binary main_v39 main_v44 main_v45 mulf,
    unary main_arg9 main_v46 (broadcastInDim S1x64 ![1] bcast_S64_S1x64_1),
    unary main_v46 main_v47 (broadcastInDim S262144x64 ![0, 1] bcast_S1x64_S262144x64_0_1),
    binary main_v45 main_v47 main_v48 mulf,
    unary main_arg10 main_v49 (broadcastInDim S1x64 ![1] bcast_S64_S1x64_1),
    unary main_v49 main_v50 (broadcastInDim S262144x64 ![0, 1] bcast_S1x64_S262144x64_0_1),
    binary main_v48 main_v50 main_v51 addf,
    TRef.nullary (TRef.of (T := ⟨S_, .f32⟩) main_call0_cst) (constant S_ .f32 0x00000000#32),
    TRef.unary (TRef.of (T := ⟨S_, .f32⟩) main_call0_cst) (TRef.of (T := ⟨S262144x64, .f32⟩) main_call0_v0) (broadcastInDim S262144x64 ![] bcast_S_S262144x64),
    TRef.binary (TRef.of (T := ⟨S262144x64, .f32⟩) main_v51) (TRef.of (T := ⟨S262144x64, .f32⟩) main_call0_v0) (TRef.of (T := ⟨S262144x64, .f32⟩) main_v52) maximumf,
    binary main_v52 main_arg13 main_v53 ((fun l r => Host.dotGeneral dot_S262144x64_S64x64_S262144x64_1_0_0_1_n_n none l r)) ]

set_option maxRecDepth 16384 in
set_option maxHeartbeats 4000000 in
theorem main_part0_eq (c : Dev nD) : main_part0 (F := F) c = seq ops0 := rfl

set_option maxRecDepth 16384 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 16384 in
theorem ops0_fresh : (ops0 : List (HloOp τ sig (Elt F))).Forall fun op => op.fresh = ∅ := by
  simp only [List.Forall]
  and_intros <;> rfl

abbrev ops0_W : List (Ref sig .tc) := [main_v0, main_c, main_v1, main_v2, main_v3, main_v4, main_c_0, main_v5, main_v6, main_v7, main_v8, main_v9, main_v10, main_v11, main_v12, main_v13, main_v14, main_v15, main_v16, main_v17, main_v18, main_v19, main_v20, main_v21, main_c_1, main_v22, main_v23, main_c_2, main_v24, main_v25, main_v26, main_v27, main_v28, main_cst, main_v29, main_v30, main_v31, main_v32, main_v33, main_v34, main_v35, main_v36, main_v37, main_v38, main_v39, main_cst_3, main_v40, main_v41, main_v42, main_v43, main_v44, main_v45, main_v46, main_v47, main_v48, main_v49, main_v50, main_v51, main_call0_cst, main_call0_v0, main_v52, main_v53]

set_option maxRecDepth 16384 in
set_option maxHeartbeats 4000000 in
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)

set_option maxRecDepth 16384 in
set_option maxHeartbeats 4000000 in
abbrev ops1 : List (HloOp τ sig (Elt F)) :=
  [ unary main_arg14 main_v54 (broadcastInDim S1x64 ![1] bcast_S64_S1x64_1),
    unary main_v54 main_v55 (broadcastInDim S262144x64 ![0, 1] bcast_S1x64_S262144x64_0_1),
    binary main_v53 main_v55 main_v56 addf,
    TRef.nullary (TRef.of (T := ⟨S_, .f32⟩) main_call1_cst) (constant S_ .f32 0x00000000#32),
    TRef.unary (TRef.of (T := ⟨S_, .f32⟩) main_call1_cst) (TRef.of (T := ⟨S262144x64, .f32⟩) main_call1_v0) (broadcastInDim S262144x64 ![] bcast_S_S262144x64),
    TRef.binary (TRef.of (T := ⟨S262144x64, .f32⟩) main_v56) (TRef.of (T := ⟨S262144x64, .f32⟩) main_call1_v0) (TRef.of (T := ⟨S262144x64, .f32⟩) main_v57) maximumf,
    nullary main_v58 (iotaInDim S32 32 0),
    nullary main_c_4 (constantI S_ 32 8192#32),
    unary main_c_4 main_v59 (broadcastInDim S32 ![] bcast_S_S32),
    binary main_v58 main_v59 main_v60 muli,
    unary main_v60 main_v61 (broadcastInDim S32x1 ![0] bcast_S32_S32x1_0),
    nullary main_v62 (iotaInDim S32 32 0),
    nullary main_c_5 (constantI S_ 32 1024#32),
    unary main_c_5 main_v63 (broadcastInDim S32 ![] bcast_S_S32),
    binary main_v62 main_v63 main_v64 muli,
    unary main_v64 main_v65 (broadcastInDim S32x1 ![0] bcast_S32_S32x1_0),
    unary main_arg3 main_v66 (extractStridedSlice S1x16384 ![0, 0] · slices_S2x16384_S1x16384_0_0),
    reshape main_v66 main_v67 rfl shapeCasts_S1x16384_S16384,
    unary main_v67 main_v68 (broadcastInDim S1x16384 ![1] bcast_S16384_S1x16384_1),
    unary main_v68 main_v69 (broadcastInDim S32x16384 ![0, 1] bcast_S1x16384_S32x16384_0_1),
    unary main_v61 main_v70 (broadcastInDim S32x16384 ![0, 1] bcast_S32x1_S32x16384_0_1),
    binary main_v69 main_v70 main_v71 addi,
    reshape main_v71 main_v72 rfl shapeCasts_S32x16384_S524288,
    unary main_arg3 main_v73 (extractStridedSlice S1x16384 ![1, 0] · slices_S2x16384_S1x16384_1_0),
    reshape main_v73 main_v74 rfl shapeCasts_S1x16384_S16384,
    unary main_v74 main_v75 (broadcastInDim S1x16384 ![1] bcast_S16384_S1x16384_1),
    unary main_v75 main_v76 (broadcastInDim S32x16384 ![0, 1] bcast_S1x16384_S32x16384_0_1),
    unary main_v65 main_v77 (broadcastInDim S32x16384 ![0, 1] bcast_S32x1_S32x16384_0_1),
    binary main_v76 main_v77 main_v78 addi,
    reshape main_v78 main_v79 rfl shapeCasts_S32x16384_S524288,
    nullary main_c_6 (constantI S_ 32 0#32),
    unary main_c_6 main_v80 (broadcastInDim S524288 ![] bcast_S_S524288),
    binary main_v72 main_v80 main_v81 (cmpi .slt),
    nullary main_c_7 (constantI S_ 32 262144#32),
    unary main_c_7 main_v82 (broadcastInDim S524288 ![] bcast_S_S524288),
    binary main_v72 main_v82 main_v83 addi,
    ternary main_v81 main_v83 main_v72 main_v84 select,
    unary main_v84 main_v85 (broadcastInDim S524288x1 ![0] bcast_S524288_S524288x1_0),
    binary main_v57 main_v85 main_v86 (fun x i => Host.gather gather_S262144x64_S524288x1_S524288x64_1_0_n_n_0_1_164 x i),
    nullary main_cst_8 (constant S_ .f32 0x00000000#32),
    unary main_cst_8 main_v87 (broadcastInDim S32768x64 ![] bcast_S_S32768x64),
    unary main_v79 main_v88 (broadcastInDim S524288x1 ![0] bcast_S524288_S524288x1_0),
    ternary main_v87 main_v88 main_v86 main_v89 (fun x i u => Host.scatterAdd scatter_S32768x64_S524288x1_S524288x64_1_0_0_1 x i u),
    nullary main_cst_9 (constant S_ .f32 0x3F800000#32),
    unary main_cst_9 main_v90 (broadcastInDim S524288 ![] bcast_S_S524288),
    nullary main_cst_10 (constant S_ .f32 0x00000000#32),
    unary main_cst_10 main_v91 (broadcastInDim S32768 ![] bcast_S_S32768),
    unary main_v79 main_v92 (broadcastInDim S524288x1 ![0] bcast_S524288_S524288x1_0),
    ternary main_v91 main_v92 main_v90 main_v93 (fun x i u => Host.scatterAdd scatter_S32768_S524288x1_S524288_n_0_0_1 x i u),
    nullary main_cst_11 (constant S_ .f32 0x3F800000#32),
    unary main_cst_11 main_v94 (broadcastInDim S32768 ![] bcast_S_S32768),
    binary main_v93 main_v94 main_v95 maximumf,
    unary main_v95 main_v96 (broadcastInDim S32768x1 ![0] bcast_S32768_S32768x1_0),
    unary main_v96 main_v97 (broadcastInDim S32768x64 ![0, 1] bcast_S32768x1_S32768x64_0_1),
    binary main_v89 main_v97 main_v98 (Host.divf),
    nullary main_v99 (iotaInDim S32 32 0),
    nullary main_c_12 (constantI S_ 32 1024#32),
    unary main_c_12 main_v100 (broadcastInDim S32 ![] bcast_S_S32),
    binary main_v99 main_v100 main_v101 muli,
    unary main_v101 main_v102 (broadcastInDim S32x1 ![0] bcast_S32_S32x1_0),
    nullary main_v103 (iotaInDim S32 32 0),
    nullary main_c_13 (constantI S_ 32 1024#32) ]

set_option maxRecDepth 16384 in
set_option maxHeartbeats 4000000 in
theorem main_part1_eq (c : Dev nD) : main_part1 (F := F) c = seq ops1 := rfl

set_option maxRecDepth 16384 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 16384 in
theorem ops1_fresh : (ops1 : List (HloOp τ sig (Elt F))).Forall fun op => op.fresh = ∅ := by
  simp only [List.Forall]
  and_intros <;> rfl

abbrev ops1_W : List (Ref sig .tc) := [main_v54, main_v55, main_v56, main_call1_cst, main_call1_v0, main_v57, main_v58, main_c_4, main_v59, main_v60, main_v61, main_v62, main_c_5, main_v63, main_v64, main_v65, main_v66, main_v67, main_v68, main_v69, main_v70, main_v71, main_v72, main_v73, main_v74, main_v75, main_v76, main_v77, main_v78, main_v79, main_c_6, main_v80, main_v81, main_c_7, main_v82, main_v83, main_v84, main_v85, main_v86, main_cst_8, main_v87, main_v88, main_v89, main_cst_9, main_v90, main_cst_10, main_v91, main_v92, main_v93, main_cst_11, main_v94, main_v95, main_v96, main_v97, main_v98, main_v99, main_c_12, main_v100, main_v101, main_v102, main_v103, main_c_13]

set_option maxRecDepth 16384 in
set_option maxHeartbeats 4000000 in
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)

set_option maxRecDepth 16384 in
set_option maxHeartbeats 4000000 in
abbrev ops2 : List (HloOp τ sig (Elt F)) :=
  [ unary main_c_13 main_v104 (broadcastInDim S32 ![] bcast_S_S32),
    binary main_v103 main_v104 main_v105 muli,
    unary main_v105 main_v106 (broadcastInDim S32x1 ![0] bcast_S32_S32x1_0),
    unary main_arg4 main_v107 (extractStridedSlice S1x16384 ![0, 0] · slices_S2x16384_S1x16384_0_0),
    reshape main_v107 main_v108 rfl shapeCasts_S1x16384_S16384,
    unary main_v108 main_v109 (broadcastInDim S1x16384 ![1] bcast_S16384_S1x16384_1),
    unary main_v109 main_v110 (broadcastInDim S32x16384 ![0, 1] bcast_S1x16384_S32x16384_0_1),
    unary main_v102 main_v111 (broadcastInDim S32x16384 ![0, 1] bcast_S32x1_S32x16384_0_1),
    binary main_v110 main_v111 main_v112 addi,
    reshape main_v112 main_v113 rfl shapeCasts_S32x16384_S524288,
    unary main_arg4 main_v114 (extractStridedSlice S1x16384 ![1, 0] · slices_S2x16384_S1x16384_1_0),
    reshape main_v114 main_v115 rfl shapeCasts_S1x16384_S16384,
    unary main_v115 main_v116 (broadcastInDim S1x16384 ![1] bcast_S16384_S1x16384_1),
    unary main_v116 main_v117 (broadcastInDim S32x16384 ![0, 1] bcast_S1x16384_S32x16384_0_1),
    unary main_v106 main_v118 (broadcastInDim S32x16384 ![0, 1] bcast_S32x1_S32x16384_0_1),
    binary main_v117 main_v118 main_v119 addi,
    reshape main_v119 main_v120 rfl shapeCasts_S32x16384_S524288,
    nullary main_c_14 (constantI S_ 32 0#32),
    unary main_c_14 main_v121 (broadcastInDim S524288 ![] bcast_S_S524288),
    binary main_v113 main_v121 main_v122 (cmpi .slt),
    nullary main_c_15 (constantI S_ 32 32768#32),
    unary main_c_15 main_v123 (broadcastInDim S524288 ![] bcast_S_S524288),
    binary main_v113 main_v123 main_v124 addi,
    ternary main_v122 main_v124 main_v113 main_v125 select,
    unary main_v125 main_v126 (broadcastInDim S524288x1 ![0] bcast_S524288_S524288x1_0),
    binary main_v98 main_v126 main_v127 (fun x i => Host.gather gather_S32768x64_S524288x1_S524288x64_1_0_n_n_0_1_164 x i),
    nullary main_cst_16 (constant S_ .f32 0x00000000#32),
    unary main_cst_16 main_v128 (broadcastInDim S32768x64 ![] bcast_S_S32768x64),
    unary main_v120 main_v129 (broadcastInDim S524288x1 ![0] bcast_S524288_S524288x1_0),
    ternary main_v128 main_v129 main_v127 main_v130 (fun x i u => Host.scatterAdd scatter_S32768x64_S524288x1_S524288x64_1_0_0_1 x i u),
    binary main_v98 main_v130 main_v131 addf,
    binary main_v131 main_arg15 main_v132 (fun l r => Host.dotGeneral dot_S32768x64_S64x64_S32768x64_1_0_0_1_n_n none l r),
    unary main_arg16 main_v133 (broadcastInDim S1x64 ![1] bcast_S64_S1x64_1),
    unary main_v133 main_v134 (broadcastInDim S32768x64 ![0, 1] bcast_S1x64_S32768x64_0_1),
    binary main_v132 main_v134 main_v135 addf,
    unary main_arg19 main_v136 (broadcastInDim S1x64 ![1] bcast_S64_S1x64_1),
    unary main_v136 main_v137 (broadcastInDim S32768x64 ![0, 1] bcast_S1x64_S32768x64_0_1),
    binary main_v135 main_v137 main_v138 subf,
    nullary main_cst_17 (constant S_ .f32 0x3727C5AC#32),
    unary main_cst_17 main_v139 (broadcastInDim S64 ![] bcast_S_S64),
    binary main_arg20 main_v139 main_v140 addf,
    unary main_v140 main_v141 (Host.rsqrt),
    unary main_v141 main_v142 (broadcastInDim S1x64 ![1] bcast_S64_S1x64_1),
    unary main_v142 main_v143 (broadcastInDim S32768x64 ![0, 1] bcast_S1x64_S32768x64_0_1),
    binary main_v138 main_v143 main_v144 mulf,
    unary main_arg17 main_v145 (broadcastInDim S1x64 ![1] bcast_S64_S1x64_1),
    unary main_v145 main_v146 (broadcastInDim S32768x64 ![0, 1] bcast_S1x64_S32768x64_0_1),
    binary main_v144 main_v146 main_v147 mulf,
    unary main_arg18 main_v148 (broadcastInDim S1x64 ![1] bcast_S64_S1x64_1),
    unary main_v148 main_v149 (broadcastInDim S32768x64 ![0, 1] bcast_S1x64_S32768x64_0_1),
    binary main_v147 main_v149 main_v150 addf,
    TRef.nullary (TRef.of (T := ⟨S_, .f32⟩) main_call2_cst) (constant S_ .f32 0x00000000#32),
    TRef.unary (TRef.of (T := ⟨S_, .f32⟩) main_call2_cst) (TRef.of (T := ⟨S32768x64, .f32⟩) main_call2_v0) (broadcastInDim S32768x64 ![] bcast_S_S32768x64),
    TRef.binary (TRef.of (T := ⟨S32768x64, .f32⟩) main_v150) (TRef.of (T := ⟨S32768x64, .f32⟩) main_call2_v0) (TRef.of (T := ⟨S32768x64, .f32⟩) main_v151) maximumf,
    binary main_v151 main_arg21 main_v152 (fun l r => Host.dotGeneral dot_S32768x64_S64x64_S32768x64_1_0_0_1_n_n none l r),
    unary main_arg22 main_v153 (broadcastInDim S1x64 ![1] bcast_S64_S1x64_1),
    unary main_v153 main_v154 (broadcastInDim S32768x64 ![0, 1] bcast_S1x64_S32768x64_0_1),
    binary main_v152 main_v154 main_v155 addf,
    TRef.nullary (TRef.of (T := ⟨S_, .f32⟩) main_call3_cst) (constant S_ .f32 0x00000000#32),
    TRef.unary (TRef.of (T := ⟨S_, .f32⟩) main_call3_cst) (TRef.of (T := ⟨S32768x64, .f32⟩) main_call3_v0) (broadcastInDim S32768x64 ![] bcast_S_S32768x64),
    TRef.binary (TRef.of (T := ⟨S32768x64, .f32⟩) main_v155) (TRef.of (T := ⟨S32768x64, .f32⟩) main_call3_v0) (TRef.of (T := ⟨S32768x64, .f32⟩) main_v156) maximumf,
    nullary main_v157 (iotaInDim S32 32 0),
    nullary main_c_18 (constantI S_ 32 1024#32),
    unary main_c_18 main_v158 (broadcastInDim S32 ![] bcast_S_S32) ]

set_option maxRecDepth 16384 in
set_option maxHeartbeats 4000000 in
theorem main_part2_eq (c : Dev nD) : main_part2 (F := F) c = seq ops2 := rfl

set_option maxRecDepth 16384 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 16384 in
theorem ops2_fresh : (ops2 : List (HloOp τ sig (Elt F))).Forall fun op => op.fresh = ∅ := by
  simp only [List.Forall]
  and_intros <;> rfl

abbrev ops2_W : List (Ref sig .tc) := [main_v104, main_v105, main_v106, main_v107, main_v108, main_v109, main_v110, main_v111, main_v112, main_v113, main_v114, main_v115, main_v116, main_v117, main_v118, main_v119, main_v120, main_c_14, main_v121, main_v122, main_c_15, main_v123, main_v124, main_v125, main_v126, main_v127, main_cst_16, main_v128, main_v129, main_v130, main_v131, main_v132, main_v133, main_v134, main_v135, main_v136, main_v137, main_v138, main_cst_17, main_v139, main_v140, main_v141, main_v142, main_v143, main_v144, main_v145, main_v146, main_v147, main_v148, main_v149, main_v150, main_call2_cst, main_call2_v0, main_v151, main_v152, main_v153, main_v154, main_v155, main_call3_cst, main_call3_v0, main_v156, main_v157, main_c_18, main_v158]

set_option maxRecDepth 16384 in
set_option maxHeartbeats 4000000 in
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)

set_option maxRecDepth 16384 in
set_option maxHeartbeats 4000000 in
abbrev ops3 : List (HloOp τ sig (Elt F)) :=
  [ binary main_v157 main_v158 main_v159 muli,
    unary main_v159 main_v160 (broadcastInDim S32x1 ![0] bcast_S32_S32x1_0),
    nullary main_v161 (iotaInDim S32 32 0),
    nullary main_c_19 (constantI S_ 32 128#32),
    unary main_c_19 main_v162 (broadcastInDim S32 ![] bcast_S_S32),
    binary main_v161 main_v162 main_v163 muli,
    unary main_v163 main_v164 (broadcastInDim S32x1 ![0] bcast_S32_S32x1_0),
    unary main_arg5 main_v165 (extractStridedSlice S1x2048 ![0, 0] · slices_S2x2048_S1x2048_0_0),
    reshape main_v165 main_v166 rfl shapeCasts_S1x2048_S2048,
    unary main_v166 main_v167 (broadcastInDim S1x2048 ![1] bcast_S2048_S1x2048_1),
    unary main_v167 main_v168 (broadcastInDim S32x2048 ![0, 1] bcast_S1x2048_S32x2048_0_1),
    unary main_v160 main_v169 (broadcastInDim S32x2048 ![0, 1] bcast_S32x1_S32x2048_0_1),
    binary main_v168 main_v169 main_v170 addi,
    reshape main_v170 main_v171 rfl shapeCasts_S32x2048_S65536,
    unary main_arg5 main_v172 (extractStridedSlice S1x2048 ![1, 0] · slices_S2x2048_S1x2048_1_0),
    reshape main_v172 main_v173 rfl shapeCasts_S1x2048_S2048,
    unary main_v173 main_v174 (broadcastInDim S1x2048 ![1] bcast_S2048_S1x2048_1),
    unary main_v174 main_v175 (broadcastInDim S32x2048 ![0, 1] bcast_S1x2048_S32x2048_0_1),
    unary main_v164 main_v176 (broadcastInDim S32x2048 ![0, 1] bcast_S32x1_S32x2048_0_1),
    binary main_v175 main_v176 main_v177 addi,
    reshape main_v177 main_v178 rfl shapeCasts_S32x2048_S65536,
    nullary main_c_20 (constantI S_ 32 0#32),
    unary main_c_20 main_v179 (broadcastInDim S65536 ![] bcast_S_S65536),
    binary main_v171 main_v179 main_v180 (cmpi .slt),
    nullary main_c_21 (constantI S_ 32 32768#32),
    unary main_c_21 main_v181 (broadcastInDim S65536 ![] bcast_S_S65536),
    binary main_v171 main_v181 main_v182 addi,
    ternary main_v180 main_v182 main_v171 main_v183 select,
    unary main_v183 main_v184 (broadcastInDim S65536x1 ![0] bcast_S65536_S65536x1_0),
    binary main_v156 main_v184 main_v185 (fun x i => Host.gather gather_S32768x64_S65536x1_S65536x64_1_0_n_n_0_1_164 x i),
    nullary main_cst_22 (constant S_ .f32 0x00000000#32),
    unary main_cst_22 main_v186 (broadcastInDim S4096x64 ![] bcast_S_S4096x64),
    unary main_v178 main_v187 (broadcastInDim S65536x1 ![0] bcast_S65536_S65536x1_0),
    ternary main_v186 main_v187 main_v185 main_v188 (fun x i u => Host.scatterAdd scatter_S4096x64_S65536x1_S65536x64_1_0_0_1 x i u),
    nullary main_cst_23 (constant S_ .f32 0x3F800000#32),
    unary main_cst_23 main_v189 (broadcastInDim S65536 ![] bcast_S_S65536),
    nullary main_cst_24 (constant S_ .f32 0x00000000#32),
    unary main_cst_24 main_v190 (broadcastInDim S4096 ![] bcast_S_S4096),
    unary main_v178 main_v191 (broadcastInDim S65536x1 ![0] bcast_S65536_S65536x1_0),
    ternary main_v190 main_v191 main_v189 main_v192 (fun x i u => Host.scatterAdd scatter_S4096_S65536x1_S65536_n_0_0_1 x i u),
    nullary main_cst_25 (constant S_ .f32 0x3F800000#32),
    unary main_cst_25 main_v193 (broadcastInDim S4096 ![] bcast_S_S4096),
    binary main_v192 main_v193 main_v194 maximumf,
    unary main_v194 main_v195 (broadcastInDim S4096x1 ![0] bcast_S4096_S4096x1_0),
    unary main_v195 main_v196 (broadcastInDim S4096x64 ![0, 1] bcast_S4096x1_S4096x64_0_1),
    binary main_v188 main_v196 main_v197 (Host.divf),
    nullary main_v198 (iotaInDim S32 32 0),
    nullary main_c_26 (constantI S_ 32 128#32),
    unary main_c_26 main_v199 (broadcastInDim S32 ![] bcast_S_S32),
    binary main_v198 main_v199 main_v200 muli,
    unary main_v200 main_v201 (broadcastInDim S32x1 ![0] bcast_S32_S32x1_0),
    nullary main_v202 (iotaInDim S32 32 0),
    nullary main_c_27 (constantI S_ 32 128#32),
    unary main_c_27 main_v203 (broadcastInDim S32 ![] bcast_S_S32),
    binary main_v202 main_v203 main_v204 muli,
    unary main_v204 main_v205 (broadcastInDim S32x1 ![0] bcast_S32_S32x1_0),
    unary main_arg6 main_v206 (extractStridedSlice S1x2048 ![0, 0] · slices_S2x2048_S1x2048_0_0),
    reshape main_v206 main_v207 rfl shapeCasts_S1x2048_S2048,
    unary main_v207 main_v208 (broadcastInDim S1x2048 ![1] bcast_S2048_S1x2048_1),
    unary main_v208 main_v209 (broadcastInDim S32x2048 ![0, 1] bcast_S1x2048_S32x2048_0_1) ]

set_option maxRecDepth 16384 in
set_option maxHeartbeats 4000000 in
theorem main_part3_eq (c : Dev nD) : main_part3 (F := F) c = seq ops3 := rfl

set_option maxRecDepth 16384 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 16384 in
theorem ops3_fresh : (ops3 : List (HloOp τ sig (Elt F))).Forall fun op => op.fresh = ∅ := by
  simp only [List.Forall]
  and_intros <;> rfl

abbrev ops3_W : List (Ref sig .tc) := [main_v159, main_v160, main_v161, main_c_19, main_v162, main_v163, main_v164, main_v165, main_v166, main_v167, main_v168, main_v169, main_v170, main_v171, main_v172, main_v173, main_v174, main_v175, main_v176, main_v177, main_v178, main_c_20, main_v179, main_v180, main_c_21, main_v181, main_v182, main_v183, main_v184, main_v185, main_cst_22, main_v186, main_v187, main_v188, main_cst_23, main_v189, main_cst_24, main_v190, main_v191, main_v192, main_cst_25, main_v193, main_v194, main_v195, main_v196, main_v197, main_v198, main_c_26, main_v199, main_v200, main_v201, main_v202, main_c_27, main_v203, main_v204, main_v205, main_v206, main_v207, main_v208, main_v209]

set_option maxRecDepth 16384 in
set_option maxHeartbeats 4000000 in
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)

set_option maxRecDepth 16384 in
set_option maxHeartbeats 4000000 in
abbrev ops4 : List (HloOp τ sig (Elt F)) :=
  [ unary main_v201 main_v210 (broadcastInDim S32x2048 ![0, 1] bcast_S32x1_S32x2048_0_1),
    binary main_v209 main_v210 main_v211 addi,
    reshape main_v211 main_v212 rfl shapeCasts_S32x2048_S65536,
    unary main_arg6 main_v213 (extractStridedSlice S1x2048 ![1, 0] · slices_S2x2048_S1x2048_1_0),
    reshape main_v213 main_v214 rfl shapeCasts_S1x2048_S2048,
    unary main_v214 main_v215 (broadcastInDim S1x2048 ![1] bcast_S2048_S1x2048_1),
    unary main_v215 main_v216 (broadcastInDim S32x2048 ![0, 1] bcast_S1x2048_S32x2048_0_1),
    unary main_v205 main_v217 (broadcastInDim S32x2048 ![0, 1] bcast_S32x1_S32x2048_0_1),
    binary main_v216 main_v217 main_v218 addi,
    reshape main_v218 main_v219 rfl shapeCasts_S32x2048_S65536,
    nullary main_c_28 (constantI S_ 32 0#32),
    unary main_c_28 main_v220 (broadcastInDim S65536 ![] bcast_S_S65536),
    binary main_v212 main_v220 main_v221 (cmpi .slt),
    nullary main_c_29 (constantI S_ 32 4096#32),
    unary main_c_29 main_v222 (broadcastInDim S65536 ![] bcast_S_S65536),
    binary main_v212 main_v222 main_v223 addi,
    ternary main_v221 main_v223 main_v212 main_v224 select,
    unary main_v224 main_v225 (broadcastInDim S65536x1 ![0] bcast_S65536_S65536x1_0),
    binary main_v197 main_v225 main_v226 (fun x i => Host.gather gather_S4096x64_S65536x1_S65536x64_1_0_n_n_0_1_164 x i),
    nullary main_cst_30 (constant S_ .f32 0x00000000#32),
    unary main_cst_30 main_v227 (broadcastInDim S4096x64 ![] bcast_S_S4096x64),
    unary main_v219 main_v228 (broadcastInDim S65536x1 ![0] bcast_S65536_S65536x1_0),
    ternary main_v227 main_v228 main_v226 main_v229 (fun x i u => Host.scatterAdd scatter_S4096x64_S65536x1_S65536x64_1_0_0_1 x i u),
    binary main_v197 main_v229 main_v230 addf,
    binary main_v230 main_arg23 main_v231 (fun l r => Host.dotGeneral dot_S4096x64_S64x64_S4096x64_1_0_0_1_n_n none l r),
    unary main_arg24 main_v232 (broadcastInDim S1x64 ![1] bcast_S64_S1x64_1),
    unary main_v232 main_v233 (broadcastInDim S4096x64 ![0, 1] bcast_S1x64_S4096x64_0_1),
    binary main_v231 main_v233 main_v234 addf,
    unary main_arg27 main_v235 (broadcastInDim S1x64 ![1] bcast_S64_S1x64_1),
    unary main_v235 main_v236 (broadcastInDim S4096x64 ![0, 1] bcast_S1x64_S4096x64_0_1),
    binary main_v234 main_v236 main_v237 subf,
    nullary main_cst_31 (constant S_ .f32 0x3727C5AC#32),
    unary main_cst_31 main_v238 (broadcastInDim S64 ![] bcast_S_S64),
    binary main_arg28 main_v238 main_v239 addf,
    unary main_v239 main_v240 (Host.rsqrt),
    unary main_v240 main_v241 (broadcastInDim S1x64 ![1] bcast_S64_S1x64_1),
    unary main_v241 main_v242 (broadcastInDim S4096x64 ![0, 1] bcast_S1x64_S4096x64_0_1),
    binary main_v237 main_v242 main_v243 mulf,
    unary main_arg25 main_v244 (broadcastInDim S1x64 ![1] bcast_S64_S1x64_1),
    unary main_v244 main_v245 (broadcastInDim S4096x64 ![0, 1] bcast_S1x64_S4096x64_0_1),
    binary main_v243 main_v245 main_v246 mulf,
    unary main_arg26 main_v247 (broadcastInDim S1x64 ![1] bcast_S64_S1x64_1),
    unary main_v247 main_v248 (broadcastInDim S4096x64 ![0, 1] bcast_S1x64_S4096x64_0_1),
    binary main_v246 main_v248 main_v249 addf,
    TRef.nullary (TRef.of (T := ⟨S_, .f32⟩) main_call4_cst) (constant S_ .f32 0x00000000#32),
    TRef.unary (TRef.of (T := ⟨S_, .f32⟩) main_call4_cst) (TRef.of (T := ⟨S4096x64, .f32⟩) main_call4_v0) (broadcastInDim S4096x64 ![] bcast_S_S4096x64),
    TRef.binary (TRef.of (T := ⟨S4096x64, .f32⟩) main_v249) (TRef.of (T := ⟨S4096x64, .f32⟩) main_call4_v0) (TRef.of (T := ⟨S4096x64, .f32⟩) main_v250) maximumf,
    binary main_v250 main_arg29 main_v251 (fun l r => Host.dotGeneral dot_S4096x64_S64x64_S4096x64_1_0_0_1_n_n none l r),
    unary main_arg30 main_v252 (broadcastInDim S1x64 ![1] bcast_S64_S1x64_1),
    unary main_v252 main_v253 (broadcastInDim S4096x64 ![0, 1] bcast_S1x64_S4096x64_0_1),
    binary main_v251 main_v253 main_v254 addf,
    TRef.nullary (TRef.of (T := ⟨S_, .f32⟩) main_call5_cst) (constant S_ .f32 0x00000000#32),
    TRef.unary (TRef.of (T := ⟨S_, .f32⟩) main_call5_cst) (TRef.of (T := ⟨S4096x64, .f32⟩) main_call5_v0) (broadcastInDim S4096x64 ![] bcast_S_S4096x64),
    TRef.binary (TRef.of (T := ⟨S4096x64, .f32⟩) main_v254) (TRef.of (T := ⟨S4096x64, .f32⟩) main_call5_v0) (TRef.of (T := ⟨S4096x64, .f32⟩) main_v255) maximumf,
    reshape main_v255 main_v256 rfl shapeCasts_S4096x64_S32x8192,
    binary main_v256 main_arg31 main_v257 (fun l r => Host.dotGeneral dot_S32x8192_S8192x64_S32x64_1_0_0_1_n_n none l r),
    unary main_arg32 main_v258 (broadcastInDim S1x64 ![1] bcast_S64_S1x64_1),
    unary main_v258 main_v259 (broadcastInDim S32x64 ![0, 1] bcast_S1x64_S32x64_0_1),
    binary main_v257 main_v259 main_v260 addf,
    TRef.nullary (TRef.of (T := ⟨S_, .f32⟩) main_call6_cst) (constant S_ .f32 0x00000000#32),
    TRef.unary (TRef.of (T := ⟨S_, .f32⟩) main_call6_cst) (TRef.of (T := ⟨S32x64, .f32⟩) main_call6_v0) (broadcastInDim S32x64 ![] bcast_S_S32x64),
    TRef.binary (TRef.of (T := ⟨S32x64, .f32⟩) main_v260) (TRef.of (T := ⟨S32x64, .f32⟩) main_call6_v0) (TRef.of (T := ⟨S32x64, .f32⟩) main_v261) maximumf,
    binary main_v261 main_arg33 main_v262 (fun l r => Host.dotGeneral dot_S32x64_S64x10_S32x10_1_0_0_1_n_n none l r),
    unary main_arg34 main_v263 (broadcastInDim S1x10 ![1] bcast_S10_S1x10_1),
    unary main_v263 main_v264 (broadcastInDim S32x10 ![0, 1] bcast_S1x10_S32x10_0_1),
    binary main_v262 main_v264 main_v265 (addf) ]

set_option maxRecDepth 16384 in
set_option maxHeartbeats 4000000 in
theorem main_part4_eq (c : Dev nD) : main_part4 (F := F) c = seq ops4 := rfl

set_option maxRecDepth 16384 in
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 16384 in
theorem ops4_fresh : (ops4 : List (HloOp τ sig (Elt F))).Forall fun op => op.fresh = ∅ := by
  simp only [List.Forall]
  and_intros <;> rfl

abbrev ops4_W : List (Ref sig .tc) := [main_v210, main_v211, main_v212, main_v213, main_v214, main_v215, main_v216, main_v217, main_v218, main_v219, main_c_28, main_v220, main_v221, main_c_29, main_v222, main_v223, main_v224, main_v225, main_v226, main_cst_30, main_v227, main_v228, main_v229, main_v230, main_v231, main_v232, main_v233, main_v234, main_v235, main_v236, main_v237, main_cst_31, main_v238, main_v239, main_v240, main_v241, main_v242, main_v243, main_v244, main_v245, main_v246, main_v247, main_v248, main_v249, main_call4_cst, main_call4_v0, main_v250, main_v251, main_v252, main_v253, main_v254, main_call5_cst, main_call5_v0, main_v255, main_v256, main_v257, main_v258, main_v259, main_v260, main_call6_cst, main_call6_v0, main_v261, main_v262, main_v263, main_v264, main_v265]

set_option maxRecDepth 16384 in
set_option maxHeartbeats 4000000 in
theorem ops4_writes : (ops4 : List (HloOp τ sig (Elt F))).Forall fun op =>
    op.writes ⊆ (ops4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)

abbrev ops : List (HloOp τ sig (Elt F)) := ops0 ++ (ops1 ++ (ops2 ++ (ops3 ++ (ops4 ++ []))))

theorem main_part5_eq (c : Dev nD) : main_part5 (F := F) c = seq ([] : List (HloOp τ sig (Elt F))) := rfl

/-- @main is its 314 operations, cut into five lists, run in order. -/
theorem main_eq (c : Dev nD) : main (F := F) c = seq ops := by
  show (main_part0 (F := F) c >>= fun _ => main_part1 (F := F) c >>= fun _ => main_part2 (F := F) c >>= fun _ =>
      main_part3 (F := F) c >>= fun _ => main_part4 (F := F) c >>= fun _ => main_part5 (F := F) c)
    = seq (ops0 ++ (ops1 ++ (ops2 ++ (ops3 ++ (ops4 ++ [])))))
  rw [seq_append, seq_append, seq_append, seq_append, seq_append, main_part0_eq, main_part1_eq, main_part2_eq,
    main_part3_eq, main_part4_eq, main_part5_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub (forall_append ops1_sub (forall_append ops2_sub (forall_append ops3_sub
    (forall_append ops4_sub trivial))))

theorem ops_fresh : (ops : List (HloOp τ sig (Elt F))).Forall fun op => op.fresh = ∅ :=
  forall_append ops0_fresh (forall_append ops1_fresh (forall_append ops2_fresh (forall_append ops3_fresh
    (forall_append ops4_fresh trivial))))

theorem after_ops (V : Valuation τ sig (Elt F)) :
    after ops V = after ops4 (after ops3 (after ops2 (after ops1 (after ops0 V)))) := by
  show after (ops0 ++ (ops1 ++ (ops2 ++ (ops3 ++ (ops4 ++ []))))) V = _
  rw [after_append', after_append', after_append', after_append', after_append']
  rfl

/-- A buffer none of the five lists writes keeps its contents. -/
theorem keep (V : Valuation τ sig (Elt F)) (r : Ref sig .tc) (h0 : r ∉ ops0_W) (h1 : r ∉ ops1_W) (h2 : r ∉ ops2_W)
    (h3 : r ∉ ops3_W) (h4 : r ∉ ops4_W) : after ops V (Proc.devRef .tc r) = V (Proc.devRef .tc r) := by
  rw [after_ops, after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

/-- The result as the last stage's value at the arguments' launch contents. -/
abbrev res (m : (ℓ : Loc nD τ sig) → Buf (Elt F) ℓ) (c : Dev nD) : Buf (Elt F) ((c.tc : Thread nD τ).loc main_v265) :=
  Read.val_main_v265 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34))

set_option maxRecDepth 16384 in
set_option maxHeartbeats 400000000 in
theorem result (m : (ℓ : Loc nD τ sig) → Buf (Elt F) ℓ) (c : Dev nD) :
    after ops (launchContents m c) (Proc.devRef .tc main_v265) = res m c := by
  rw [after_ops]
  simp only [ops0, ops1, ops2, ops3, ops4]
  after_results_simp
  rfl

set_option maxRecDepth 16384 in
set_option maxHeartbeats 4000000 in
/-- Every weakly fair execution of @main ends with the result at that value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34) :=
  (θ_run defs _ _).mono (fun _ h c => by
      refine ⟨(h c main_v265).trans (result m c), ?_⟩
      and_intros <;> exact (h c _).trans (keep _ _ (by decide) (by decide) (by decide) (by decide) (by decide)))
    (run_seq scopedRefs_eq scopedSems_eq defs main (fun _ => ops) main_eq (fun _ => ops_sub) m ρ
      (fun _ => List.forall_iff_forall_mem.mp ops_fresh))

end Cert.ReferenceIdeal.ValueFast

end
-- ==== Proof.RSeg.lean ====
import proofs.«421097_j4681514352669_2_alg».proof.Proof.RefRead
import proofs.«421097_j4681514352669_2_alg».proof.Proof.LibScatterAdd
import proofs.«421097_j4681514352669_2_alg».proof.Proof.Net
import proofs.«421097_j4681514352669_2_alg».proof.Proof.Algebra
import proofs.«421097_j4681514352669_2_alg».proof.Proof.Layout

noncomputable section

open scoped BigOperators

namespace Cert.ReferenceIdeal.RSeg

open Idealize.ShloMosaic Idealize.ShloMosaic.ValueIdx Cert.Spec Cert.Net Cert.LibScatterAdd
open Cert.ReferenceIdeal Cert.ReferenceIdeal.Gen Cert.ReferenceIdeal.Read

-- While 32 * N stays below 2 ^ 31 nothing wraps: the word e offset by b node counts reads b * N + v.
theorem toInt_offset (e : BitVec 32) (b N v : ℕ) (he : e.toInt = (v : ℤ)) (hv : v < N) (hb : b < 32)
    (hN : 32 * N ≤ 2 ^ 31) :
    (IntOp.addi e (IntOp.muli (BitVec.ofNat 32 b) (BitVec.ofNat 32 N))).toInt = ((b * N + v : ℕ) : ℤ) := by
  have hbN : b * N ≤ 31 * N := Nat.mul_le_mul_right N (by omega)
  have hev : e.toNat = v := by
    have := e.isLt
    rw [BitVec.toInt_eq_toNat_cond] at he
    split_ifs at he <;> omega
  have hlt : (IntOp.addi e (IntOp.muli (BitVec.ofNat 32 b) (BitVec.ofNat 32 N))).toNat = b * N + v := by
    unfold IntOp.addi IntOp.muli
    rw [BitVec.toNat_add, BitVec.toNat_mul, BitVec.toNat_ofNat, BitVec.toNat_ofNat, hev,
      Nat.mod_eq_of_lt (show b < 2 ^ 32 by omega), Nat.mod_eq_of_lt (show N < 2 ^ 32 by omega),
      Nat.mod_eq_of_lt (show b * N < 2 ^ 32 by omega), Nat.mod_eq_of_lt (show v + b * N < 2 ^ 32 by omega)]
    omega
  rw [StableHlo.Predicate.toInt_eq_toNat_of_lt (by rw [hlt]; omega), hlt]

theorem select_neg_of_nonneg (w m : BitVec 32) (hw : 0 ≤ w.toInt) :
    Scalar.select (IntOp.cmpi .slt w 0#32) (IntOp.addi w m) w = w := by
  have h : IntOp.cmpi .slt w 0#32 = 0#1 := by
    unfold IntOp.cmpi
    show BitVec.ofBool (w.slt 0#32) = 0#1
    have : w.slt 0#32 = false := by
      rw [BitVec.slt_eq_decide]
      simpa using hw
    rw [this]
    rfl
  rw [h]
  exact select_zero _ _

-- Gathering batch-major rows at the replicated source words and adding them up at the replicated destination words gives every graph's segment sums.
theorem seg_rows {E Ns Nd ME : ℕ} (hME : ME = 32 * E) (hNs : 0 < Ns) (hNd : 0 < Nd)
    (ds : ScatterDims (⟨2, ![32 * Nd, 64]⟩ : Shape) (⟨2, ![ME, 1]⟩ : Shape) (⟨2, ![ME, 64]⟩ : Shape))
    (hu : ds.updateWindowDims = [1]) (hi : ds.insertedWindowDims = [0]) (hs : ds.scatterDimsToOperandDims = [0])
    (hv : ds.indexVectorDim = 1)
    (dg : GatherDims (⟨2, ![32 * Ns, 64]⟩ : Shape) (⟨2, ![ME, 1]⟩ : Shape) (⟨2, ![ME, 64]⟩ : Shape))
    (ho : dg.offsetDims = [1]) (hc : dg.collapsedSliceDims = [0]) (hob : dg.operandBatchingDims = [])
    (hsb : dg.startIndicesBatchingDims = []) (hm : dg.startIndexMap = [0]) (hgv : dg.indexVectorDim = 1)
    (hss : dg.sliceSizes = ![1, 64])
    (z : (⟨2, ![32 * Nd, 64]⟩ : Shape).Idx → EReal) (hz : ∀ i, z i = zero)
    (sw dw : IVec (⟨2, ![ME, 1]⟩ : Shape) 32) (src : Fin E → Fin Ns) (dst : Fin E → Fin Nd)
    (hsw : ∀ (j : Fin ME) (hj : j.val % E < E),
      (sw (ix2 j 0)).toInt = (((j.val / E) * Ns + (src ⟨j.val % E, hj⟩).val : ℕ) : ℤ))
    (hdw : ∀ (j : Fin ME) (hj : j.val % E < E),
      (dw (ix2 j 0)).toInt = (((j.val / E) * Nd + (dst ⟨j.val % E, hj⟩).val : ℕ) : ℤ))
    (T : Feat Ns) :
    Host.scatterAdd (F := Ideal) (φ := .f32) ds z dw (Host.gather dg (bmaj hNs T) sw)
      = bmaj hNd (fun b n f => segSum src dst (fun s => T b s f) n) := by
  subst hME
  funext i
  obtain ⟨r, f, rfl⟩ : ∃ (r : Fin (32 * Nd)) (f : Fin 64), i = ix2 r f := ⟨i 0, i 1, eq_ix2 i⟩
  rw [scatterAddRows_apply ds hu hi hs hv z dw _ r f, hz, Cert.Algebra.zero_eq, zero_add,
    ← Cert.Layout.bmaj_segSum hNs hNd src dst T r f]
  refine Finset.sum_congr (Finset.filter_congr fun j _ => ?_) fun j _ => ?_
  · rw [hdw j (Cert.Layout.mod_edge j)]
    exact Nat.cast_inj
  · rw [gatherRows_apply (by omega) dg ho hc hob hsb hm hgv hss (bmaj hNs T) sw j f]
    congr 2
    apply Fin.ext
    show min (sw (ix2 j 0)).toInt.toNat (32 * Ns - 1)
      = (j.val / E) * Ns + (src ⟨j.val % E, Cert.Layout.mod_edge j⟩).val
    rw [hsw j (Cert.Layout.mod_edge j), Int.toNat_natCast]
    have := Cert.Layout.flat_lt (Cert.Layout.div_edge j) (src ⟨j.val % E, Cert.Layout.mod_edge j⟩).isLt
    omega

-- Adding a one at every replicated destination word counts, at row b * Nd + n, the edges into n.
theorem seg_cnt {E Nd ME : ℕ} (hME : ME = 32 * E) (hNd : 0 < Nd)
    (ds : ScatterDims (⟨1, ![32 * Nd]⟩ : Shape) (⟨2, ![ME, 1]⟩ : Shape) (⟨1, ![ME]⟩ : Shape))
    (hu : ds.updateWindowDims = []) (hi : ds.insertedWindowDims = [0]) (hs : ds.scatterDimsToOperandDims = [0])
    (hv : ds.indexVectorDim = 1)
    (z : (⟨1, ![32 * Nd]⟩ : Shape).Idx → EReal) (hz : ∀ i, z i = zero)
    (dw : IVec (⟨2, ![ME, 1]⟩ : Shape) 32) (o : (⟨1, ![ME]⟩ : Shape).Idx → EReal) (ho : ∀ i, o i = one)
    (dst : Fin E → Fin Nd)
    (hdw : ∀ (j : Fin ME) (hj : j.val % E < E),
      (dw (ix2 j 0)).toInt = (((j.val / E) * Nd + (dst ⟨j.val % E, hj⟩).val : ℕ) : ℤ)) :
    Host.scatterAdd (F := Ideal) (φ := .f32) ds z dw o
      = fun i => segCnt dst ⟨(i 0).val % Nd, Nat.mod_lt _ hNd⟩ := by
  subst hME
  funext i
  obtain ⟨r, rfl⟩ : ∃ r : Fin (32 * Nd), i = ix1 r := ⟨i 0, eq_ix1 i⟩
  rw [scatterAdd1_apply ds hu hi hs hv z dw o r, hz, Cert.Algebra.zero_eq, zero_add]
  show _ = segCnt dst ⟨r.val % Nd, Nat.mod_lt _ hNd⟩
  rw [← Cert.Layout.bmaj_segCnt hNd dst r]
  refine Finset.sum_congr (Finset.filter_congr fun j _ => ?_) fun j _ => ho _
  rw [hdw j (Cert.Layout.mod_edge j)]
  exact Nat.cast_inj

-- "Add the length if negative" leaves a word that reads as a natural number alone.
theorem toInt_select {w m : BitVec 32} {n : ℕ} (h : w.toInt = (n : ℤ)) :
    (Scalar.select (IntOp.cmpi .slt w 0#32) (IntOp.addi w m) w).toInt = (n : ℤ) := by
  rw [select_neg_of_nonneg _ _ (by rw [h]; exact Int.natCast_nonneg _)]
  exact h

-- Row j of a replicated list is edge j % E of graph j / E: its word, offset by j / E node counts, reads (j / E) * N + node.
theorem word {E N ME : ℕ} (x : IVec (⟨2, ![2, E]⟩ : Shape) 32) (r : Fin 2) (hx : InRange x r N) (j : Fin ME)
    (hj : j.val % E < E) (hME : ME = 32 * E) (hN : 0 < N) (h32 : 32 * N ≤ 2 ^ 31) (I : (⟨2, ![2, E]⟩ : Shape).Idx)
    (h0 : (I 0).val = r.val) (h1 : (I 1).val = j.val % E % E) :
    (IntOp.addi (x I) (IntOp.muli (BitVec.ofNat 32 (j.val / E)) (BitVec.ofNat 32 N))).toInt
      = (((j.val / E) * N + (node N hN (x (ix2 r ⟨j.val % E, hj⟩))).val : ℕ) : ℤ) := by
  subst hME
  have hI : I = ix2 r ⟨j.val % E, hj⟩ := funext fun a => by
    match a with
    | ⟨0, _⟩ => exact Fin.ext h0
    | ⟨1, _⟩ => exact Fin.ext (h1.trans (Nat.mod_mod _ _))
  rw [hI]
  exact toInt_offset _ _ N _ (toInt_eq_node hN hx _) (Fin.isLt _) (Cert.Layout.div_edge j) h32

theorem site_agg0 (x2 : IVec S2x65536 32) (hs : InRange x2 0 8192) (hd : InRange x2 1 8192) (T : Feat 8192) :
    Host.scatterAdd (F := Ideal) (φ := .f32) scatter_S262144x64_S2097152x1_S2097152x64_1_0_0_1 (val_main_v29 (F := Ideal)) (val_main_v30 (F := Ideal) x2)
        (Host.gather gather_S262144x64_S2097152x1_S2097152x64_1_0_n_n_0_1_164 (bmaj (N := 8192) (by decide) T) (val_main_v27 (F := Ideal) x2))
      = bmaj (N := 8192) (by decide) (fun b n f => segSum (srcOf 8192 (by decide) x2) (dstOf 8192 (by decide) x2) (fun s => T b s f) n) :=
  seg_rows (E := 65536) (Ns := 8192) (Nd := 8192) (ME := 2097152) rfl (by decide) (by decide)
    scatter_S262144x64_S2097152x1_S2097152x64_1_0_0_1 rfl rfl rfl rfl
    gather_S262144x64_S2097152x1_S2097152x64_1_0_n_n_0_1_164 rfl rfl rfl rfl rfl rfl rfl
    _ (fun i => by simp only [val_main_v29_apply, val_main_cst_apply]; rfl) _ _ _ _
    (fun j hj => by
      simp only [val_main_v27_apply, val_main_v26_apply, val_main_v23_apply, val_main_v25_apply, val_main_v22_apply, val_main_c_1_apply, val_main_v24_apply, val_main_c_2_apply, val_main_v14_apply, val_main_v13_apply, val_main_v11_apply, val_main_v10_apply, val_main_v9_apply, val_main_v8_apply, val_main_v12_apply, val_main_v3_apply, val_main_v2_apply, val_main_v0_apply, val_main_v1_apply, val_main_c_apply]
      exact toInt_select (word x2 0 hs j hj rfl (by decide) (by decide) _ (by rfl) (by rfl)))
    (fun j hj => by
      simp only [val_main_v30_apply, val_main_v21_apply, val_main_v20_apply, val_main_v18_apply, val_main_v17_apply, val_main_v16_apply, val_main_v15_apply, val_main_v19_apply, val_main_v7_apply, val_main_v6_apply, val_main_v4_apply, val_main_v5_apply, val_main_c_0_apply]
      exact word x2 1 hd j hj rfl (by decide) (by decide) _ (by rfl) (by rfl)) T

theorem site_pool1 (x3 : IVec S2x16384 32) (hs : InRange x3 0 8192) (hd : InRange x3 1 1024) (T : Feat 8192) :
    Host.scatterAdd (F := Ideal) (φ := .f32) scatter_S32768x64_S524288x1_S524288x64_1_0_0_1 (val_main_v87 (F := Ideal)) (val_main_v88 (F := Ideal) x3)
        (Host.gather gather_S262144x64_S524288x1_S524288x64_1_0_n_n_0_1_164 (bmaj (N := 8192) (by decide) T) (val_main_v85 (F := Ideal) x3))
      = bmaj (N := 1024) (by decide) (fun b n f => segSum (srcOf 8192 (by decide) x3) (dstOf 1024 (by decide) x3) (fun s => T b s f) n) :=
  seg_rows (E := 16384) (Ns := 8192) (Nd := 1024) (ME := 524288) rfl (by decide) (by decide)
    scatter_S32768x64_S524288x1_S524288x64_1_0_0_1 rfl rfl rfl rfl
    gather_S262144x64_S524288x1_S524288x64_1_0_n_n_0_1_164 rfl rfl rfl rfl rfl rfl rfl
    _ (fun i => by simp only [val_main_v87_apply, val_main_cst_8_apply]; rfl) _ _ _ _
    (fun j hj => by
      simp only [val_main_v85_apply, val_main_v84_apply, val_main_v81_apply, val_main_v83_apply, val_main_v80_apply, val_main_c_6_apply, val_main_v82_apply, val_main_c_7_apply, val_main_v72_apply, val_main_v71_apply, val_main_v69_apply, val_main_v68_apply, val_main_v67_apply, val_main_v66_apply, val_main_v70_apply, val_main_v61_apply, val_main_v60_apply, val_main_v58_apply, val_main_v59_apply, val_main_c_4_apply]
      exact toInt_select (word x3 0 hs j hj rfl (by decide) (by decide) _ (by rfl) (by rfl)))
    (fun j hj => by
      simp only [val_main_v88_apply, val_main_v79_apply, val_main_v78_apply, val_main_v76_apply, val_main_v75_apply, val_main_v74_apply, val_main_v73_apply, val_main_v77_apply, val_main_v65_apply, val_main_v64_apply, val_main_v62_apply, val_main_v63_apply, val_main_c_5_apply]
      exact word x3 1 hd j hj rfl (by decide) (by decide) _ (by rfl) (by rfl)) T

theorem site_cnt1 (x3 : IVec S2x16384 32) (hd : InRange x3 1 1024) :
    Host.scatterAdd (F := Ideal) (φ := .f32) scatter_S32768_S524288x1_S524288_n_0_0_1 (val_main_v91 (F := Ideal)) (val_main_v92 (F := Ideal) x3)
        (val_main_v90 (F := Ideal))
      = fun i => segCnt (dstOf 1024 (by decide) x3) ⟨(i 0).val % 1024, Nat.mod_lt _ (by decide)⟩ :=
  seg_cnt (E := 16384) (Nd := 1024) (ME := 524288) rfl (by decide)
    scatter_S32768_S524288x1_S524288_n_0_0_1 rfl rfl rfl rfl
    _ (fun i => by simp only [val_main_v91_apply, val_main_cst_10_apply]; rfl) _ _ (fun i => by simp only [val_main_v90_apply, val_main_cst_9_apply]; rfl) _
    (fun j hj => by
      simp only [val_main_v92_apply, val_main_v79_apply, val_main_v78_apply, val_main_v76_apply, val_main_v75_apply, val_main_v74_apply, val_main_v73_apply, val_main_v77_apply, val_main_v65_apply, val_main_v64_apply, val_main_v62_apply, val_main_v63_apply, val_main_c_5_apply]
      exact word x3 1 hd j hj rfl (by decide) (by decide) _ (by rfl) (by rfl))

theorem site_agg1 (x4 : IVec S2x16384 32) (hs : InRange x4 0 1024) (hd : InRange x4 1 1024) (T : Feat 1024) :
    Host.scatterAdd (F := Ideal) (φ := .f32) scatter_S32768x64_S524288x1_S524288x64_1_0_0_1 (val_main_v128 (F := Ideal)) (val_main_v129 (F := Ideal) x4)
        (Host.gather gather_S32768x64_S524288x1_S524288x64_1_0_n_n_0_1_164 (bmaj (N := 1024) (by decide) T) (val_main_v126 (F := Ideal) x4))
      = bmaj (N := 1024) (by decide) (fun b n f => segSum (srcOf 1024 (by decide) x4) (dstOf 1024 (by decide) x4) (fun s => T b s f) n) :=
  seg_rows (E := 16384) (Ns := 1024) (Nd := 1024) (ME := 524288) rfl (by decide) (by decide)
    scatter_S32768x64_S524288x1_S524288x64_1_0_0_1 rfl rfl rfl rfl
    gather_S32768x64_S524288x1_S524288x64_1_0_n_n_0_1_164 rfl rfl rfl rfl rfl rfl rfl
    _ (fun i => by simp only [val_main_v128_apply, val_main_cst_16_apply]; rfl) _ _ _ _
    (fun j hj => by
      simp only [val_main_v126_apply, val_main_v125_apply, val_main_v122_apply, val_main_v124_apply, val_main_v121_apply, val_main_c_14_apply, val_main_v123_apply, val_main_c_15_apply, val_main_v113_apply, val_main_v112_apply, val_main_v110_apply, val_main_v109_apply, val_main_v108_apply, val_main_v107_apply, val_main_v111_apply, val_main_v102_apply, val_main_v101_apply, val_main_v99_apply, val_main_v100_apply, val_main_c_12_apply]
      exact toInt_select (word x4 0 hs j hj rfl (by decide) (by decide) _ (by rfl) (by rfl)))
    (fun j hj => by
      simp only [val_main_v129_apply, val_main_v120_apply, val_main_v119_apply, val_main_v117_apply, val_main_v116_apply, val_main_v115_apply, val_main_v114_apply, val_main_v118_apply, val_main_v106_apply, val_main_v105_apply, val_main_v103_apply, val_main_v104_apply, val_main_c_13_apply]
      exact word x4 1 hd j hj rfl (by decide) (by decide) _ (by rfl) (by rfl)) T

theorem site_pool2 (x5 : IVec S2x2048 32) (hs : InRange x5 0 1024) (hd : InRange x5 1 128) (T : Feat 1024) :
    Host.scatterAdd (F := Ideal) (φ := .f32) scatter_S4096x64_S65536x1_S65536x64_1_0_0_1 (val_main_v186 (F := Ideal)) (val_main_v187 (F := Ideal) x5)
        (Host.gather gather_S32768x64_S65536x1_S65536x64_1_0_n_n_0_1_164 (bmaj (N := 1024) (by decide) T) (val_main_v184 (F := Ideal) x5))
      = bmaj (N := 128) (by decide) (fun b n f => segSum (srcOf 1024 (by decide) x5) (dstOf 128 (by decide) x5) (fun s => T b s f) n) :=
  seg_rows (E := 2048) (Ns := 1024) (Nd := 128) (ME := 65536) rfl (by decide) (by decide)
    scatter_S4096x64_S65536x1_S65536x64_1_0_0_1 rfl rfl rfl rfl
    gather_S32768x64_S65536x1_S65536x64_1_0_n_n_0_1_164 rfl rfl rfl rfl rfl rfl rfl
    _ (fun i => by simp only [val_main_v186_apply, val_main_cst_22_apply]; rfl) _ _ _ _
    (fun j hj => by
      simp only [val_main_v184_apply, val_main_v183_apply, val_main_v180_apply, val_main_v182_apply, val_main_v179_apply, val_main_c_20_apply, val_main_v181_apply, val_main_c_21_apply, val_main_v171_apply, val_main_v170_apply, val_main_v168_apply, val_main_v167_apply, val_main_v166_apply, val_main_v165_apply, val_main_v169_apply, val_main_v160_apply, val_main_v159_apply, val_main_v157_apply, val_main_v158_apply, val_main_c_18_apply]
      exact toInt_select (word x5 0 hs j hj rfl (by decide) (by decide) _ (by rfl) (by rfl)))
    (fun j hj => by
      simp only [val_main_v187_apply, val_main_v178_apply, val_main_v177_apply, val_main_v175_apply, val_main_v174_apply, val_main_v173_apply, val_main_v172_apply, val_main_v176_apply, val_main_v164_apply, val_main_v163_apply, val_main_v161_apply, val_main_v162_apply, val_main_c_19_apply]
      exact word x5 1 hd j hj rfl (by decide) (by decide) _ (by rfl) (by rfl)) T

theorem site_cnt2 (x5 : IVec S2x2048 32) (hd : InRange x5 1 128) :
    Host.scatterAdd (F := Ideal) (φ := .f32) scatter_S4096_S65536x1_S65536_n_0_0_1 (val_main_v190 (F := Ideal)) (val_main_v191 (F := Ideal) x5)
        (val_main_v189 (F := Ideal))
      = fun i => segCnt (dstOf 128 (by decide) x5) ⟨(i 0).val % 128, Nat.mod_lt _ (by decide)⟩ :=
  seg_cnt (E := 2048) (Nd := 128) (ME := 65536) rfl (by decide)
    scatter_S4096_S65536x1_S65536_n_0_0_1 rfl rfl rfl rfl
    _ (fun i => by simp only [val_main_v190_apply, val_main_cst_24_apply]; rfl) _ _ (fun i => by simp only [val_main_v189_apply, val_main_cst_23_apply]; rfl) _
    (fun j hj => by
      simp only [val_main_v191_apply, val_main_v178_apply, val_main_v177_apply, val_main_v175_apply, val_main_v174_apply, val_main_v173_apply, val_main_v172_apply, val_main_v176_apply, val_main_v164_apply, val_main_v163_apply, val_main_v161_apply, val_main_v162_apply, val_main_c_19_apply]
      exact word x5 1 hd j hj rfl (by decide) (by decide) _ (by rfl) (by rfl))

theorem site_agg2 (x6 : IVec S2x2048 32) (hs : InRange x6 0 128) (hd : InRange x6 1 128) (T : Feat 128) :
    Host.scatterAdd (F := Ideal) (φ := .f32) scatter_S4096x64_S65536x1_S65536x64_1_0_0_1 (val_main_v227 (F := Ideal)) (val_main_v228 (F := Ideal) x6)
        (Host.gather gather_S4096x64_S65536x1_S65536x64_1_0_n_n_0_1_164 (bmaj (N := 128) (by decide) T) (val_main_v225 (F := Ideal) x6))
      = bmaj (N := 128) (by decide) (fun b n f => segSum (srcOf 128 (by decide) x6) (dstOf 128 (by decide) x6) (fun s => T b s f) n) :=
  seg_rows (E := 2048) (Ns := 128) (Nd := 128) (ME := 65536) rfl (by decide) (by decide)
    scatter_S4096x64_S65536x1_S65536x64_1_0_0_1 rfl rfl rfl rfl
    gather_S4096x64_S65536x1_S65536x64_1_0_n_n_0_1_164 rfl rfl rfl rfl rfl rfl rfl
    _ (fun i => by simp only [val_main_v227_apply, val_main_cst_30_apply]; rfl) _ _ _ _
    (fun j hj => by
      simp only [val_main_v225_apply, val_main_v224_apply, val_main_v221_apply, val_main_v223_apply, val_main_v220_apply, val_main_c_28_apply, val_main_v222_apply, val_main_c_29_apply, val_main_v212_apply, val_main_v211_apply, val_main_v209_apply, val_main_v208_apply, val_main_v207_apply, val_main_v206_apply, val_main_v210_apply, val_main_v201_apply, val_main_v200_apply, val_main_v198_apply, val_main_v199_apply, val_main_c_26_apply]
      exact toInt_select (word x6 0 hs j hj rfl (by decide) (by decide) _ (by rfl) (by rfl)))
    (fun j hj => by
      simp only [val_main_v228_apply, val_main_v219_apply, val_main_v218_apply, val_main_v216_apply, val_main_v215_apply, val_main_v214_apply, val_main_v213_apply, val_main_v217_apply, val_main_v205_apply, val_main_v204_apply, val_main_v202_apply, val_main_v203_apply, val_main_c_27_apply]
      exact word x6 1 hd j hj rfl (by decide) (by decide) _ (by rfl) (by rfl)) T

end Cert.ReferenceIdeal.RSeg

end
-- ==== Proof.RChain0.lean ====
import proofs.«421097_j4681514352669_2_alg».proof.Proof.RefRead
import proofs.«421097_j4681514352669_2_alg».proof.Proof.RSeg
import proofs.«421097_j4681514352669_2_alg».proof.Proof.Spec
import proofs.«421097_j4681514352669_2_alg».proof.Proof.Net
import proofs.«421097_j4681514352669_2_alg».proof.Proof.Algebra
import proofs.«421097_j4681514352669_2_alg».proof.Proof.Layout

noncomputable section

namespace Cert.ReferenceIdeal.RChain

open Idealize.ShloMosaic Idealize.ShloMosaic.ValueIdx Cert.Spec Cert.Net Cert.ReferenceIdeal

/-- The input features summed over the level-0 edges into each node. -/
abbrev agg0 (a : Args) : Feat 8192 :=
  fun b n f => segSum (srcOf 8192 (by decide) a.e0) (dstOf 8192 (by decide) a.e0) (fun s => H0 a b s f) n

/-- The level-0 features summed over the first pooling's edges into each coarse node. -/
abbrev sum1 (a : Args) : Feat 1024 :=
  fun b n f => segSum (srcOf 8192 (by decide) a.c1) (dstOf 1024 (by decide) a.c1) (fun s => L0 a b s f) n

/-- Unfolding every stage at (r, f) leaves the two layers of the perceptron on row r of input plus neighbour sums. -/
theorem percep0 (x0 : S262144x64.Idx → EReal) (x2 : S2x65536.Idx → BitVec 32) (P : GinW) (r : Fin 262144) (f : Fin 64) :
    Read.val_main_v57 (F := Ideal) x0 x2 P.w1 P.b1 P.g P.bt P.rm P.rv P.w2 P.b2 (ix2 r f)
      = ginOut P (fun k => x0 (ix2 r k) + Read.val_main_v31 (F := Ideal) x0 x2 (ix2 r k)) f := by
  have l33 : ∀ f k : Fin 64, Read.lidx_main_v33 (ix2 r f) k = ix2 r k := fun _ _ => eq_ix2 _
  have r33 : ∀ f k : Fin 64, Read.ridx_main_v33 (ix2 r f) k = ix2 k f := fun _ _ => eq_ix2 _
  have l53 : ∀ f k : Fin 64, Read.lidx_main_v53 (ix2 r f) k = ix2 r k := fun _ _ => eq_ix2 _
  have r53 : ∀ f k : Fin 64, Read.ridx_main_v53 (ix2 r f) k = ix2 k f := fun _ _ => eq_ix2 _
  have e35 : ∀ f : Fin 64, Read.idx_main_v34 (Read.idx_main_v35 (ix2 r f)) = ix1 f := fun _ => eq_ix1 _
  have e38 : ∀ f : Fin 64, Read.idx_main_v37 (Read.idx_main_v38 (ix2 r f)) = ix1 f := fun _ => eq_ix1 _
  have e44 : ∀ f : Fin 64, Read.idx_main_v43 (Read.idx_main_v44 (ix2 r f)) = ix1 f := fun _ => eq_ix1 _
  have e47 : ∀ f : Fin 64, Read.idx_main_v46 (Read.idx_main_v47 (ix2 r f)) = ix1 f := fun _ => eq_ix1 _
  have e50 : ∀ f : Fin 64, Read.idx_main_v49 (Read.idx_main_v50 (ix2 r f)) = ix1 f := fun _ => eq_ix1 _
  have e55 : ∀ f : Fin 64, Read.idx_main_v54 (Read.idx_main_v55 (ix2 r f)) = ix1 f := fun _ => eq_ix1 _
  unfold ginOut ginMid
  simp only [Read.val_main_v57_apply, Read.val_main_v56_apply, Read.val_main_v55_apply, Read.val_main_v54_apply,
    Read.val_main_v53_apply, Read.val_main_v52_apply, Read.val_main_v51_apply, Read.val_main_v50_apply,
    Read.val_main_v49_apply, Read.val_main_v48_apply, Read.val_main_v47_apply, Read.val_main_v46_apply,
    Read.val_main_v45_apply, Read.val_main_v44_apply, Read.val_main_v43_apply, Read.val_main_v42_apply,
    Read.val_main_v41_apply, Read.val_main_v40_apply, Read.val_main_cst_3_apply, Read.val_main_v39_apply,
    Read.val_main_v38_apply, Read.val_main_v37_apply, Read.val_main_v36_apply, Read.val_main_v35_apply,
    Read.val_main_v34_apply, Read.val_main_v33_apply, Read.val_main_v32_apply,
    Read.val_main_call0_v0_apply, Read.val_main_call0_cst_apply, Read.val_main_call1_v0_apply, Read.val_main_call1_cst_apply,
    l33, r33, l53, r53, e35, e38, e44, e47, e50, e55,
    Ideal.addf_def, Ideal.subf_def, Ideal.mulf_def, Ideal.maximumf_def, Ideal.hostUnary_rsqrt_def, Ideal.ofBits_def]

/-- Adding the gathered input rows at the edges' destinations gives the sums over incoming edges. -/
theorem v31_eq (a : Args) (hr : a.Ranges) :
    Read.val_main_v31 (F := Ideal) a.x a.e0 = bmaj (by decide) (agg0 a) := by
  have h := RSeg.site_agg0 a.e0 hr.e0s hr.e0d (H0 a)
  rw [Layout.bmaj_H0] at h
  unfold Read.val_main_v31 Read.val_main_v28
  exact h

/-- The perceptron on input plus neighbour sums, row by row, is the level-0 convolution. -/
theorem v57_eq (a : Args) (hr : a.Ranges) :
    Read.val_main_v57 (F := Ideal) a.x a.e0 a.conv1.w1 a.conv1.b1 a.conv1.g a.conv1.bt a.conv1.rm a.conv1.rv a.conv1.w2 a.conv1.b2
      = bmaj (by decide) (L0 a) := by
  funext i
  obtain ⟨r, f, rfl⟩ : ∃ (r : Fin 262144) (f : Fin 64), i = ix2 r f := ⟨i 0, i 1, eq_ix2 i⟩
  rw [percep0, v31_eq a hr]
  have hx : ∀ k : Fin 64, a.x (ix2 r k) = bmaj (by decide) (H0 a) (ix2 r k) := fun k => by rw [Layout.bmaj_H0]
  simp only [hx]
  exact Layout.bmaj_conv_apply (by decide) a.conv1 _ _ (H0 a) r f

/-- Adding the gathered level-0 rows at the pooling edges' destinations gives the pooling sums. -/
theorem v89_eq (a : Args) (hr : a.Ranges) :
    Read.val_main_v89 (F := Ideal) a.x a.e0 a.c1 a.conv1.w1 a.conv1.b1 a.conv1.g a.conv1.bt a.conv1.rm a.conv1.rv a.conv1.w2 a.conv1.b2
      = bmaj (by decide) (sum1 a) := by
  unfold Read.val_main_v89 Read.val_main_v86
  rw [v57_eq a hr]
  exact RSeg.site_pool1 a.c1 hr.c1s hr.c1d (L0 a)

/-- Adding ones at the pooling edges' destinations counts the edges into each coarse node. -/
theorem v93_eq (a : Args) (hr : a.Ranges) :
    Read.val_main_v93 (F := Ideal) a.c1
      = fun i => segCnt (dstOf 1024 (by decide) a.c1) ⟨(i 0).val % 1024, Nat.mod_lt _ (by decide)⟩ := by
  unfold Read.val_main_v93
  exact RSeg.site_cnt1 a.c1 hr.c1d

/-- The pooling sums over the larger of the edge count and one are the mean pooling. -/
theorem lvl0 (a : Args) (hr : a.Ranges) :
    Read.val_main_v98 (F := Ideal) a.x a.e0 a.c1 a.conv1.w1 a.conv1.b1 a.conv1.g a.conv1.bt a.conv1.rm a.conv1.rv a.conv1.w2 a.conv1.b2
      = bmaj (by decide) (P1 a) := by
  funext i
  obtain ⟨r, f, rfl⟩ : ∃ (r : Fin 32768) (f : Fin 64), i = ix2 r f := ⟨i 0, i 1, eq_ix2 i⟩
  rw [Read.val_main_v98_apply, v89_eq a hr, Read.val_main_v97_apply, Read.val_main_v96_apply, Read.val_main_v95_apply,
    v93_eq a hr, Read.val_main_v94_apply, Read.val_main_cst_11_apply]
  simp only [Ideal.hostDivf_def, Ideal.maximumf_def, Ideal.ofBits_def]
  rfl

end Cert.ReferenceIdeal.RChain

end
-- ==== Proof.RChain1.lean ====
import proofs.«421097_j4681514352669_2_alg».proof.Proof.RefRead
import proofs.«421097_j4681514352669_2_alg».proof.Proof.RSeg
import proofs.«421097_j4681514352669_2_alg».proof.Proof.Spec
import proofs.«421097_j4681514352669_2_alg».proof.Proof.Net
import proofs.«421097_j4681514352669_2_alg».proof.Proof.Algebra
import proofs.«421097_j4681514352669_2_alg».proof.Proof.Layout

noncomputable section

namespace Cert.ReferenceIdeal.RChain

open Idealize.ShloMosaic Idealize.ShloMosaic.ValueIdx Cert.Spec Cert.Net Cert.ReferenceIdeal Cert.ReferenceIdeal.Gen Cert.ReferenceIdeal.Read

variable (x0 : (⟨S262144x64, .f32⟩ : BufTy).Contents (Elt Ideal)) (x2 : (⟨S2x65536, .i32⟩ : BufTy).Contents (Elt Ideal))
  (x3 x4 : (⟨S2x16384, .i32⟩ : BufTy).Contents (Elt Ideal)) (x5 : (⟨S2x2048, .i32⟩ : BufTy).Contents (Elt Ideal))
  (x7 : (⟨S64x64, .f32⟩ : BufTy).Contents (Elt Ideal)) (x8 x9 x10 x11 x12 : (⟨S64, .f32⟩ : BufTy).Contents (Elt Ideal))
  (x13 : (⟨S64x64, .f32⟩ : BufTy).Contents (Elt Ideal)) (x14 : (⟨S64, .f32⟩ : BufTy).Contents (Elt Ideal)) (P : GinW)

/-- Unfolding every stage at (r, c) leaves the two layers of the perceptron on row r of the summed input. -/
theorem out1 (r : Fin 32768) (c : Fin 64) :
    val_main_v156 (F := Ideal) x0 x2 x3 x4 x7 x8 x9 x10 x11 x12 x13 x14 P.w1 P.b1 P.g P.bt P.rm P.rv P.w2 P.b2 (ix2 r c)
      = ginOut P (fun f => val_main_v131 (F := Ideal) x0 x2 x3 x4 x7 x8 x9 x10 x11 x12 x13 x14 (ix2 r f)) c := by
  have l132 : ∀ c k : Fin 64, lidx_main_v132 (ix2 r c) k = ix2 r k := fun _ _ => eq_ix2 _
  have r132 : ∀ c k : Fin 64, ridx_main_v132 (ix2 r c) k = ix2 k c := fun _ _ => eq_ix2 _
  have l152 : ∀ c k : Fin 64, lidx_main_v152 (ix2 r c) k = ix2 r k := fun _ _ => eq_ix2 _
  have r152 : ∀ c k : Fin 64, ridx_main_v152 (ix2 r c) k = ix2 k c := fun _ _ => eq_ix2 _
  have e134 : ∀ c : Fin 64, idx_main_v133 (idx_main_v134 (ix2 r c)) = ix1 c := fun _ => eq_ix1 _
  have e137 : ∀ c : Fin 64, idx_main_v136 (idx_main_v137 (ix2 r c)) = ix1 c := fun _ => eq_ix1 _
  have e143 : ∀ c : Fin 64, idx_main_v142 (idx_main_v143 (ix2 r c)) = ix1 c := fun _ => eq_ix1 _
  have e146 : ∀ c : Fin 64, idx_main_v145 (idx_main_v146 (ix2 r c)) = ix1 c := fun _ => eq_ix1 _
  have e149 : ∀ c : Fin 64, idx_main_v148 (idx_main_v149 (ix2 r c)) = ix1 c := fun _ => eq_ix1 _
  have e154 : ∀ c : Fin 64, idx_main_v153 (idx_main_v154 (ix2 r c)) = ix1 c := fun _ => eq_ix1 _
  unfold ginOut ginMid
  simp only [val_main_v156_apply, val_main_v155_apply, val_main_v152_apply, val_main_v154_apply, val_main_v153_apply,
    val_main_call3_v0_apply, val_main_call3_cst_apply, val_main_v151_apply, val_main_v150_apply, val_main_v147_apply,
    val_main_v144_apply, val_main_v138_apply, val_main_v135_apply, val_main_v132_apply, val_main_v134_apply,
    val_main_v133_apply, val_main_v137_apply, val_main_v136_apply, val_main_v143_apply, val_main_v142_apply,
    val_main_v141_apply, val_main_v140_apply, val_main_v139_apply, val_main_cst_17_apply, val_main_v146_apply,
    val_main_v145_apply, val_main_v149_apply, val_main_v148_apply, val_main_call2_v0_apply, val_main_call2_cst_apply,
    l132, r132, l152, r152, e134, e137, e143, e146, e149, e154, Ideal.addf_def, Ideal.subf_def, Ideal.mulf_def,
    Ideal.maximumf_def, Ideal.hostUnary_rsqrt_def, Ideal.ofBits_def]

/-- Adding the gathered pooled rows at the level-1 edges' destinations gives the sums over incoming edges. -/
theorem agg1 (T : Feat 1024) (hs : InRange x4 0 1024) (hd : InRange x4 1 1024)
    (h98 : val_main_v98 (F := Ideal) x0 x2 x3 x7 x8 x9 x10 x11 x12 x13 x14 = bmaj (by decide) T) :
    val_main_v130 (F := Ideal) x0 x2 x3 x4 x7 x8 x9 x10 x11 x12 x13 x14
      = bmaj (by decide) (fun b n f => segSum (srcOf 1024 (by decide) x4) (dstOf 1024 (by decide) x4) (fun s => T b s f) n) := by
  unfold val_main_v130 val_main_v127
  rw [h98]
  exact RSeg.site_agg1 x4 hs hd T

/-- Adding the gathered level-1 rows at the pooling edges' destinations gives the pooling sums. -/
theorem pool2sum (T : Feat 1024) (hs : InRange x5 0 1024) (hd : InRange x5 1 128)
    (h156 : val_main_v156 (F := Ideal) x0 x2 x3 x4 x7 x8 x9 x10 x11 x12 x13 x14 P.w1 P.b1 P.g P.bt P.rm P.rv P.w2 P.b2 = bmaj (by decide) T) :
    val_main_v188 (F := Ideal) x0 x2 x3 x4 x5 x7 x8 x9 x10 x11 x12 x13 x14 P.w1 P.b1 P.g P.bt P.rm P.rv P.w2 P.b2
      = bmaj (by decide) (fun b n f => segSum (srcOf 1024 (by decide) x5) (dstOf 128 (by decide) x5) (fun s => T b s f) n) := by
  unfold val_main_v188 val_main_v185
  rw [h156]
  exact RSeg.site_pool2 x5 hs hd T

/-- Adding ones at the pooling edges' destinations counts the edges into each coarse node. -/
theorem cnt2 (a : Cert.Net.Args) (hr : a.Ranges) :
    val_main_v192 (F := Ideal) a.c2
      = fun i => segCnt (dstOf 128 (by decide) a.c2) ⟨(i 0).val % 128, Nat.mod_lt _ (by decide)⟩ := by
  unfold val_main_v192
  exact RSeg.site_cnt2 a.c2 hr.c2d

/-- The perceptron on pooled features plus neighbour sums is the level-1 convolution; sums over counts are the mean pooling. -/
theorem lvl1 (a : Cert.Net.Args) (hr : a.Ranges)
    (h98 : val_main_v98 (F := Ideal) a.x a.e0 a.c1 a.conv1.w1 a.conv1.b1 a.conv1.g a.conv1.bt a.conv1.rm a.conv1.rv a.conv1.w2 a.conv1.b2 = bmaj (by decide) (P1 a)) :
    val_main_v197 (F := Ideal) a.x a.e0 a.c1 a.i1 a.c2 a.conv1.w1 a.conv1.b1 a.conv1.g a.conv1.bt a.conv1.rm a.conv1.rv a.conv1.w2 a.conv1.b2 a.gin1.w1 a.gin1.b1 a.gin1.g a.gin1.bt a.gin1.rm a.gin1.rv a.gin1.w2 a.gin1.b2 = bmaj (by decide) (P2 a) := by
  have h130 := agg1 (hs := hr.i1s) (hd := hr.i1d) (h98 := h98)
  have h156 : val_main_v156 (F := Ideal) a.x a.e0 a.c1 a.i1 a.conv1.w1 a.conv1.b1 a.conv1.g a.conv1.bt a.conv1.rm a.conv1.rv a.conv1.w2 a.conv1.b2 a.gin1.w1 a.gin1.b1 a.gin1.g a.gin1.bt a.gin1.rm a.gin1.rv a.gin1.w2 a.gin1.b2 = bmaj (by decide) (L1 a) := by
    funext i
    obtain ⟨r, c, rfl⟩ : ∃ (r : Fin 32768) (c : Fin 64), i = ix2 r c := ⟨i 0, i 1, eq_ix2 i⟩
    rw [out1]
    simp only [val_main_v131_apply, h98, h130]
    exact Cert.Layout.bmaj_conv_apply (by decide) a.gin1 (srcOf 1024 (by decide) a.i1) (dstOf 1024 (by decide) a.i1) (P1 a) r c
  have h188 := pool2sum (hs := hr.c2s) (hd := hr.c2d) (h156 := h156)
  have h192 := cnt2 a hr
  funext i
  obtain ⟨r, f, rfl⟩ : ∃ (r : Fin 4096) (f : Fin 64), i = ix2 r f := ⟨i 0, i 1, eq_ix2 i⟩
  have e1 : idx_main_v195 (idx_main_v196 (ix2 r f)) = ix1 r := eq_ix1 _
  rw [val_main_v197_apply, val_main_v196_apply, val_main_v195_apply, val_main_v194_apply, val_main_v193_apply,
    val_main_cst_25_apply, e1, h188, h192]
  rfl

end Cert.ReferenceIdeal.RChain

end
-- ==== Proof.RChain2.lean ====
import proofs.«421097_j4681514352669_2_alg».proof.Proof.RefRead
import proofs.«421097_j4681514352669_2_alg».proof.Proof.RSeg
import proofs.«421097_j4681514352669_2_alg».proof.Proof.Spec
import proofs.«421097_j4681514352669_2_alg».proof.Proof.Net
import proofs.«421097_j4681514352669_2_alg».proof.Proof.Layout

noncomputable section

namespace Cert.ReferenceIdeal.RChain

open Cert.ReferenceIdeal Cert.ReferenceIdeal.Gen Idealize.ShloMosaic Idealize.ShloMosaic.ValueIdx Cert.Spec Cert.Net

namespace Two

section Level2

variable (x0 : (⟨S262144x64, .f32⟩ : BufTy).Contents (Elt Ideal)) (x2 : (⟨S2x65536, .i32⟩ : BufTy).Contents (Elt Ideal))
  (x3 x4 : (⟨S2x16384, .i32⟩ : BufTy).Contents (Elt Ideal)) (x5 x6 : (⟨S2x2048, .i32⟩ : BufTy).Contents (Elt Ideal))
  (x7 x13 x15 x21 x23 x29 : (⟨S64x64, .f32⟩ : BufTy).Contents (Elt Ideal))
  (x8 x9 x10 x11 x12 x14 x16 x17 x18 x19 x20 x22 x24 x25 x26 x27 x28 x30 : (⟨S64, .f32⟩ : BufTy).Contents (Elt Ideal))

/-- Adding the gathered rows at the level-2 edges' destinations gives the sums over incoming edges. -/
theorem agg_eq (T : Feat 128) (hs : InRange x6 0 128) (hd : InRange x6 1 128)
    (h197 : Read.val_main_v197 (F := Ideal) x0 x2 x3 x4 x5 x7 x8 x9 x10 x11 x12 x13 x14 x15 x16 x17 x18 x19 x20 x21 x22 = bmaj (by decide) T) :
    Read.val_main_v229 (F := Ideal) x0 x2 x3 x4 x5 x6 x7 x8 x9 x10 x11 x12 x13 x14 x15 x16 x17 x18 x19 x20 x21 x22
      = bmaj (by decide) (fun b n f => segSum (srcOf 128 (by decide) x6) (dstOf 128 (by decide) x6) (fun s => T b s f) n) := by
  unfold Read.val_main_v229 Read.val_main_v226
  rw [h197]
  exact RSeg.site_agg2 x6 hs hd T

/-- Unfolding every stage at (r, c) leaves the two layers of the perceptron on row r of the summed input. -/
theorem out_at (P : GinW) (r : Fin 4096) (c : Fin 64) :
    Read.val_main_v255 (F := Ideal) x0 x2 x3 x4 x5 x6 x7 x8 x9 x10 x11 x12 x13 x14 x15 x16 x17 x18 x19 x20 x21 x22 P.w1 P.b1 P.g P.bt P.rm P.rv P.w2 P.b2 (ix2 r c)
      = ginOut P (fun f => Read.val_main_v230 (F := Ideal) x0 x2 x3 x4 x5 x6 x7 x8 x9 x10 x11 x12 x13 x14 x15 x16 x17 x18 x19 x20 x21 x22 (ix2 r f)) c := by
  have l231 : ∀ c k : Fin 64, Read.lidx_main_v231 (ix2 r c) k = ix2 r k := fun _ _ => eq_ix2 _
  have r231 : ∀ c k : Fin 64, Read.ridx_main_v231 (ix2 r c) k = ix2 k c := fun _ _ => eq_ix2 _
  have l251 : ∀ c k : Fin 64, Read.lidx_main_v251 (ix2 r c) k = ix2 r k := fun _ _ => eq_ix2 _
  have r251 : ∀ c k : Fin 64, Read.ridx_main_v251 (ix2 r c) k = ix2 k c := fun _ _ => eq_ix2 _
  have e233 : ∀ c : Fin 64, Read.idx_main_v232 (Read.idx_main_v233 (ix2 r c)) = ix1 c := fun _ => eq_ix1 _
  have e236 : ∀ c : Fin 64, Read.idx_main_v235 (Read.idx_main_v236 (ix2 r c)) = ix1 c := fun _ => eq_ix1 _
  have e242 : ∀ c : Fin 64, Read.idx_main_v241 (Read.idx_main_v242 (ix2 r c)) = ix1 c := fun _ => eq_ix1 _
  have e245 : ∀ c : Fin 64, Read.idx_main_v244 (Read.idx_main_v245 (ix2 r c)) = ix1 c := fun _ => eq_ix1 _
  have e248 : ∀ c : Fin 64, Read.idx_main_v247 (Read.idx_main_v248 (ix2 r c)) = ix1 c := fun _ => eq_ix1 _
  have e253 : ∀ c : Fin 64, Read.idx_main_v252 (Read.idx_main_v253 (ix2 r c)) = ix1 c := fun _ => eq_ix1 _
  unfold ginOut ginMid
  simp only [Read.val_main_v255_apply, Read.val_main_v254_apply, Read.val_main_v251_apply, Read.val_main_v253_apply,
    Read.val_main_v252_apply, Read.val_main_call5_v0_apply, Read.val_main_call5_cst_apply, Read.val_main_v250_apply,
    Read.val_main_v249_apply, Read.val_main_v246_apply, Read.val_main_v243_apply, Read.val_main_v237_apply,
    Read.val_main_v234_apply, Read.val_main_v231_apply, Read.val_main_v233_apply, Read.val_main_v232_apply,
    Read.val_main_v236_apply, Read.val_main_v235_apply, Read.val_main_v242_apply, Read.val_main_v241_apply,
    Read.val_main_v240_apply, Read.val_main_v239_apply, Read.val_main_v238_apply, Read.val_main_cst_31_apply,
    Read.val_main_v245_apply, Read.val_main_v244_apply, Read.val_main_v248_apply, Read.val_main_v247_apply,
    Read.val_main_call4_v0_apply, Read.val_main_call4_cst_apply, l231, r231, l251, r251, e233, e236, e242, e245,
    e248, e253, Ideal.addf_def, Ideal.subf_def, Ideal.mulf_def, Ideal.maximumf_def, Ideal.hostUnary_rsqrt_def,
    Ideal.ofBits_def]

/-- Row r of the summed array is row r of input plus row r of neighbour sums. -/
theorem conv_eq (P : GinW) (T S : Feat 128)
    (h197 : Read.val_main_v197 (F := Ideal) x0 x2 x3 x4 x5 x7 x8 x9 x10 x11 x12 x13 x14 x15 x16 x17 x18 x19 x20 x21 x22 = bmaj (by decide) T)
    (h229 : Read.val_main_v229 (F := Ideal) x0 x2 x3 x4 x5 x6 x7 x8 x9 x10 x11 x12 x13 x14 x15 x16 x17 x18 x19 x20 x21 x22 = bmaj (by decide) S) :
    Read.val_main_v255 (F := Ideal) x0 x2 x3 x4 x5 x6 x7 x8 x9 x10 x11 x12 x13 x14 x15 x16 x17 x18 x19 x20 x21 x22 P.w1 P.b1 P.g P.bt P.rm P.rv P.w2 P.b2
      = bmaj (by decide) (fun b n => ginOut P (fun f => T b n f + S b n f)) := by
  funext i
  obtain ⟨r, c, rfl⟩ : ∃ (r : Fin 4096) (c : Fin 64), i = ix2 r c := ⟨i 0, i 1, eq_ix2 i⟩
  simp only [out_at, Read.val_main_v230_apply, h197, h229]
  rfl

/-- Position b * 8192 + j of the flattened order is feature j % 64 of node j / 64 of graph b. -/
theorem flat_at (L : Feat 128) (b : Fin 32) (j : Fin 8192) :
    bmaj (by decide) L (Read.idx_main_v256 (ix2 b j))
      = L b ⟨j.val / 64, by have := j.isLt; omega⟩ ⟨j.val % 64, Nat.mod_lt _ (by decide)⟩ := by
  have hb := b.isLt
  have hj := j.isLt
  unfold Cert.Net.bmaj
  exact Cert.Layout.feat_congr L (by show (b.val * 8192 + j.val) / 64 / 128 = b.val; omega)
    (by show (b.val * 8192 + j.val) / 64 % 128 = j.val / 64; omega)
    (by show (b.val * 8192 + j.val) % 64 = j.val % 64; omega)

/-- The first readout product on the flattened graph, its bias, rectified. -/
theorem hid_at (L : Feat 128) (W1 : (⟨S8192x64, .f32⟩ : BufTy).Contents (Elt Ideal)) (B1 : (⟨S64, .f32⟩ : BufTy).Contents (Elt Ideal))
    (h255 : Read.val_main_v255 (F := Ideal) x0 x2 x3 x4 x5 x6 x7 x8 x9 x10 x11 x12 x13 x14 x15 x16 x17 x18 x19 x20 x21 x22 x23 x24 x25 x26 x27 x28 x29 x30 = bmaj (by decide) L) (b : Fin 32) (c : Fin 64) :
    Read.val_main_v261 (F := Ideal) x0 x2 x3 x4 x5 x6 x7 x8 x9 x10 x11 x12 x13 x14 x15 x16 x17 x18 x19 x20 x21 x22 x23 x24 x25 x26 x27 x28 x29 x30 W1 B1 (ix2 b c)
      = max ((∑ j : Fin 8192, L b ⟨j.val / 64, by have := j.isLt; omega⟩ ⟨j.val % 64, Nat.mod_lt _ (by decide)⟩ * W1 (ix2 j c))
          + B1 (ix1 c)) zero := by
  have el : ∀ k : Fin 8192, Read.lidx_main_v257 (ix2 b c) k = ix2 b k := fun _ => eq_ix2 _
  have er : ∀ k : Fin 8192, Read.ridx_main_v257 (ix2 b c) k = ix2 k c := fun _ => eq_ix2 _
  have e259 : Read.idx_main_v258 (Read.idx_main_v259 (ix2 b c)) = ix1 c := eq_ix1 _
  rw [Read.val_main_v261_apply, Read.val_main_v260_apply, Read.val_main_v257_apply, Read.val_main_v259_apply,
    Read.val_main_v258_apply, Read.val_main_call6_v0_apply, Read.val_main_call6_cst_apply]
  simp only [el, er, e259, Read.val_main_v256_apply, h255, flat_at, Ideal.addf_def, Ideal.maximumf_def, Ideal.ofBits_def]

/-- The second readout product on the hidden layer, and its bias. -/
theorem fin_at (L : Feat 128) (W1 : (⟨S8192x64, .f32⟩ : BufTy).Contents (Elt Ideal)) (B1 : (⟨S64, .f32⟩ : BufTy).Contents (Elt Ideal))
    (W2 : (⟨S64x10, .f32⟩ : BufTy).Contents (Elt Ideal)) (B2 : (⟨S10, .f32⟩ : BufTy).Contents (Elt Ideal))
    (h255 : Read.val_main_v255 (F := Ideal) x0 x2 x3 x4 x5 x6 x7 x8 x9 x10 x11 x12 x13 x14 x15 x16 x17 x18 x19 x20 x21 x22 x23 x24 x25 x26 x27 x28 x29 x30 = bmaj (by decide) L) (b : Fin 32) (o : Fin 10) :
    Read.val_main_v265 (F := Ideal) x0 x2 x3 x4 x5 x6 x7 x8 x9 x10 x11 x12 x13 x14 x15 x16 x17 x18 x19 x20 x21 x22 x23 x24 x25 x26 x27 x28 x29 x30 W1 B1 W2 B2 (ix2 b o)
      = (∑ c : Fin 64,
          max ((∑ j : Fin 8192, L b ⟨j.val / 64, by have := j.isLt; omega⟩ ⟨j.val % 64, Nat.mod_lt _ (by decide)⟩ * W1 (ix2 j c))
            + B1 (ix1 c)) zero * W2 (ix2 c o)) + B2 (ix1 o) := by
  have el : ∀ k : Fin 64, Read.lidx_main_v262 (ix2 b o) k = ix2 b k := fun _ => eq_ix2 _
  have er : ∀ k : Fin 64, Read.ridx_main_v262 (ix2 b o) k = ix2 k o := fun _ => eq_ix2 _
  have e264 : Read.idx_main_v263 (Read.idx_main_v264 (ix2 b o)) = ix1 o := eq_ix1 _
  rw [Read.val_main_v265_apply, Read.val_main_v262_apply, Read.val_main_v264_apply, Read.val_main_v263_apply]
  simp only [el, er, e264, hid_at (h255 := h255), Ideal.addf_def]

end Level2

end Two

/-- The perceptron on input plus neighbour sums is the level-2 convolution, and the two products are the readout. -/
theorem lvl2 (a : Cert.Net.Args) (hr : a.Ranges)
    (h197 : Read.val_main_v197 (F := Ideal) a.x a.e0 a.c1 a.i1 a.c2 a.conv1.w1 a.conv1.b1 a.conv1.g a.conv1.bt a.conv1.rm a.conv1.rv a.conv1.w2 a.conv1.b2 a.gin1.w1 a.gin1.b1 a.gin1.g a.gin1.bt a.gin1.rm a.gin1.rv a.gin1.w2 a.gin1.b2 = Cert.Net.bmaj (by decide) (Cert.Net.P2 a)) :
    Read.val_main_v265 (F := Ideal) a.x a.e0 a.c1 a.i1 a.c2 a.i2 a.conv1.w1 a.conv1.b1 a.conv1.g a.conv1.bt a.conv1.rm a.conv1.rv a.conv1.w2 a.conv1.b2 a.gin1.w1 a.gin1.b1 a.gin1.g a.gin1.bt a.gin1.rm a.gin1.rv a.gin1.w2 a.gin1.b2 a.gin2.w1 a.gin2.b1 a.gin2.g a.gin2.bt a.gin2.rm a.gin2.rv a.gin2.w2 a.gin2.b2 a.lin1_w a.lin1_b a.lin2_w a.lin2_b = Cert.Net.out a := by
  have h229 := Two.agg_eq (hs := hr.i2s) (hd := hr.i2d) (h197 := h197)
  have h255 := Two.conv_eq (P := a.gin2) (h197 := h197) (h229 := h229)
  funext i
  obtain ⟨b, o, rfl⟩ : ∃ (b : Fin 32) (o : Fin 10), i = ix2 b o := ⟨i 0, i 1, eq_ix2 i⟩
  rw [Two.fin_at (h255 := h255)]
  rfl

end Cert.ReferenceIdeal.RChain

end
-- ==== Proof.PreRanges.lean ====
import proofs.«421097_j4681514352669_2_alg».proof.Defs
import proofs.«421097_j4681514352669_2_alg».proof.Proof.Gen.Pre_finite_inputs
import proofs.«421097_j4681514352669_2_alg».proof.Proof.Args
import Idealize.ShloMosaic.Lib.ReduceAll
import Idealize.ShloMosaic.Lib.ValueIdx

noncomputable section

namespace Cert.PreRanges

open Idealize.ShloMosaic Idealize.ShloMosaic.ValueIdx Idealize.SL.Sem
open Cert.Pre_finite_inputs Cert.Spec

instance subsingleton_scalar_idx : Subsingleton S_.Idx := ⟨fun a b => funext fun d => d.elim0⟩

theorem and_one (x y : IVec S_ 1) (j : S_.Idx) (e : andi x y j = 1#1) : x j = 1#1 ∧ y j = 1#1 :=
  IntOp.andi_eq_one.1 e

section Words

variable {s : Shape} {axes : List (Fin s.rank)}

theorem all_sge (x : IVec s 32) (b : BitVec 32) (hb : S_.BroadcastsInDim s (![] : Fin 0 → Fin s.rank))
    (hr : s.ReducesTo axes S_) (hu : 0 < S_.numel) (init : IVec S_ 1) (j : S_.Idx)
    (e : Host.reduce IntOp.andi (cmpi .sge x (broadcastInDim s ![] hb (constantI S_ 32 b))) init hr hu j = 1#1)
    (i : s.Idx) : b.toInt ≤ (x i).toInt :=
  IntOp.cmpi_sge.1 (Host.reduce_andi_all _ init hr hu j e i)

theorem all_slt (x : IVec s 32) (b : BitVec 32) (hb : S_.BroadcastsInDim s (![] : Fin 0 → Fin s.rank))
    (hr : s.ReducesTo axes S_) (hu : 0 < S_.numel) (init : IVec S_ 1) (j : S_.Idx)
    (e : Host.reduce IntOp.andi (cmpi .slt x (broadcastInDim s ![] hb (constantI S_ 32 b))) init hr hu j = 1#1)
    (i : s.Idx) : (x i).toInt < b.toInt :=
  IntOp.cmpi_slt.1 (Host.reduce_andi_all _ init hr hu j e i)

end Words

theorem slice_row {E : ℕ} {α : Type} (o : ℕ) (ho : o < 2) (x : (⟨2, ![2, E]⟩ : Shape).Idx → α)
    (h : (⟨2, ![2, E]⟩ : Shape).Slices ![o, 0] ⟨2, ![1, E]⟩) (k : Fin E) :
    extractStridedSlice (⟨2, ![1, E]⟩ : Shape) ![o, 0] x h (ix2 (0 : Fin 1) k) = x (ix2 (⟨o, ho⟩ : Fin 2) k) := by
  unfold extractStridedSlice
  congr 1
  funext a
  match a with
  | ⟨0, _⟩ => exact Fin.ext (Nat.add_zero o)
  | ⟨1, _⟩ => exact Fin.ext (Nat.zero_add k.val)

theorem toInt_0 : (0#32 : BitVec 32).toInt = ((0 : ℕ) : ℤ) := by decide
theorem toInt_128 : (128#32 : BitVec 32).toInt = ((128 : ℕ) : ℤ) := by decide
theorem toInt_1024 : (1024#32 : BitVec 32).toInt = ((1024 : ℕ) : ℤ) := by decide
theorem toInt_8192 : (8192#32 : BitVec 32).toInt = ((8192 : ℕ) : ℤ) := by decide

theorem row_slt {E : ℕ} {axes : List (Fin (⟨2, ![1, E]⟩ : Shape).rank)} (o : ℕ) (ho : o < 2) (x : IVec ⟨2, ![2, E]⟩ 32)
    (b : BitVec 32) (hs : (⟨2, ![2, E]⟩ : Shape).Slices ![o, 0] ⟨2, ![1, E]⟩)
    (hb : S_.BroadcastsInDim ⟨2, ![1, E]⟩ (![] : Fin 0 → Fin (⟨2, ![1, E]⟩ : Shape).rank))
    (hr : (⟨2, ![1, E]⟩ : Shape).ReducesTo axes S_) (hu : 0 < S_.numel) (init : IVec S_ 1) (j : S_.Idx)
    (e : Host.reduce IntOp.andi (cmpi .slt (extractStridedSlice (⟨2, ![1, E]⟩ : Shape) ![o, 0] x hs)
      (broadcastInDim (⟨2, ![1, E]⟩ : Shape) ![] hb (constantI S_ 32 b))) init hr hu j = 1#1)
    (k : Fin E) : (x (ix2 (⟨o, ho⟩ : Fin 2) k)).toInt < b.toInt := by
  have h := all_slt _ b hb hr hu init j e (ix2 (0 : Fin 1) k)
  rwa [slice_row o ho x hs k] at h

variable [Facts]

theorem tail {F : FTy → Type} [FloatOps F] (a2 : IVec S2x65536 32) (a3 a4 : IVec S2x16384 32) (a5 a6 : IVec S2x2048 32)
    (a34 : FVec F S10 .f32) (v133 : IVec S_ 1) (v136 : IVec S64x10 1)
    (e : fn_part8 (F := F) a2 a3 a4 a5 a6 a34 v133 v136 ix0 = 1#1) :
    (InRange a2 0 8192 ∧ InRange a2 1 8192) ∧ (InRange a3 0 8192 ∧ InRange a3 1 1024)
      ∧ (InRange a4 0 1024 ∧ InRange a4 1 1024) ∧ (InRange a5 0 1024 ∧ InRange a5 1 128)
      ∧ (InRange a6 0 128 ∧ InRange a6 1 128) := by
  dsimp only [fn_part8, fn_part9, fn_part10, fn_part11] at e
  obtain ⟨e, h6b⟩ := and_one _ _ _ e
  obtain ⟨e, h6a⟩ := and_one _ _ _ e
  obtain ⟨e, h5d⟩ := and_one _ _ _ e
  obtain ⟨e, h5s⟩ := and_one _ _ _ e
  obtain ⟨e, h5a⟩ := and_one _ _ _ e
  obtain ⟨e, h4b⟩ := and_one _ _ _ e
  obtain ⟨e, h4a⟩ := and_one _ _ _ e
  obtain ⟨e, h3d⟩ := and_one _ _ _ e
  obtain ⟨e, h3s⟩ := and_one _ _ _ e
  obtain ⟨e, h3a⟩ := and_one _ _ _ e
  obtain ⟨e, h2b⟩ := and_one _ _ _ e
  obtain ⟨-, h2a⟩ := and_one _ _ _ e
  have g2a := fun i => toInt_0.symm.le.trans (all_sge a2 _ _ _ _ _ _ h2a i)
  have g2b := fun i => (all_slt a2 _ _ _ _ _ _ h2b i).trans_eq toInt_8192
  have g3a := fun i => toInt_0.symm.le.trans (all_sge a3 _ _ _ _ _ _ h3a i)
  have g3s := fun k => (row_slt 0 (by decide) a3 _ _ _ _ _ _ _ h3s k).trans_eq toInt_8192
  have g3d := fun k => (row_slt 1 (by decide) a3 _ _ _ _ _ _ _ h3d k).trans_eq toInt_1024
  have g4a := fun i => toInt_0.symm.le.trans (all_sge a4 _ _ _ _ _ _ h4a i)
  have g4b := fun i => (all_slt a4 _ _ _ _ _ _ h4b i).trans_eq toInt_1024
  have g5a := fun i => toInt_0.symm.le.trans (all_sge a5 _ _ _ _ _ _ h5a i)
  have g5s := fun k => (row_slt 0 (by decide) a5 _ _ _ _ _ _ _ h5s k).trans_eq toInt_1024
  have g5d := fun k => (row_slt 1 (by decide) a5 _ _ _ _ _ _ _ h5d k).trans_eq toInt_128
  have g6a := fun i => toInt_0.symm.le.trans (all_sge a6 _ _ _ _ _ _ h6a i)
  have g6b := fun i => (all_slt a6 _ _ _ _ _ _ h6b i).trans_eq toInt_128
  exact ⟨⟨fun k => ⟨g2a _, g2b _⟩, fun k => ⟨g2a _, g2b _⟩⟩, ⟨fun k => ⟨g3a _, g3s k⟩, fun k => ⟨g3a _, g3d k⟩⟩,
    ⟨fun k => ⟨g4a _, g4b _⟩, fun k => ⟨g4a _, g4b _⟩⟩, ⟨fun k => ⟨g5a _, g5s k⟩, fun k => ⟨g5a _, g5d k⟩⟩,
    ⟨fun k => ⟨g6a _, g6b _⟩, fun k => ⟨g6a _, g6b _⟩⟩⟩

/-- The launch condition's last twelve terms say that every edge word, read signed, names a node of its level. -/
theorem ranges (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.argsOf m c).Ranges := by
  have e := congrFun (hpre c) ix0
  dsimp only [fn, fn_part1, fn_part2, fn_part3, fn_part4, fn_part5, fn_part6, fn_part7] at e
  obtain ⟨⟨h2s, h2d⟩, ⟨h3s, h3d⟩, ⟨h4s, h4d⟩, ⟨h5s, h5d⟩, ⟨h6s, h6d⟩⟩ := tail _ _ _ _ _ _ _ _ e
  exact ⟨h2s, h2d, h3s, h3d, h4s, h4d, h5s, h5d, h6s, h6d⟩

end Cert.PreRanges

end
-- ==== Proof.lean ====
import proofs.«421097_j4681514352669_2_alg».proof.Defs
import proofs.«421097_j4681514352669_2_alg».proof.Proof.Gen.Kernel
import proofs.«421097_j4681514352669_2_alg».proof.Proof.Gen.Kernel.Skeleton
import proofs.«421097_j4681514352669_2_alg».proof.Proof.Gen.Kernel.Launch
import proofs.«421097_j4681514352669_2_alg».proof.Proof.Gen.Kernel.Points
import proofs.«421097_j4681514352669_2_alg».proof.Proof.Gen.Kernel.Frame
import proofs.«421097_j4681514352669_2_alg».proof.Proof.Gen.KernelIdeal
import proofs.«421097_j4681514352669_2_alg».proof.Proof.Gen.KernelIdeal.Skeleton
import proofs.«421097_j4681514352669_2_alg».proof.Proof.Gen.KernelIdeal.Launch
import proofs.«421097_j4681514352669_2_alg».proof.Proof.Gen.KernelIdeal.Points
import proofs.«421097_j4681514352669_2_alg».proof.Proof.Gen.KernelIdeal.Frame
import proofs.«421097_j4681514352669_2_alg».proof.Proof.Gen.ReferenceIdeal
import proofs.«421097_j4681514352669_2_alg».proof.Proof.Gen.Pre_finite_inputs
import proofs.«421097_j4681514352669_2_alg».proof.Proof.KRun
import proofs.«421097_j4681514352669_2_alg».proof.Proof.KChain0
import proofs.«421097_j4681514352669_2_alg».proof.Proof.KChain1
import proofs.«421097_j4681514352669_2_alg».proof.Proof.KChain2
import proofs.«421097_j4681514352669_2_alg».proof.Proof.RefRunFast
import proofs.«421097_j4681514352669_2_alg».proof.Proof.RefRead
import proofs.«421097_j4681514352669_2_alg».proof.Proof.RChain0
import proofs.«421097_j4681514352669_2_alg».proof.Proof.RChain1
import proofs.«421097_j4681514352669_2_alg».proof.Proof.RChain2
import proofs.«421097_j4681514352669_2_alg».proof.Proof.PreRanges
import proofs.«421097_j4681514352669_2_alg».proof.Proof.Args
import Idealize.ShloMosaic.Adequacy
import Idealize.ShloMosaic.Init

noncomputable section

namespace Cert.Proof

open Idealize.ShloMosaic Idealize.ShloMosaic.TcCoe Idealize.SL.Sem

/-- The kernel's result buffer holds the network's function of its arguments: the three levels, composed. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hr : (Cert.KernelIdeal.argsOf m c).Ranges) :
    Cert.KernelIdeal.Gen.W19 (F := Ideal) m ρ c (Proc.devRef .tc Cert.KernelIdeal.main_v170) = Cert.Net.out (Cert.KernelIdeal.argsOf m c) :=
  Cert.KernelIdeal.KChain.lvl2 m ρ c hr
    (Cert.KernelIdeal.KChain.lvl1 m ρ c hr (Cert.KernelIdeal.KChain.lvl0 m ρ c hr) (Cert.KernelIdeal.KChain.lvl0_bf m ρ c hr))
    (Cert.KernelIdeal.KChain.lvl1_bf m ρ c hr (Cert.KernelIdeal.KChain.lvl0 m ρ c hr) (Cert.KernelIdeal.KChain.lvl0_bf m ρ c hr))

/-- So does the reference's result term. -/
theorem reference_value (a : Cert.Net.Args) (hr : a.Ranges) :
    Cert.ReferenceIdeal.Read.val_main_v265 (F := Ideal) a.x a.e0 a.c1 a.i1 a.c2 a.i2 a.conv1.w1 a.conv1.b1 a.conv1.g a.conv1.bt a.conv1.rm a.conv1.rv a.conv1.w2 a.conv1.b2 a.gin1.w1 a.gin1.b1 a.gin1.g a.gin1.bt a.gin1.rm a.gin1.rv a.gin1.w2 a.gin1.b2 a.gin2.w1 a.gin2.b1 a.gin2.g a.gin2.bt a.gin2.rm a.gin2.rv a.gin2.w2 a.gin2.b2 a.lin1_w a.lin1_b a.lin2_w a.lin2_b = Cert.Net.out a :=
  Cert.ReferenceIdeal.RChain.lvl2 a hr (Cert.ReferenceIdeal.RChain.lvl1 a hr (Cert.ReferenceIdeal.RChain.lvl0 a hr))

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueFast.run (F := Ideal) m ρ)

theorem preserves : Cert.preserves_Kernel_KernelIdeal := trivial

/-- From memories agreeing on the arguments both programs end with `Cert.Net.out` of the common arguments. -/
theorem algebraic : Cert.algebraic_KernelIdeal_ReferenceIdeal := by
  intro m ρ m' ρ' hpre hagree
  refine ⟨fun c => Cert.Net.out (Cert.KernelIdeal.argsOf m c), ?_, ?_⟩
  · exact (θ_run Cert.KernelIdeal.defs _ _).mono
      (fun r h c => ⟨(h c).1.trans (kernel_value m ρ c (Cert.PreRanges.ranges m hpre c)), (h c).2⟩)
      (Cert.KernelIdeal.Gen.run (F := Ideal) m ρ)
  · refine (θ_run Cert.ReferenceIdeal.defs _ _).mono (fun r h c => ⟨(h c).1.trans ?_, (h c).2⟩)
      (Cert.ReferenceIdeal.ValueFast.run (F := Ideal) m' ρ')
    have hargs : Cert.ReferenceIdeal.argsOf m' c = Cert.KernelIdeal.argsOf m c := by
      obtain ⟨h0, h1, h2, h3, h4, h5, h6, h7, h8, h9, h10, h11, h12, h13, h14, h15, h16, h17, h18, h19, h20, h21, h22, h23, h24, h25, h26, h27, h28, h29, h30, h31, h32, h33, h34⟩ := hagree c
      simp only [Cert.ReferenceIdeal.argsOf, Cert.KernelIdeal.argsOf, h0, h2, h3, h4, h5, h6, h7, h8, h9, h10, h11, h12, h13, h14, h15, h16, h17, h18, h19, h20, h21, h22, h23, h24, h25, h26, h27, h28, h29, h30, h31, h32, h33, h34]
    exact (reference_value (Cert.ReferenceIdeal.argsOf m' c) (hargs ▸ Cert.PreRanges.ranges m hpre c)).trans (congrArg Cert.Net.out hargs)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
